-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥
  ∧ IdealRules.named_const.Statement Cert.KernelIdeal.κ "neg_big" .f32 0xFF333333#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x2048x2048 : Shape := ⟨3, ![4, 2048, 2048]⟩
abbrev S_ : Shape := ⟨0, ![]⟩
abbrev S4x2048 : Shape := ⟨2, ![4, 2048]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4x2048x2048 : S_.BroadcastsInDim S4x2048x2048 (![] : Fin 0 → Fin S4x2048x2048.rank)
  reducesTo_S4x2048x2048_S4x2048_d2 : S4x2048x2048.ReducesTo [2] S4x2048
  reducesTo_S4x2048_S_d0_1 : S4x2048.ReducesTo [0, 1] S_

variable [Facts]

def fn_part1 {F : FTy → Type} [FloatOps F] (main_arg4 : FVec F S512 .f32) (main_arg5 : IVec S4x2048x2048 32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S4x2048x2048 32 := broadcastInDim S4x2048x2048 ![] bcast_S_S4x2048x2048 main_c_8
  let main_v25 : IVec S4x2048x2048 1 := cmpi .ne main_arg5 main_v24
  let main_c_9 : IVec S_ 1 := constantI S_ 1 0#1
  let main_v26 : IVec S4x2048 1 := (fun x v => Host.reduce IntOp.ori x v reducesTo_S4x2048x2048_S4x2048_d2 h_S_) main_v25 main_c_9
  let main_c_10 : IVec S_ 1 := constantI S_ 1 1#1
  let main_v27 : IVec S_ 1 := (fun x v => Host.reduce IntOp.andi x v reducesTo_S4x2048_S_d0_1 h_S_) main_v26 main_c_10
  let main_v28 : IVec S_ 1 := andi main_v23 main_v27
  main_v28

def fn {F : FTy → Type} [FloatOps F] (main_arg0 : FVec F S4x2048x512 .f32) (main_arg1 : FVec F S1536x512 .f32) (main_arg2 : FVec F S1536 .f32) (main_arg3 : FVec F S512x512 .f32) (main_arg4 : FVec F S512 .f32) (main_arg5 : IVec S4x2048x2048 32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S4x2048x512 : Shape := ⟨3, ![4, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x2048x2048 : Shape := ⟨3, ![4, 2048, 2048]⟩
abbrev S8192x512 : Shape := ⟨2, ![8192, 512]⟩
abbrev S512x1536 : Shape := ⟨2, ![512, 1536]⟩
abbrev S1x1536 : Shape := ⟨2, ![1, 1536]⟩
abbrev S8192x1536 : Shape := ⟨2, ![8192, 1536]⟩
abbrev S1024x512 : Shape := ⟨2, ![1024, 512]⟩
abbrev S1024x1536 : Shape := ⟨2, ![1024, 1536]⟩
abbrev S4x2048x1536 : Shape := ⟨3, ![4, 2048, 1536]⟩
abbrev S1x512 : Shape := ⟨2, ![1, 512]⟩
abbrev S1x1024x512 : Shape := ⟨3, ![1, 1024, 512]⟩
abbrev S1x512x512 : Shape := ⟨3, ![1, 512, 512]⟩
abbrev S1024x8 : Shape := ⟨2, ![1024, 8]⟩
abbrev S1024x64 : Shape := ⟨2, ![1024, 64]⟩
abbrev S512x64 : Shape := ⟨2, ![512, 64]⟩
abbrev S1024x1 : Shape := ⟨2, ![1024, 1]⟩
abbrev S1024 : Shape := ⟨1, ![1024]⟩

abbrev nBuf : Space → Nat
  | .hbm => 16
  | .vmem => 21
  | .smem => 0
  | _ => 0

abbrev bufTy : (tb : Table) → Fin (tcTables nBuf tb) → BufTy
  | .hbm, ⟨0, _⟩ => ⟨S4x2048x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S4x2048x2048, .i32⟩
  | .hbm, ⟨6, _⟩ => ⟨S8192x512, .f32⟩
  | .hbm, ⟨7, _⟩ => ⟨S512x1536, .f32⟩
  | .hbm, ⟨8, _⟩ => ⟨S512x1536, .bf16⟩
  | .hbm, ⟨9, _⟩ => ⟨S1x1536, .f32⟩
  | .hbm, ⟨10, _⟩ => ⟨S8192x1536, .bf16⟩
  | .hbm, ⟨11, _⟩ => ⟨S4x2048x1536, .bf16⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S4x2048x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1x1536, .f32⟩
  | .local _ .vmem, ⟨4, _⟩ => ⟨S1024x1536, .bf16⟩
  | .local _ .vmem, ⟨5, _⟩ => ⟨S1024x1536, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1024x512, .i32⟩
  | .local _ .vmem, ⟨13, _⟩ => ⟨S1x1024x512, .i32⟩
  | .local _ .vmem, ⟨14, _⟩ => ⟨S512x512, .bf16⟩
  | .local _ .vmem, ⟨15, _⟩ => ⟨S1x512, .f32⟩
  | .local _ .vmem, ⟨16, _⟩ => ⟨S1x1024x512, .f32⟩
  | .local _ .vmem, ⟨17, _⟩ => ⟨S1x1024x512, .f32⟩
  | .local _ .vmem, ⟨18, _⟩ => ⟨S1024x8, .f32⟩
  | .local _ .vmem, ⟨19, _⟩ => ⟨S1024x8, .f32⟩
  | .local _ .vmem, ⟨20, _⟩ => ⟨S1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v309 : BitVec 1 := Scalar.cmpi .eq arg2 c3_i32
  let v310 : BitVec 32 := Scalar.extui v309
  let c0_i32_142 : BitVec 32 := 0#32
  let v311 : BitVec 1 := Scalar.cmpi .ne v310 c0_i32_142
  v311

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x512_S8192x512 : S4x2048x512.ShapeCasts S8192x512
  transposes_S1536x512_S512x1536_1_0 : S1536x512.Transposes [1, 0] S512x1536
  bitsLt_bf16_f32 : FTy.bits .bf16 < FTy.bits .f32
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S8192x1536_S4x2048x1536 : S8192x1536.ShapeCasts S4x2048x1536
  transposes_S512x512_S512x512_1_0 : S512x512.Transposes [1, 0] S512x512
  shapeCasts_S512_S1x512 : S512.ShapeCasts S1x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  slices_S1024x512_o0_0_S1024x64 : S1024x512.Slices ![0, 0] S1024x64
  slices_S512x512_o0_0_S512x64 : S512x512.Slices ![0, 0] S512x64
  inb_S1024x8_S1024x1_0_0 : ∀ a, (![0, 0] : Fin 2 → Nat) a + S1024x1.size a ≤ S1024x8.size a
  h_S1024x1 : 0 < S1024x1.numel
  reduces_S1024x512_S1024 : S1024x512.Reduces [1] S1024
  shapeCasts_S1024_S1024x1 : S1024.ShapeCasts S1024x1
  broadcasts_S1024x1_S1024x512 : S1024x1.Broadcasts S1024x512
  inb_S1024x512_S1024x64_0_0 : ∀ a, (![0, 0] : Fin 2 → Nat) a + S1024x64.size a ≤ S1024x512.size a
  h_S1024x64 : 0 < S1024x64.numel
  broadcasts_S1024x1_S1024x64 : S1024x1.Broadcasts S1024x64
  shapeCasts_S1024x64_S1024x64 : S1024x64.ShapeCasts S1024x64
  shapeCasts_S1024x1_S1024x1 : S1024x1.ShapeCasts S1024x1
  slices_S1024x512_o0_64_S1024x64 : S1024x512.Slices ![0, 64] S1024x64
  slices_S512x512_o0_64_S512x64 : S512x512.Slices ![0, 64] S512x64
  inb_S1024x8_S1024x1_0_1 : ∀ a, (![0, 1] : Fin 2 → Nat) a + S1024x1.size a ≤ S1024x8.size a
  inb_S1024x512_S1024x64_0_64 : ∀ a, (![0, 64] : Fin 2 → Nat) a + S1024x64.size a ≤ S1024x512.size a
  slices_S1024x512_o0_128_S1024x64 : S1024x512.Slices ![0, 128] S1024x64
  slices_S512x512_o0_128_S512x64 : S512x512.Slices ![0, 128] S512x64
  inb_S1024x8_S1024x1_0_2 : ∀ a, (![0, 2] : Fin 2 → Nat) a + S1024x1.size a ≤ S1024x8.size a
  inb_S1024x512_S1024x64_0_128 : ∀ a, (![0, 128] : Fin 2 → Nat) a + S1024x64.size a ≤ S1024x512.size a
  slices_S1024x512_o0_192_S1024x64 : S1024x512.Slices ![0, 192] S1024x64
  slices_S512x512_o0_192_S512x64 : S512x512.Slices ![0, 192] S512x64
  inb_S1024x8_S1024x1_0_3 : ∀ a, (![0, 3] : Fin 2 → Nat) a + S1024x1.size a ≤ S1024x8.size a
  inb_S1024x512_S1024x64_0_192 : ∀ a, (![0, 192] : Fin 2 → Nat) a + S1024x64.size a ≤ S1024x512.size a
  slices_S1024x512_o0_256_S1024x64 : S1024x512.Slices ![0, 256] S1024x64
  slices_S512x512_o0_256_S512x64 : S512x512.Slices ![0, 256] S512x64
  inb_S1024x8_S1024x1_0_4 : ∀ a, (![0, 4] : Fin 2 → Nat) a + S1024x1.size a ≤ S1024x8.size a
  inb_S1024x512_S1024x64_0_256 : ∀ a, (![0, 256] : Fin 2 → Nat) a + S1024x64.size a ≤ S1024x512.size a
  slices_S1024x512_o0_320_S1024x64 : S1024x512.Slices ![0, 320] S1024x64
  slices_S512x512_o0_320_S512x64 : S512x512.Slices ![0, 320] S512x64
  inb_S1024x8_S1024x1_0_5 : ∀ a, (![0, 5] : Fin 2 → Nat) a + S1024x1.size a ≤ S1024x8.size a
  inb_S1024x512_S1024x64_0_320 : ∀ a, (![0, 320] : Fin 2 → Nat) a + S1024x64.size a ≤ S1024x512.size a
  slices_S1024x512_o0_384_S1024x64 : S1024x512.Slices ![0, 384] S1024x64
  slices_S512x512_o0_384_S512x64 : S512x512.Slices ![0, 384] S512x64
  inb_S1024x8_S1024x1_0_6 : ∀ a, (![0, 6] : Fin 2 → Nat) a + S1024x1.size a ≤ S1024x8.size a
  inb_S1024x512_S1024x64_0_384 : ∀ a, (![0, 384] : Fin 2 → Nat) a + S1024x64.size a ≤ S1024x512.size a
  slices_S1024x512_o0_448_S1024x64 : S1024x512.Slices ![0, 448] S1024x64
  slices_S512x512_o0_448_S512x64 : S512x512.Slices ![0, 448] S512x64
  inb_S1024x8_S1024x1_0_7 : ∀ a, (![0, 7] : Fin 2 → Nat) a + S1024x1.size a ≤ S1024x8.size a
  inb_S1024x512_S1024x64_0_448 : ∀ a, (![0, 448] : Fin 2 → Nat) a + S1024x64.size a ≤ S1024x512.size a
  slices_S1024x8_o0_0_S1024x1 : S1024x8.Slices ![0, 0] S1024x1
  slices_S1024x8_o0_1_S1024x1 : S1024x8.Slices ![0, 1] S1024x1
  slices_S1024x8_o0_2_S1024x1 : S1024x8.Slices ![0, 2] S1024x1
  slices_S1024x8_o0_3_S1024x1 : S1024x8.Slices ![0, 3] S1024x1
  slices_S1024x8_o0_4_S1024x1 : S1024x8.Slices ![0, 4] S1024x1
  slices_S1024x8_o0_5_S1024x1 : S1024x8.Slices ![0, 5] S1024x1
  slices_S1024x8_o0_6_S1024x1 : S1024x8.Slices ![0, 6] S1024x1
  slices_S1024x8_o0_7_S1024x1 : S1024x8.Slices ![0, 7] S1024x1
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S1024x512_S512x1536_S1024x1536_1_0_0_1_n_n_wf : DotDims.WF S1024x512 S512x1536 S1024x1536 [1] [0] [0] [1] [] []
  dot_S1024x64_S512x64_S1024x512_1_1_0_0_n_n_wf : DotDims.WF S1024x64 S512x64 S1024x512 [1] [1] [0] [0] [] []
  dot_S1024x512_S512x64_S1024x64_1_0_0_1_n_n_wf : DotDims.WF S1024x512 S512x64 S1024x64 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S8192x1536.size a
  hwx0_3 : ∀ i : grid0.Coords, EltTy.bits .bf16 = 32 ∨ (Rect.block (s := S8192x1536) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x2048x1536.size a
  hwx1_0 : ∀ i : grid1.Coords, EltTy.bits .bf16 = 32 ∨ (Rect.block (s := S4x2048x1536) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S4x2048x1536.size a
  hwx1_1 : ∀ i : grid1.Coords, EltTy.bits .bf16 = 32 ∨ (Rect.block (s := S4x2048x1536) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x2048x1536.size a
  hwx1_2 : ∀ i : grid1.Coords, EltTy.bits .bf16 = 32 ∨ (Rect.block (s := S4x2048x1536) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x2048x2048.size a
  hwx1_3 : ∀ i : grid1.Coords, EltTy.bits .i32 = 32 ∨ (Rect.block (s := S4x2048x2048) S1x1024x512.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x512.size a ≤ S4x2048x512.size a
  hwx1_6 : ∀ i : grid1.Coords, EltTy.bits .f32 = 32 ∨ (Rect.block (s := S4x2048x512) S1x1024x512.size (cc1_transform_6 i) (hinb1_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S1024x64_S512x64_S1024x512_1_1_0_0_n_n : DotDims S1024x64 S512x64 S1024x512 where
  lhsContracting := [1]
  rhsContracting := [1]
  lhsNonContracting := [0]
  rhsNonContracting := [0]
  lhsBatch := []
  rhsBatch := []
  wf := dot_S1024x64_S512x64_S1024x512_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x2048x2048 : Shape := ⟨3, ![4, 2048, 2048]⟩
abbrev S4x2048x1536 : Shape := ⟨3, ![4, 2048, 1536]⟩
abbrev S1x1x1536 : Shape := ⟨3, ![1, 1, 1536]⟩
abbrev S4x2048x3x8x64 : Shape := ⟨5, ![4, 2048, 3, 8, 64]⟩
abbrev S3x4x8x2048x64 : Shape := ⟨5, ![3, 4, 8, 2048, 64]⟩
abbrev S1x4x8x2048x64 : Shape := ⟨5, ![1, 4, 8, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x1x2048x2048 : Shape := ⟨4, ![4, 1, 2048, 2048]⟩
abbrev S4x8x2048 : Shape := ⟨3, ![4, 8, 2048]⟩
abbrev S4x8x2048x1 : Shape := ⟨4, ![4, 8, 2048, 1]⟩
abbrev S4x2048x8x64 : Shape := ⟨4, ![4, 2048, 8, 64]⟩
abbrev S1x1x512 : Shape := ⟨3, ![1, 1, 512]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S4x2048x2048, .i32⟩
  | .hbm, ⟨6, _⟩ => ⟨S4x2048x1536, .f32⟩
  | .hbm, ⟨7, _⟩ => ⟨S1x1x1536, .f32⟩
  | .hbm, ⟨8, _⟩ => ⟨S4x2048x1536, .f32⟩
  | .hbm, ⟨9, _⟩ => ⟨S4x2048x1536, .f32⟩
  | .hbm, ⟨10, _⟩ => ⟨S4x2048x3x8x64, .f32⟩
  | .hbm, ⟨11, _⟩ => ⟨S3x4x8x2048x64, .f32⟩
  | .hbm, ⟨12, _⟩ => ⟨S1x4x8x2048x64, .f32⟩
  | .hbm, ⟨13, _⟩ => ⟨S4x8x2048x64, .f32⟩
  | .hbm, ⟨14, _⟩ => ⟨S1x4x8x2048x64, .f32⟩
  | .hbm, ⟨15, _⟩ => ⟨S4x8x2048x64, .f32⟩
  | .hbm, ⟨16, _⟩ => ⟨S1x4x8x2048x64, .f32⟩
  | .hbm, ⟨17, _⟩ => ⟨S4x8x2048x64, .f32⟩
  | .hbm, ⟨18, _⟩ => ⟨S4x8x2048x2048, .f32⟩
  | .hbm, ⟨19, _⟩ => ⟨S_, .f32⟩
  | .hbm, ⟨20, _⟩ => ⟨S4x8x2048x2048, .f32⟩
  | .hbm, ⟨21, _⟩ => ⟨S4x8x2048x2048, .f32⟩
  | .hbm, ⟨22, _⟩ => ⟨S4x1x2048x2048, .i32⟩
  | .hbm, ⟨23, _⟩ => ⟨S_, .i32⟩
  | .hbm, ⟨24, _⟩ => ⟨S4x1x2048x2048, .i32⟩
  | .hbm, ⟨25, _⟩ => ⟨S4x1x2048x2048, .i1⟩
  | .hbm, ⟨26, _⟩ => ⟨S_, .f32⟩
  | .hbm, ⟨27, _⟩ => ⟨S_, .f32⟩
  | .hbm, ⟨28, _⟩ => ⟨S4x8x2048x2048, .i1⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S4x8x2048, .f32⟩
  | .hbm, ⟨33, _⟩ => ⟨S_, .f32⟩
  | .hbm, ⟨34, _⟩ => ⟨S4x8x2048, .f32⟩
  | .hbm, ⟨35, _⟩ => ⟨S4x8x2048, .f32⟩
  | .hbm, ⟨36, _⟩ => ⟨S4x8x2048x1, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .f32⟩
  | .hbm, ⟨40, _⟩ => ⟨S_, .f32⟩
  | .hbm, ⟨41, _⟩ => ⟨S4x8x2048, .f32⟩
  | .hbm, ⟨42, _⟩ => ⟨S4x8x2048x1, .f32⟩
  | .hbm, ⟨43, _⟩ => ⟨S4x8x2048x2048, .f32⟩
  | .hbm, ⟨44, _⟩ => ⟨S4x8x2048x2048, .f32⟩
  | .hbm, ⟨45, _⟩ => ⟨S4x8x2048x64, .f32⟩
  | .hbm, ⟨46, _⟩ => ⟨S4x2048x8x64, .f32⟩
  | .hbm, ⟨47, _⟩ => ⟨S4x2048x512, .f32⟩
  | .hbm, ⟨48, _⟩ => ⟨S4x2048x512, .f32⟩
  | .hbm, ⟨49, _⟩ => ⟨S1x1x512, .f32⟩
  | .hbm, ⟨50, _⟩ => ⟨S4x2048x512, .f32⟩
  | .hbm, ⟨51, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S4x2048x1536_0_1_2 : S1x1x1536.BroadcastsInDim S4x2048x1536 (![0, 1, 2] : Fin 3 → Fin S4x2048x1536.rank)
  shapeCasts_S4x2048x1536_S4x2048x3x8x64 : S4x2048x1536.ShapeCasts S4x2048x3x8x64
  transposes_S4x2048x3x8x64_S3x4x8x2048x64_2_0_3_1_4 : S4x2048x3x8x64.Transposes [2, 0, 3, 1, 4] S3x4x8x2048x64
  slices_S3x4x8x2048x64_S1x4x8x2048x64_0_0_0_0_0 : S3x4x8x2048x64.Slices ![0, 0, 0, 0, 0] S1x4x8x2048x64
  shapeCasts_S1x4x8x2048x64_S4x8x2048x64 : S1x4x8x2048x64.ShapeCasts S4x8x2048x64
  slices_S3x4x8x2048x64_S1x4x8x2048x64_1_0_0_0_0 : S3x4x8x2048x64.Slices ![1, 0, 0, 0, 0] S1x4x8x2048x64
  slices_S3x4x8x2048x64_S1x4x8x2048x64_2_0_0_0_0 : S3x4x8x2048x64.Slices ![2, 0, 0, 0, 0] S1x4x8x2048x64
  bcast_S_S4x8x2048x2048 : S_.BroadcastsInDim S4x8x2048x2048 (![] : Fin 0 → Fin S4x8x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  dot_S4x2048x512_S1536x512_S4x2048x1536_2_1_01_0_n_n_wf : DotDims.WF S4x2048x512 S1536x512 S4x2048x1536 [2] [1] [0, 1] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]
  dot_S4x2048x512_S512x512_S4x2048x512_2_1_01_0_n_n_wf : DotDims.WF S4x2048x512 S512x512 S4x2048x512 [2] [1] [0, 1] [0] [] []

variable [Facts₀]

def dot_S4x2048x512_S1536x512_S4x2048x1536_2_1_01_0_n_n : DotDims S4x2048x512 S1536x512 S4x2048x1536 where
  lhsContracting := [2]
  rhsContracting := [1]
  lhsNonContracting := [0, 1]
  rhsNonContracting := [0]
  lhsBatch := []
  rhsBatch := []
  wf := dot_S4x2048x512_S1536x512_S4x2048x1536_2_1_01_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf
def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf

class Facts : Prop extends Facts₀ where

variable [Facts]
-- ==== Proof.KRegion0.lean ====
-- Region 0 (the tiled projection): at every grid point the body runs to its end and leaves the product block in the output block.
import proofs.«416084_j63617055588838_3_alg».proof.Proof.Gen.Kernel.Launch
import proofs.«416084_j63617055588838_3_alg».proof.Proof.Gen.Kernel.Skeleton
import proofs.«416084_j63617055588838_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

variable (x0 : Vec F S1024x512 .f32) (x1 : Vec F S512x1536 .bf16) (x2 : Vec F S1x1536 .f32) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1024x512 := Rect.unit (s := S1024x512) ![0, 0] S1024x512.size inb_S1024x512_S1024x512_0_0
abbrev rW : Rect S512x1536 := Rect.unit (s := S512x1536) ![0, 0] S512x1536.size inb_S512x1536_S512x1536_0_0
abbrev rB : Rect S1x1536 := Rect.unit (s := S1x1536) ![0, 0] S1x1536.size inb_S1x1536_S1x1536_0_0
abbrev rO : Rect S1024x1536 := Rect.unit (s := S1024x1536) ![0, 0] S1024x1536.size inb_S1024x1536_S1024x1536_0_0

def out0_3 : Vec F S1024x1536 .bf16 :=
  View.canon [⟨rO, k0_pay1 (View.ld x0 rX) (View.ld x1 rW) (View.ld x2 rB)⟩]

theorem cover0_3 (p0 : Vec F S1024x1536 .bf16) (y : S1024x1536.Idx) :
    ∃ pc ∈ ([⟨rO, p0⟩] : List (View.Piece (Elt F) S1024x1536 .bf16)), y ∈ pc.1.set :=
  View.cover_of_tiled [⟨rO, p0⟩] S1024x1536.size (by rfl) y

set_option maxHeartbeats 1000000 in
theorem sound_kernel0 (E : Set ℕ) (i : grid0.Coords)
    (arg1 : Memref sig .tc .vmem S1024x512 .f32) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S1024x1536 .bf16) (harg4 : arg4.IsWhole)
    (x0 : Vec F S1024x512 .f32) (x1 : Vec F S512x1536 .bf16) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = out0_3 (iblk0 V c 0 t) (iblk0 V c 1 t) (iblk0 V c 2 t) := by dsimp only [dat0]

theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d

def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 : BodyObligation (dat0 (F := F) V c) (defs₀ (F := F)) Variants.none () Set.univ := fun t => by
  rw [bigSep_W0, bigSep_W0]
  exact sound_body0 V c t

end Cert.Kernel.Hand

end
-- ==== Proof.KRegion1Runs.lean ====
-- Region 1 (attention): the body run in its three control cases (first, middle and last key tile), with the stores each run leaves.
import proofs.«416084_j63617055588838_3_alg».proof.Proof.Gen.Kernel.Launch
import proofs.«416084_j63617055588838_3_alg».proof.Proof.Gen.Kernel.Skeleton
import proofs.«416084_j63617055588838_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_6 : ∀ t : Fin cfg1.N, ¬cond1_1 (grid1.coords t) → cfg1.idle 6 (grid1.coords t) = true := by decide +kernel

theorem noFlush1_6 : ∀ t : Fin cfg1.N, ¬cond1_1 (grid1.coords t) → (cfg1.win 6).flush t = false := by decide +kernel

theorem liveAt1_6 : ∀ t : Fin cfg1.N, cond1_1 (grid1.coords t) → cfg1.idle 6 (grid1.coords t) = false := by decide +kernel

abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x512 .f32 := win1_6.stage (cfg1.slots t 6)
abbrev hs1_6 (t : Fin cfg1.N) : (ms1_6 t).IsWhole := hstage1_6 ((cfg1.slots t 6).cast nbuf1_6)

abbrev scM1_0 : Memref sig .tc .vmem S1024x8 .f32 := Memref.whole cc1_scratch0
abbrev scM1_1 : Memref sig .tc .vmem S1024x8 .f32 := Memref.whole cc1_scratch1
abbrev scM1_2 : Memref sig .tc .vmem S1024x512 .f32 := Memref.whole cc1_scratch2

variable (c : Dev nD) (i : grid1.Coords)
  (arg3 : Memref sig .tc .vmem S1x1024x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x1024x512 .i32) (harg6 : arg6.IsWhole)
  (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole)
  (arg10 : Memref sig .tc .vmem S1024x8 .f32) (harg10 : arg10.IsWhole) (arg11 : Memref sig .tc .vmem S1024x8 .f32) (harg11 : arg11.IsWhole) (arg12 : Memref sig .tc .vmem S1024x512 .f32) (harg12 : arg12.IsWhole)

section A
variable (hc0 : cond1_0 i) (hc1 : ¬cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)

set_option maxHeartbeats 4000000 in
noncomputable def kernelRun1_A :
    Σ' (LS0 : List (View.Piece (Elt F) S1024x8 .f32)) (LS1 : List (View.Piece (Elt F) S1024x8 .f32)), { LS2 : List (View.Piece (Elt F) S1024x512 .f32) //
      ∀ (y : Vec F S1x1024x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare y
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare y
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun y E K => ?run⟩
  case run =>
    rw [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, H4, H5, H9, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [H5]; · iexact H5
    isplitl [H9]; · iexact H9
    isplitl [HS0]; · iexists _; iexact HS0
    isplitl [HS1]; · iexists _; iexact HS1
    iexists _; iexact HS2

theorem scover1_A_0 (yy : S1024x8.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).1, yy ∈ pc.1.set :=
  View.cover_of_tiledL (s := S1024x8) _ S1024x1.size (by sl_kernel_rfl) yy

def sout1_A_0 : Vec F S1024x8 .f32 :=
  View.canon (kernelRun1_A c i arg3 harg3 arg4 harg4 arg5 harg5 arg6 harg6 arg7 harg7 arg8 harg8 arg9 harg9 arg10 harg10 arg11 harg11 arg12 harg12 hc0 hc1 x0 x1 x2 x3 x4 x5).1

theorem scover1_A_1 (yy : S1024x8.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, yy ∈ pc.1.set :=
  View.cover_of_tiledL (s := S1024x8) _ S1024x1.size (by sl_kernel_rfl) yy

def sout1_A_1 : Vec F S1024x8 .f32 :=
  View.canon (kernelRun1_A c i arg3 harg3 arg4 harg4 arg5 harg5 arg6 harg6 arg7 harg7 arg8 harg8 arg9 harg9 arg10 harg10 arg11 harg11 arg12 harg12 hc0 hc1 x0 x1 x2 x3 x4 x5).2.1

theorem scover1_A_2 (yy : S1024x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, yy ∈ pc.1.set :=
  View.cover_of_tiledL (s := S1024x512) _ S1024x64.size (by sl_kernel_rfl) yy

def sout1_A_2 : Vec F S1024x512 .f32 :=
  View.canon (kernelRun1_A c i arg3 harg3 arg4 harg4 arg5 harg5 arg6 harg6 arg7 harg7 arg8 harg8 arg9 harg9 arg10 harg10 arg11 harg11 arg12 harg12 hc0 hc1 x0 x1 x2 x3 x4 x5).2.2.1

end A

section B
variable (hc0 : ¬cond1_0 i) (hc1 : ¬cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)
  (xs0 : Vec F S1024x8 .f32) (xs1 : Vec F S1024x8 .f32) (xs2 : Vec F S1024x512 .f32)

set_option maxHeartbeats 4000000 in
noncomputable def kernelRun1_B :
    Σ' (LS0 : List (View.Piece (Elt F) S1024x8 .f32)) (LS1 : List (View.Piece (Elt F) S1024x8 .f32)), { LS2 : List (View.Piece (Elt F) S1024x512 .f32) //
      ∀ (y : Vec F S1x1024x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare y
            ∗ owns (c : Thread nD τ) arg10 fullShare xs0
            ∗ owns (c : Thread nD τ) arg11 fullShare xs1
            ∗ owns (c : Thread nD τ) arg12 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare y
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun y E K => ?run⟩
  case run =>
    rw [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, H4, H5, H9, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [H5]; · iexact H5
    isplitl [H9]; · iexact H9
    isplitl [HS0]; · iexists _; iexact HS0
    isplitl [HS1]; · iexists _; iexact HS1
    iexists _; iexact HS2

theorem scover1_B_0 (yy : S1024x8.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1, yy ∈ pc.1.set :=
  View.cover_of_tiledL (s := S1024x8) _ S1024x1.size (by sl_kernel_rfl) yy

def sout1_B_0 : Vec F S1024x8 .f32 :=
  View.canon (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1

theorem scover1_B_1 (yy : S1024x8.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, yy ∈ pc.1.set :=
  View.cover_of_tiledL (s := S1024x8) _ S1024x1.size (by sl_kernel_rfl) yy

def sout1_B_1 : Vec F S1024x8 .f32 :=
  View.canon (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1

theorem scover1_B_2 (yy : S1024x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, yy ∈ pc.1.set :=
  View.cover_of_tiledL (s := S1024x512) _ S1024x64.size (by sl_kernel_rfl) yy

def sout1_B_2 : Vec F S1024x512 .f32 :=
  View.canon (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1

end B

section C
variable (hc0 : ¬cond1_0 i) (hc1 : cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)
  (xs0 : Vec F S1024x8 .f32) (xs1 : Vec F S1024x8 .f32) (xs2 : Vec F S1024x512 .f32)

set_option maxHeartbeats 4000000 in
noncomputable def kernelRun1_C :
    Σ' (L9 : List (View.Piece (Elt F) S1x1024x512 .f32)) (LS0 : List (View.Piece (Elt F) S1024x8 .f32)) (LS1 : List (View.Piece (Elt F) S1024x8 .f32)), { LS2 : List (View.Piece (Elt F) S1024x512 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ (∃ d, owns (c : Thread nD τ) arg9 fullShare d)
            ∗ owns (c : Thread nD τ) arg10 fullShare xs0
            ∗ owns (c : Thread nD τ) arg11 fullShare xs1
            ∗ owns (c : Thread nD τ) arg12 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    rw [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]; · iexists _; iexact H9
    isplitl [HS0]; · iexists _; iexact HS0
    isplitl [HS1]; · iexists _; iexact HS1
    iexists _; iexact HS2

theorem cover1_C_6 (yy : S1x1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, yy ∈ pc.1.set :=
  View.cover_of_tiledL (s := S1x1024x512) _ S1x1024x512.size (by sl_kernel_rfl) yy

def out1_C_6 : Vec F S1x1024x512 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1

theorem scover1_C_0 (yy : S1024x8.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, yy ∈ pc.1.set :=
  View.cover_of_tiledL (s := S1024x8) _ S1024x1.size (by sl_kernel_rfl) yy

def sout1_C_0 : Vec F S1024x8 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1

theorem scover1_C_1 (yy : S1024x8.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, yy ∈ pc.1.set :=
  View.cover_of_tiledL (s := S1024x8) _ S1024x1.size (by sl_kernel_rfl) yy

def sout1_C_1 : Vec F S1024x8 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1

theorem scover1_C_2 (yy : S1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, yy ∈ pc.1.set :=
  View.cover_of_tiledL (s := S1024x512) _ S1024x64.size (by sl_kernel_rfl) yy

def sout1_C_2 : Vec F S1024x512 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1

end C

end Cert.Kernel.Hand

end
-- ==== Proof.KRegion1.lean ====
-- Region 1 (attention): what the three accumulators hold after each grid point, and that the body runs to its end at every point.
import proofs.«416084_j63617055588838_3_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev Sc (F : FTy → Type) : Type := Vec F S1024x8 .f32 × Vec F S1024x8 .f32 × Vec F S1024x512 .f32

theorem N1_pos : 0 < cfg1.N := by rw [show cfg1.N = 32 from N_1]; omega

theorem not_last_of_first (t : Fin cfg1.N) (h0 : t.val % 4 = 0) : ¬cond1_1 (grid1.coords t) :=
  fun h => by have := (hcond1_1 t).mp h; omega

def scA (c : Dev nD) (t : Fin cfg1.N) (h0 : t.val % 4 = 0) : Sc F :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t) (iblk1 V c 3 t) (iblk1 V c 4 t) (iblk1 V c 5 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t) (iblk1 V c 3 t) (iblk1 V c 4 t) (iblk1 V c 5 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t) (iblk1 V c 3 t) (iblk1 V c 4 t) (iblk1 V c 5 t))

def scB (c : Dev nD) (t : Fin cfg1.N) (h0 : ¬t.val % 4 = 0) (h1 : ¬t.val % 4 = 3) (s : Sc F) : Sc F :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s.1 s.2.1 s.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s.1 s.2.1 s.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s.1 s.2.1 s.2.2)

def scC (c : Dev nD) (t : Fin cfg1.N) (h0 : ¬t.val % 4 = 0) (h1 : t.val % 4 = 3) (s : Sc F) : Sc F :=
  (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2)

def outC (c : Dev nD) (t : Fin cfg1.N) (h0 : ¬t.val % 4 = 0) (h1 : t.val % 4 = 3) (s : Sc F) : Vec F S1x1024x512 .f32 :=
  out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2

def scAt (c : Dev nD) : ℕ → Sc F
  | 0 => scA V c ⟨0, N1_pos⟩ (Nat.zero_mod 4)
  | n + 1 =>
    if hn : n + 1 < cfg1.N then
      if h0 : (n + 1) % 4 = 0 then scA V c ⟨n + 1, hn⟩ h0
      else if h1 : (n + 1) % 4 = 3 then scC V c ⟨n + 1, hn⟩ h0 h1 (scAt c n)
      else scB V c ⟨n + 1, hn⟩ h0 h1 (scAt c n)
    else scAt c n

theorem scAt_A (c : Dev nD) (t : Fin cfg1.N) (h0 : t.val % 4 = 0) : scAt V c t.val = scA V c t h0 := by
  obtain ⟨n, hn⟩ := t
  cases n with
  | zero => exact rfl
  | succ n => exact (dif_pos hn).trans ((dif_pos h0).trans rfl)

theorem scAt_B (c : Dev nD) (t : Fin cfg1.N) (h0 : ¬t.val % 4 = 0) (h1 : ¬t.val % 4 = 3) :
    scAt V c t.val = scB V c t h0 h1 (scAt V c (t.val - 1)) := by
  obtain ⟨n, hn⟩ := t
  cases n with
  | zero => exact absurd (Nat.zero_mod 4) h0
  | succ n => exact (dif_pos hn).trans ((dif_neg h0).trans ((dif_neg h1).trans rfl))

theorem scAt_C (c : Dev nD) (t : Fin cfg1.N) (h0 : ¬t.val % 4 = 0) (h1 : t.val % 4 = 3) :
    scAt V c t.val = scC V c t h0 h1 (scAt V c (t.val - 1)) := by
  obtain ⟨n, hn⟩ := t
  cases n with
  | zero => exact absurd (Nat.zero_mod 4) h0
  | succ n => exact (dif_pos hn).trans ((dif_neg h0).trans ((dif_pos h1).trans rfl))

def out1_6 (c : Dev nD) (t : Fin cfg1.N) : Vec F S1x1024x512 .f32 :=
  if h1 : t.val % 4 = 3 then outC V c t (fun h => by omega) h1 (scAt V c (t.val - 1))
  else fun _ => (FloatOps.ofBits .f32 0#32 : F .f32)

theorem out1_6_C (c : Dev nD) (t : Fin cfg1.N) (h0 : ¬t.val % 4 = 0) (h1 : t.val % 4 = 3) :
    out1_6 V c t = outC V c t h0 h1 (scAt V c (t.val - 1)) := dif_pos h1

def withScratch (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ P2)

theorem PhiA1_eq (c : Dev nD) :
    (Pipeline.ΦA spec1 c : sProp 𝕄)
      = iprop(withScratch c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA withScratch; rw [scopedRest1_eq]; simp only [scM1_0, scM1_1, scM1_2, owns_whole]; try rfl

def PhiS1 (c : Dev nD) : ℕ → sProp 𝕄
  | 0 => Pipeline.ΦA spec1 c
  | n + 1 => iprop(withScratch c (owns (c : Thread nD τ) scM1_0 fullShare (scAt V c n).1) (owns (c : Thread nD τ) scM1_1 fullShare (scAt V c n).2.1) (owns (c : Thread nD τ) scM1_2 fullShare (scAt V c n).2.2) ∗ (∃ r, prngReg c r))

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(withScratch c (owns (c : Thread nD τ) scM1_0 fullShare (scAt V c n).1) (owns (c : Thread nD τ) scM1_1 fullShare (scAt V c n).2.1) (owns (c : Thread nD τ) scM1_2 fullShare (scAt V c n).2.2) ∗ (∃ r, prngReg c r)) := rfl

theorem PhiS1_pos (c : Dev nD) (n : ℕ) (hz : n ≠ 0) :
    PhiS1 V c n = iprop(withScratch c (owns (c : Thread nD τ) scM1_0 fullShare (scAt V c (n - 1)).1) (owns (c : Thread nD τ) scM1_1 fullShare (scAt V c (n - 1)).2.1) (owns (c : Thread nD τ) scM1_2 fullShare (scAt V c (n - 1)).2.2) ∗ (∃ r, prngReg c r)) := by
  cases n with
  | zero => exact absurd rfl hz
  | succ n => rfl

theorem PhiS1_some (c : Dev nD) (n : ℕ) : PhiS1 V c n ⊢ (Pipeline.ΦA spec1 c : sProp 𝕄) := by
  by_cases hz : n = 0
  · rw [PhiS1_zero V c n hz]
  · rw [PhiS1_pos V c n hz, PhiA1_eq]; unfold withScratch
    iintro ⟨⟨Hs0, Hs1, Hs2, Hs3, Hs4, Hs5, HS0, HS1, HS2⟩, Hg⟩
    isplitr [Hg]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [HS0]; · iexists _; iexact HS0
      isplitl [HS1]; · iexists _; iexact HS1
      iexists _; iexact HS2
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := PhiS1 V c t.val
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := by
  dsimp only [dat1]; simp only [Fin.val_succ]

theorem Phi1_first (c : Dev nD) : Pipeline.ΦA spec1 c ⊢ ((dat1 (F := F) V c).Φ 0 : sProp 𝕄) := by
  rw [show (dat1 V c).Φ 0 = PhiS1 V c 0 from rfl, PhiS1_zero V c 0 rfl]

theorem Phi1_last (c : Dev nD) : (dat1 (F := F) V c).Φ (Fin.last cfg1.N) ⊢ (Pipeline.ΦA spec1 c : sProp 𝕄) := by
  rw [show (dat1 V c).Φ (Fin.last cfg1.N) = PhiS1 V c (Fin.last cfg1.N).val from rfl]
  exact PhiS1_some V c _

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem leaves1_0 (c : Dev nD) (t : Fin cfg1.N) :
    (dat1 V c).leavesExact 0 t = owns (c : Thread nD τ) (ms1_0 t) fullShare (iblk1 V c 0 t) := by
  unfold Dat.leavesExact
  rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact
  rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact
  rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact
  rw [show cfg1.idle 3 (cfg1.grid.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact
  rw [show cfg1.idle 4 (cfg1.grid.coords t) = false from rfl, after1_4]
theorem leaves1_5 (c : Dev nD) (t : Fin cfg1.N) :
    (dat1 V c).leavesExact 5 t = owns (c : Thread nD τ) (ms1_5 t) fullShare (iblk1 V c 5 t) := by
  unfold Dat.leavesExact
  rw [show cfg1.idle 5 (cfg1.grid.coords t) = false from rfl, after1_5]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi1_succ, PhiS1_succ, Phi1_castSucc, leaves1_0, leaves1_1, leaves1_2, leaves1_3, leaves1_4, leaves1_5]
  have hN : t.val < 32 := lt_of_lt_of_eq t.isLt (show cfg1.N = 32 from N_1)
  by_cases h0 : t.val % 4 = 0
  ·
    rw [Dat.leavesExact_idle (dat1 V c) 6 t (idleAt1_6 t (not_last_of_first t h0)) (noFlush1_6 t (not_last_of_first t h0))]
    rw [scAt_A V c t h0]
    unfold scA sout1_A_0 sout1_A_1 sout1_A_2; (try dsimp only)
    refine (sep_mono (PhiS1_some V c t.val) .rfl).trans ?_
    rw [PhiA1_eq]; unfold withScratch
    iintro ⟨⟨⟨Hs0, Hs1, Hs2, Hs3, Hs4, Hs5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ _ _ ((hcond1_0 t).mpr h0) (not_last_of_first t h0) (iblk1 V c 0 t) (iblk1 V c 1 t) (iblk1 V c 2 t) (iblk1 V c 3 t) (iblk1 V c 4 t) (iblk1 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [Hs0 Hs1 Hs2 Hs3 Hs4 Hs5 HS0 HS1 HS2 Hg]
    · isplitr [Hg]
      swap; · iexact Hg
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [HS0]
      · unfold owns; iexists _; isplitr
        swap; · iexact HS0
        ipureintro; exact View.read_writes_eq_canon _ _ _ (scover1_A_0 c _ _ _ _ _ _ _ _ _ _ _ _ _ _ _ _ _ _ _ _ _ _ _ _ _ _ _ _ _)
      isplitl [HS1]
      · unfold owns; iexists _; isplitr
        swap; · iexact HS1
        ipureintro; exact View.read_writes_eq_canon _ _ _ (scover1_A_1 c _ _ _ _ _ _ _ _ _ _ _ _ _ _ _ _ _ _ _ _ _ _ _ _ _ _ _ _ _)
      unfold owns; iexists _; isplitr
      swap; · iexact HS2
      ipureintro; exact View.read_writes_eq_canon _ _ _ (scover1_A_2 c _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    rw [PhiS1_pos V c t.val hz]; unfold withScratch
    by_cases h1 : t.val % 4 = 3
    ·
      rw [show (dat1 V c).leavesExact 6 t = owns (c : Thread nD τ) (ms1_6 t) fullShare ((dat1 V c).after 6 t) from by
        unfold Dat.leavesExact; rw [liveAt1_6 t ((hcond1_1 t).mpr h1)], after1_6, out1_6_C V c t h0 h1]
      rw [scAt_C V c t h0 h1]
      unfold outC scC out1_C_6 sout1_C_0 sout1_C_1 sout1_C_2; (try dsimp only)
      iintro ⟨⟨⟨Hs0, Hs1, Hs2, Hs3, Hs4, Hs5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [Hs0 Hs1 Hs2 Hs3 Hs4 Hs5 HS0 HS1 HS2 Hg]
      · isplitr [Hg]
        swap; · iexact Hg
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [HS0]
        · unfold owns; iexists _; isplitr
          swap; · iexact HS0
          ipureintro; exact View.read_writes_eq_canon _ _ _ (scover1_C_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (scover1_C_1 c _ _ _ _ _ _ _ _ _ _ _ _ _ _ _ _ _ _ _ _ _ _ _ _ _ _ _ _ _ _ _ _)
        unfold owns; iexists _; isplitr
        swap; · iexact HS2
        ipureintro; exact View.read_writes_eq_canon _ _ _ (scover1_C_2 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover1_C_6 c _ _ _ _ _ _ _ _ _ _ _ _ _ _ _ _ _ _ _ _ _ _ _ _ _ _ _ _ _ _ _ _)
    ·
      rw [Dat.leavesExact_idle (dat1 V c) 6 t (idleAt1_6 t (fun h => h1 ((hcond1_1 t).mp h))) (noFlush1_6 t (fun h => h1 ((hcond1_1 t).mp h)))]
      rw [scAt_B V c t h0 h1]
      unfold scB sout1_B_0 sout1_B_1 sout1_B_2; (try dsimp only)
      iintro ⟨⟨⟨Hs0, Hs1, Hs2, Hs3, Hs4, Hs5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hs0 Hs1 Hs2 Hs3 Hs4 Hs5 HS0 HS1 HS2 Hg]
      · isplitr [Hg]
        swap; · iexact Hg
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [HS0]
        · unfold owns; iexists _; isplitr
          swap; · iexact HS0
          ipureintro; exact View.read_writes_eq_canon _ _ _ (scover1_B_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (scover1_B_1 c _ _ _ _ _ _ _ _ _ _ _ _ _ _ _ _ _ _ _ _ _ _ _ _ _ _ _ _ _ _ _ _)
        unfold owns; iexists _; isplitr
        swap; · iexact HS2
        ipureintro; exact View.read_writes_eq_canon _ _ _ (scover1_B_2 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRunMain.lean ====
-- The whole program: both regions between the host operations; every fair execution ends, faults nowhere, keeps the arguments, and the result array is named.
import proofs.«416084_j63617055588838_3_alg».proof.Proof.Gen.Kernel.Regions
import proofs.«416084_j63617055588838_3_alg».proof.Proof.KRegion0
import proofs.«416084_j63617055588838_3_alg».proof.Proof.KRegion1
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev ent0 : (c : Dev nD) → (b : Ref sig .tc) → Buf (Elt F) ((c : Thread nD τ).loc b) := fun c b => V1 m c b

def outV4 (c : Dev nD) : Buf (Elt F) ((c : Thread nD τ).loc main_v4) := (dat0 (ent0 m) c).arrAt 3 cfg0.N

def outs0 : Outs (F := F) := fun _ r c => Function.update (V1 m c) main_v4 (outV4 m c) r

abbrev ent1 : (c : Dev nD) → (b : Ref sig .tc) → Buf (Elt F) ((c : Thread nD τ).loc b) := fun c b => V3 m (outs0 m) c b

def outV9 (c : Dev nD) : Buf (Elt F) ((c : Thread nD τ).loc main_v9) := (dat1 (ent1 m) c).arrAt 6 cfg1.N

def outsM : Outs (F := F) := fun _ r c => Function.update (Function.update (V1 m c) main_v4 (outV4 m c)) main_v9 (outV9 m c) r

theorem outsM_v4 (c : Dev nD) : outsM m 2 main_v4 c = outV4 m c := by
  unfold outsM
  rw [Function.update_of_ne (StableHlo.devRef_ne_of_ne (by decide) : (Proc.devRef .tc main_v4 : DevRef τ sig) ≠ Proc.devRef .tc main_v9)]
  exact Function.update_self ..
theorem outsM_v9 (c : Dev nD) : outsM m 4 main_v9 c = outV9 m c := by
  unfold outsM; exact Function.update_self ..
theorem outs0_v4 (c : Dev nD) : outs0 m 2 main_v4 c = outV4 m c := by
  unfold outs0; exact Function.update_self ..

theorem V3_outsM (c : Dev nD) : V3 m (outsM m) c = V3 m (outs0 m) c := by
  unfold V3 V2; rw [outsM_v4, outs0_v4]

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (res : (c : Dev nD) → Buf (Elt F) ((c : Thread nD τ).loc main_v9)) (hres : ∀ c, V4 m outs c main_v9 = res c)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v9) = res c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v9) = res c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v9) (Finset.mem_filter.mpr ⟨StableHlo.devRef_mem_tcRefs main_v9, by decide⟩)).trans (hres c),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c)⟩
    · iexact HSI

def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

abbrev noPairs : GSem nD τ sig → Finset Unit := fun _ => ∅
abbrev noLv : GSem nD τ sig → Unit → ℕ := fun _ _ => 0

abbrev rest (c : Dev nD) : sProp 𝕄 := iprop((∃ r, prngReg c r) ∗ ∃ W, owes (c : Thread nD τ) (0 : CellTallies nD τ sig Unit) W)

theorem exit0_arr (c : Dev nD) : ∀ w : Fin cfg0.W, (dat0 (ent0 m) c).arrAt w cfg0.N = V2 m (outsM m) c (Pipeline.arrRef spec0 w)
  | ⟨0, _⟩ => (((dat0 (ent0 m) c).arrAt_in 0 rfl _).trans (A_eq0 (ent0 m) c 0)).trans (V2_of m (outsM m) c _ (by decide)).symm
  | ⟨1, _⟩ => (((dat0 (ent0 m) c).arrAt_in 1 rfl _).trans (A_eq0 (ent0 m) c 1)).trans (V2_of m (outsM m) c _ (by decide)).symm
  | ⟨2, _⟩ => (((dat0 (ent0 m) c).arrAt_in 2 rfl _).trans (A_eq0 (ent0 m) c 2)).trans (V2_of m (outsM m) c _ (by decide)).symm
  | ⟨3, _⟩ => by
    show outV4 m c = Function.update (V1 m c) (Proc.devRef .tc main_v4) (outsM m 2 main_v4 c) (Proc.devRef .tc main_v4)
    rw [Function.update_self, outsM_v4]

theorem exit0_rest (c : Dev nD) : ∀ b, b ∉ Finset.univ.image (Pipeline.arrRef spec0) → V2 m (outsM m) c b = ent0 m c b :=
  fun b hb => V2_of m (outsM m) c b fun h => hb (Finset.mem_image.mpr ⟨3, Finset.mem_univ _, (List.mem_singleton.mp h).symm⟩)

set_option backward.isDefEq.respectTransparency.types false in
def reg0 : RegionSeg (pcfgs (F := F)) adm (pdats m) () defs₀ Variants.none noPairs noLv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noPairs noLv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outsM m) c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => V2 m (outsM m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Shared

variable (V : (c : Dev nD) → (b : Ref sig .tc) → Buf (Elt F) ((c : Thread nD τ).loc b)) (c : Dev nD)

theorem share1_0 : (dat1 V c).share 0 = fullShare.left := by
  unfold Dat.share; rw [if_neg (by decide)]; first | rfl | dsimp only [dat1]
theorem share1_1 : (dat1 V c).share 1 = fullShare.right.left := by
  unfold Dat.share; rw [if_neg (by decide)]; first | rfl | dsimp only [dat1]
theorem share1_2 : (dat1 V c).share 2 = fullShare.right.right := by
  unfold Dat.share; rw [if_neg (by decide)]; first | rfl | dsimp only [dat1]
theorem share1_3 : (dat1 V c).share 3 = fullShare := by
  unfold Dat.share; rw [if_neg (by decide)]; first | rfl | dsimp only [dat1]
theorem share1_4 : (dat1 V c).share 4 = fullShare := by
  unfold Dat.share; rw [if_neg (by decide)]; first | rfl | dsimp only [dat1]
theorem share1_5 : (dat1 V c).share 5 = fullShare := by
  unfold Dat.share; rw [if_neg (by decide)]; first | rfl | dsimp only [dat1]
theorem share1_6 : (dat1 V c).share 6 = fullShare := by
  unfold Dat.share; rw [if_pos (by decide)]

theorem array1_eq (w : Fin cfg1.W) (q : PosShare TreeShare) (hq : (dat1 V c).share w = q)
    (G : (w : Fin cfg1.W) → Buf (Elt F) ((cfg1.win w).arr.view.loc (c.tc : Thread nD τ))) :
    ((cfg1.win w).arr.view.loc (c.tc : Thread nD τ) ↦[(cfg1.win w).arr.view.set]{(dat1 V c).share w} G w : sProp 𝕄)
      = (((c.tc : Thread nD τ).loc (Pipeline.arrRef spec1 w)) ↦{q} G w) := by
  rw [(arr_whole1 w).set_eq_univ, hq]

theorem arrays1_eq (G : (w : Fin cfg1.W) → Buf (Elt F) ((cfg1.win w).arr.view.loc (c.tc : Thread nD τ))) :
    ((dat1 V c).arrays G : sProp 𝕄) = iprop(
      (((c : Thread nD τ).loc main_v5) ↦{fullShare.left} G 0) ∗ (((c : Thread nD τ).loc main_v5) ↦{fullShare.right.left} G 1)
      ∗ (((c : Thread nD τ).loc main_v5) ↦{fullShare.right.right} G 2) ∗ (((c : Thread nD τ).loc main_arg5) ↦{fullShare} G 3)
      ∗ (((c : Thread nD τ).loc main_v7) ↦{fullShare} G 4) ∗ (((c : Thread nD τ).loc main_v8) ↦{fullShare} G 5)
      ∗ (((c : Thread nD τ).loc main_v9) ↦{fullShare} G 6)) := by
  unfold Dat.arrays
  rw [bigSep_W1]
  exact congrArg₂ BI.sep (array1_eq V c 0 _ (share1_0 V c) G) <| congrArg₂ BI.sep (array1_eq V c 1 _ (share1_1 V c) G) <|
    congrArg₂ BI.sep (array1_eq V c 2 _ (share1_2 V c) G) <| congrArg₂ BI.sep (array1_eq V c 3 _ (share1_3 V c) G) <|
    congrArg₂ BI.sep (array1_eq V c 4 _ (share1_4 V c) G) <| congrArg₂ BI.sep (array1_eq V c 5 _ (share1_5 V c) G)
      (array1_eq V c 6 _ (share1_6 V c) G)

theorem arrBufs1_eq (V' : (b : Ref sig .tc) → Buf (Elt F) ((c : Thread nD τ).loc b)) :
    (Pipeline.arrBufs spec1 c V' : sProp 𝕄) = iprop(
      (((c : Thread nD τ).loc main_v5) ↦{fullShare} V' main_v5) ∗ (((c : Thread nD τ).loc main_arg5) ↦{fullShare} V' main_arg5)
      ∗ (((c : Thread nD τ).loc main_v7) ↦{fullShare} V' main_v7) ∗ (((c : Thread nD τ).loc main_v8) ↦{fullShare} V' main_v8)
      ∗ (((c : Thread nD τ).loc main_v9) ↦{fullShare} V' main_v9)) := by
  unfold Pipeline.arrBufs
  exact bigSep_eq_bigSepL_of_eq [main_v5, main_arg5, main_v7, main_v8, main_v9] (by decide) (by decide) _

theorem unscopedBufs1_split (V' : (b : Ref sig .tc) → Buf (Elt F) ((c : Thread nD τ).loc b)) :
    (unscopedBufs c V' : sProp 𝕄) = iprop(Pipeline.arrBufs spec1 c V' ∗ Pipeline.unscopedRest spec1 c V') :=
  Pipeline.unscopedBufs_split₀ cfgs 1 winFacts₀1.arr_unscoped c V'

theorem arrays1_of_arrBufs (V' : (b : Ref sig .tc) → Buf (Elt F) ((c : Thread nD τ).loc b))
    (G : (w : Fin cfg1.W) → Buf (Elt F) ((cfg1.win w).arr.view.loc (c.tc : Thread nD τ)))
    (h0 : G 0 = V' main_v5) (h1 : G 1 = V' main_v5) (h2 : G 2 = V' main_v5) (h3 : G 3 = V' main_arg5)
    (h4 : G 4 = V' main_v7) (h5 : G 5 = V' main_v8) (h6 : G 6 = V' main_v9) :
    (Pipeline.arrBufs spec1 c V' : sProp 𝕄) ⊢ (dat1 V c).arrays G := by
  rw [arrays1_eq, arrBufs1_eq, h0, h1, h2, h3, h4, h5, h6]
  iintro ⟨H5, Ha5, H7, H8, H9⟩
  ihave H5' := (pointsTo_share (PosShare.mem_left_op_right fullShare)).1 $$ H5
  icases H5' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [Ha5]; · iexact Ha5
  isplitl [H7]; · iexact H7
  isplitl [H8]; · iexact H8
  iexact H9

theorem unscopedBufs1_of_arrays (V' : (b : Ref sig .tc) → Buf (Elt F) ((c : Thread nD τ).loc b))
    (G : (w : Fin cfg1.W) → Buf (Elt F) ((cfg1.win w).arr.view.loc (c.tc : Thread nD τ)))
    (h0 : G 0 = V' main_v5) (h1 : G 1 = V' main_v5) (h2 : G 2 = V' main_v5) (h3 : G 3 = V' main_arg5)
    (h4 : G 4 = V' main_v7) (h5 : G 5 = V' main_v8) (h6 : G 6 = V' main_v9)
    (hrest : ∀ b, b ∉ Finset.univ.image (Pipeline.arrRef spec1) → V' b = V c b) :
    iprop((dat1 V c).arrays G ∗ Pipeline.unscopedRest (Ix := Unit) (Name := ℕ) (U := UR sig nD τ) (Lvl := ℕ) spec1 c (V c))
      ⊢ (unscopedBufs c V' : sProp 𝕄) := by
  rw [unscopedBufs1_split, arrays1_eq, arrBufs1_eq, h0, h1, h2, h3, h4, h5, h6]
  refine sep_mono ?_ (Entails.of_eq ?_)
  · iintro ⟨Hl, Hrl, Hrr, Ha5, H7, H8, H9⟩
    isplitl [Hl Hrl Hrr]
    · iapply (pointsTo_share (PosShare.mem_left_op_right fullShare)).2
      isplitl [Hl]; · iexact Hl
      iapply (pointsTo_share (PosShare.mem_left_op_right fullShare.right)).2
      isplitl [Hrl] <;> iassumption
    isplitl [Ha5]; · iexact Ha5
    isplitl [H7]; · iexact H7
    isplitl [H8]; · iexact H8
    iexact H9
  · unfold Pipeline.unscopedRest
    exact bigSep_congr fun b hb => by rw [hrest b (Finset.mem_sdiff.mp hb).2]

end Shared

theorem V4_ent1 (c : Dev nD) (r : Ref sig .tc) (h : r ∉ ([main_v9] : List (Ref sig .tc))) : V4 m (outsM m) c r = ent1 m c r :=
  (V4_of m (outsM m) c r h).trans (congrFun (V3_outsM m c) r)

theorem V4_v9 (c : Dev nD) : V4 m (outsM m) c main_v9 = outV9 m c := by
  show Function.update (V3 m (outsM m) c) (Proc.devRef .tc main_v9) (outsM m 4 main_v9 c) (Proc.devRef .tc main_v9) = outV9 m c
  rw [Function.update_self, outsM_v9]

set_option backward.isDefEq.respectTransparency.types false in
def reg1 : RegionSeg (pcfgs (F := F)) adm (pdats m) () defs₀ Variants.none noPairs noLv 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ noPairs noLv 1 fun _ _ => rfl
  pre c := iprop(StableHlo.held (c : Thread nD τ) (Pipeline.ucRefs τ sig) (V3 m (outsM m) c) ∗ rest c)
  post c := iprop(StableHlo.held (c : Thread nD τ) (Pipeline.ucRefs τ sig) (V4 m (outsM m) c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, V3_outsM]
    have hub := unscopedBufs1_split (F := F) c (ent1 m c)
    rw [Pipeline.unscopedBufs_held] at hub
    have hsplit := arrays1_of_arrBufs (ent1 m) c (ent1 m c) ((dat1 (ent1 m) c).arrAt · 0)
      (A_eq1 (ent1 m) c 0) (A_eq1 (ent1 m) c 1) (A_eq1 (ent1 m) c 2) (A_eq1 (ent1 m) c 3) (A_eq1 (ent1 m) c 4) (A_eq1 (ent1 m) c 5) (A_eq1 (ent1 m) c 6)
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_first (ent1 m) c)
    unfold Pipeline.ΦA
    iintro ⟨Hp, -, Hr⟩
    isplitl [Hr]; · iexact Hr
    iexact Hp
  hout c := by
    rw [Pipeline.ownSems0_none]
    refine BIBase.Entails.trans (Phi1_last (ent1 m) c) ?_
    unfold Pipeline.ΦA
    iintro ⟨Hr, Hp⟩
    isplitl [Hp]; · iexact Hp
    isplitr; · iempintro
    iexact Hr
  hexit c := by
    have hjoin := unscopedBufs1_of_arrays (ent1 m) c (fun b => V4 m (outsM m) c b) ((dat1 (ent1 m) c).arrAt · cfg1.N)
      ((((dat1 (ent1 m) c).arrAt_in 0 rfl _).trans (A_eq1 (ent1 m) c 0)).trans (V4_ent1 m c _ (by decide)).symm)
      ((((dat1 (ent1 m) c).arrAt_in 1 rfl _).trans (A_eq1 (ent1 m) c 1)).trans (V4_ent1 m c _ (by decide)).symm)
      ((((dat1 (ent1 m) c).arrAt_in 2 rfl _).trans (A_eq1 (ent1 m) c 2)).trans (V4_ent1 m c _ (by decide)).symm)
      ((((dat1 (ent1 m) c).arrAt_in 3 rfl _).trans (A_eq1 (ent1 m) c 3)).trans (V4_ent1 m c _ (by decide)).symm)
      ((((dat1 (ent1 m) c).arrAt_in 4 rfl _).trans (A_eq1 (ent1 m) c 4)).trans (V4_ent1 m c _ (by decide)).symm)
      ((((dat1 (ent1 m) c).arrAt_in 5 rfl _).trans (A_eq1 (ent1 m) c 5)).trans (V4_ent1 m c _ (by decide)).symm)
      (V4_v9 m c).symm
      (fun b hb => V4_ent1 m c b fun h => hb (Finset.mem_image.mpr ⟨6, Finset.mem_univ _, (List.mem_singleton.mp h).symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v9) = outV9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none noPairs noLv (fun _ _ => rfl) ρ (outsM m) (outV9 m) (V4_v9 m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noPairs noLv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.Kernel.Hand

end
-- ==== Proof.Region0.lean ====
-- Region 0 (the tiled projection): at every grid point the body runs to its end and leaves the product block in the output block.
import proofs.«416084_j63617055588838_3_alg».proof.Proof.Gen.KernelIdeal.Launch
import proofs.«416084_j63617055588838_3_alg».proof.Proof.Gen.KernelIdeal.Skeleton
import proofs.«416084_j63617055588838_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

variable (x0 : Vec F S1024x512 .f32) (x1 : Vec F S512x1536 .bf16) (x2 : Vec F S1x1536 .f32) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S1024x512 := Rect.unit (s := S1024x512) ![0, 0] S1024x512.size inb_S1024x512_S1024x512_0_0
abbrev rW : Rect S512x1536 := Rect.unit (s := S512x1536) ![0, 0] S512x1536.size inb_S512x1536_S512x1536_0_0
abbrev rB : Rect S1x1536 := Rect.unit (s := S1x1536) ![0, 0] S1x1536.size inb_S1x1536_S1x1536_0_0
abbrev rO : Rect S1024x1536 := Rect.unit (s := S1024x1536) ![0, 0] S1024x1536.size inb_S1024x1536_S1024x1536_0_0

def out0_3 : Vec F S1024x1536 .bf16 :=
  View.canon [⟨rO, k0_pay1 (View.ld x0 rX) (View.ld x1 rW) (View.ld x2 rB)⟩]

theorem cover0_3 (p0 : Vec F S1024x1536 .bf16) (y : S1024x1536.Idx) :
    ∃ pc ∈ ([⟨rO, p0⟩] : List (View.Piece (Elt F) S1024x1536 .bf16)), y ∈ pc.1.set :=
  View.cover_of_tiled [⟨rO, p0⟩] S1024x1536.size (by rfl) y

set_option maxHeartbeats 1000000 in
theorem sound_kernel0 (E : Set ℕ) (i : grid0.Coords)
    (arg1 : Memref sig .tc .vmem S1024x512 .f32) (harg1 : arg1.IsWhole) (arg2 : Memref sig .tc .vmem S512x1536 .bf16) (harg2 : arg2.IsWhole)
    (arg3 : Memref sig .tc .vmem S1x1536 .f32) (harg3 : arg3.IsWhole) (arg4 : Memref sig .tc .vmem S1024x1536 .bf16) (harg4 : arg4.IsWhole)
    (x0 : Vec F S1024x512 .f32) (x1 : Vec F S512x1536 .bf16) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_kernel i arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]

theorem after0_0 (t : Fin cfg0.N) : (dat0 V c).after 0 t = iblk0 V c 0 t := by dsimp only [dat0]
theorem after0_1 (t : Fin cfg0.N) : (dat0 V c).after 1 t = iblk0 V c 1 t := by dsimp only [dat0]
theorem after0_2 (t : Fin cfg0.N) : (dat0 V c).after 2 t = iblk0 V c 2 t := by dsimp only [dat0]
theorem after0_3 (t : Fin cfg0.N) : (dat0 V c).after 3 t = out0_3 (iblk0 V c 0 t) (iblk0 V c 1 t) (iblk0 V c 2 t) := by dsimp only [dat0]

theorem before0_0 (t : Fin cfg0.N) (d) : (dat0 V c).before 0 t d = iblk0 V c 0 t :=
  before0_0_of V (dat0 V c) (A_eq0 V c 0) (after0_0 V c) t d
theorem before0_1 (t : Fin cfg0.N) (d) : (dat0 V c).before 1 t d = iblk0 V c 1 t :=
  before0_1_of V (dat0 V c) (A_eq0 V c 1) (after0_1 V c) t d
theorem before0_2 (t : Fin cfg0.N) (d) : (dat0 V c).before 2 t d = iblk0 V c 2 t :=
  before0_2_of V (dat0 V c) (A_eq0 V c 2) (after0_2 V c) t d

def bodyPre0 (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 : BodyObligation (dat0 (F := F) V c) (defs₀ (F := F)) Variants.none () Set.univ := fun t => by
  rw [bigSep_W0, bigSep_W0]
  exact sound_body0 V c t

end Cert.KernelIdeal.Hand

end
-- ==== Proof.Region1Runs.lean ====
-- Region 1 (attention): the body run in its three control cases (first, middle and last key tile), with the stores each run leaves.
import proofs.«416084_j63617055588838_3_alg».proof.Proof.Gen.KernelIdeal.Launch
import proofs.«416084_j63617055588838_3_alg».proof.Proof.Gen.KernelIdeal.Skeleton
import proofs.«416084_j63617055588838_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1

theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_6 : ∀ t : Fin cfg1.N, ¬cond1_1 (grid1.coords t) → cfg1.idle 6 (grid1.coords t) = true := by decide +kernel

theorem noFlush1_6 : ∀ t : Fin cfg1.N, ¬cond1_1 (grid1.coords t) → (cfg1.win 6).flush t = false := by decide +kernel

theorem liveAt1_6 : ∀ t : Fin cfg1.N, cond1_1 (grid1.coords t) → cfg1.idle 6 (grid1.coords t) = false := by decide +kernel

abbrev ms1_0 (t : Fin cfg1.N) : Memref sig .tc .vmem S1x1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x512 .f32 := win1_6.stage (cfg1.slots t 6)
abbrev hs1_6 (t : Fin cfg1.N) : (ms1_6 t).IsWhole := hstage1_6 ((cfg1.slots t 6).cast nbuf1_6)

abbrev scM1_0 : Memref sig .tc .vmem S1024x8 .f32 := Memref.whole cc1_scratch0
abbrev scM1_1 : Memref sig .tc .vmem S1024x8 .f32 := Memref.whole cc1_scratch1
abbrev scM1_2 : Memref sig .tc .vmem S1024x512 .f32 := Memref.whole cc1_scratch2

variable (c : Dev nD) (i : grid1.Coords)
  (arg3 : Memref sig .tc .vmem S1x1024x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x1024x512 .i32) (harg6 : arg6.IsWhole)
  (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole)
  (arg10 : Memref sig .tc .vmem S1024x8 .f32) (harg10 : arg10.IsWhole) (arg11 : Memref sig .tc .vmem S1024x8 .f32) (harg11 : arg11.IsWhole) (arg12 : Memref sig .tc .vmem S1024x512 .f32) (harg12 : arg12.IsWhole)

section A
variable (hc0 : cond1_0 i) (hc1 : ¬cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)

set_option maxHeartbeats 4000000 in
noncomputable def kernelRun1_A :
    Σ' (LS0 : List (View.Piece (Elt F) S1024x8 .f32)) (LS1 : List (View.Piece (Elt F) S1024x8 .f32)), { LS2 : List (View.Piece (Elt F) S1024x512 .f32) //
      ∀ (y : Vec F S1x1024x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare y
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare y
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun y E K => ?run⟩
  case run =>
    rw [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, H4, H5, H9, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [H5]; · iexact H5
    isplitl [H9]; · iexact H9
    isplitl [HS0]; · iexists _; iexact HS0
    isplitl [HS1]; · iexists _; iexact HS1
    iexists _; iexact HS2

theorem scover1_A_0 (yy : S1024x8.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).1, yy ∈ pc.1.set :=
  View.cover_of_tiledL (s := S1024x8) _ S1024x1.size (by sl_kernel_rfl) yy

def sout1_A_0 : Vec F S1024x8 .f32 :=
  View.canon (kernelRun1_A c i arg3 harg3 arg4 harg4 arg5 harg5 arg6 harg6 arg7 harg7 arg8 harg8 arg9 harg9 arg10 harg10 arg11 harg11 arg12 harg12 hc0 hc1 x0 x1 x2 x3 x4 x5).1

theorem scover1_A_1 (yy : S1024x8.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, yy ∈ pc.1.set :=
  View.cover_of_tiledL (s := S1024x8) _ S1024x1.size (by sl_kernel_rfl) yy

def sout1_A_1 : Vec F S1024x8 .f32 :=
  View.canon (kernelRun1_A c i arg3 harg3 arg4 harg4 arg5 harg5 arg6 harg6 arg7 harg7 arg8 harg8 arg9 harg9 arg10 harg10 arg11 harg11 arg12 harg12 hc0 hc1 x0 x1 x2 x3 x4 x5).2.1

theorem scover1_A_2 (yy : S1024x512.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, yy ∈ pc.1.set :=
  View.cover_of_tiledL (s := S1024x512) _ S1024x64.size (by sl_kernel_rfl) yy

def sout1_A_2 : Vec F S1024x512 .f32 :=
  View.canon (kernelRun1_A c i arg3 harg3 arg4 harg4 arg5 harg5 arg6 harg6 arg7 harg7 arg8 harg8 arg9 harg9 arg10 harg10 arg11 harg11 arg12 harg12 hc0 hc1 x0 x1 x2 x3 x4 x5).2.2.1

end A

section B
variable (hc0 : ¬cond1_0 i) (hc1 : ¬cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)
  (xs0 : Vec F S1024x8 .f32) (xs1 : Vec F S1024x8 .f32) (xs2 : Vec F S1024x512 .f32)

set_option maxHeartbeats 4000000 in
noncomputable def kernelRun1_B :
    Σ' (LS0 : List (View.Piece (Elt F) S1024x8 .f32)) (LS1 : List (View.Piece (Elt F) S1024x8 .f32)), { LS2 : List (View.Piece (Elt F) S1024x512 .f32) //
      ∀ (y : Vec F S1x1024x512 .f32) (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ owns (c : Thread nD τ) arg9 fullShare y
            ∗ owns (c : Thread nD τ) arg10 fullShare xs0
            ∗ owns (c : Thread nD τ) arg11 fullShare xs1
            ∗ owns (c : Thread nD τ) arg12 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ owns (c : Thread nD τ) arg9 fullShare y
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun y E K => ?run⟩
  case run =>
    rw [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, H4, H5, H9, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [H5]; · iexact H5
    isplitl [H9]; · iexact H9
    isplitl [HS0]; · iexists _; iexact HS0
    isplitl [HS1]; · iexists _; iexact HS1
    iexists _; iexact HS2

theorem scover1_B_0 (yy : S1024x8.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1, yy ∈ pc.1.set :=
  View.cover_of_tiledL (s := S1024x8) _ S1024x1.size (by sl_kernel_rfl) yy

def sout1_B_0 : Vec F S1024x8 .f32 :=
  View.canon (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1

theorem scover1_B_1 (yy : S1024x8.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, yy ∈ pc.1.set :=
  View.cover_of_tiledL (s := S1024x8) _ S1024x1.size (by sl_kernel_rfl) yy

def sout1_B_1 : Vec F S1024x8 .f32 :=
  View.canon (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1

theorem scover1_B_2 (yy : S1024x512.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, yy ∈ pc.1.set :=
  View.cover_of_tiledL (s := S1024x512) _ S1024x64.size (by sl_kernel_rfl) yy

def sout1_B_2 : Vec F S1024x512 .f32 :=
  View.canon (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1

end B

section C
variable (hc0 : ¬cond1_0 i) (hc1 : cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)
  (xs0 : Vec F S1024x8 .f32) (xs1 : Vec F S1024x8 .f32) (xs2 : Vec F S1024x512 .f32)

set_option maxHeartbeats 4000000 in
noncomputable def kernelRun1_C :
    Σ' (L9 : List (View.Piece (Elt F) S1x1024x512 .f32)) (LS0 : List (View.Piece (Elt F) S1024x8 .f32)) (LS1 : List (View.Piece (Elt F) S1024x8 .f32)), { LS2 : List (View.Piece (Elt F) S1024x512 .f32) //
      ∀ (E : Set ℕ) (K : PUnit → sProp 𝕄),
        iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare x5
            ∗ (∃ d, owns (c : Thread nD τ) arg9 fullShare d)
            ∗ owns (c : Thread nD τ) arg10 fullShare xs0
            ∗ owns (c : Thread nD τ) arg11 fullShare xs1
            ∗ owns (c : Thread nD τ) arg12 fullShare xs2
            ∗ (iprop(owns (c : Thread nD τ) arg3 fullShare x0
                ∗ owns (c : Thread nD τ) arg4 fullShare x1
                ∗ owns (c : Thread nD τ) arg5 fullShare x2
                ∗ owns (c : Thread nD τ) arg6 fullShare x3
                ∗ owns (c : Thread nD τ) arg7 fullShare x4
                ∗ owns (c : Thread nD τ) arg8 fullShare x5
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f LS0)
                ∗ (∃ f, arg11.view.loc (c : Thread nD τ) ↦[arg11.view.set]{fullShare} arg11.view.writes (Elt F) f LS1)
                ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    rw [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d9, %f9, -, H9⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H9]; · iexists _; iexact H9
    isplitl [HS0]; · iexists _; iexact HS0
    isplitl [HS1]; · iexists _; iexact HS1
    iexists _; iexact HS2

theorem cover1_C_6 (yy : S1x1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, yy ∈ pc.1.set :=
  View.cover_of_tiledL (s := S1x1024x512) _ S1x1024x512.size (by sl_kernel_rfl) yy

def out1_C_6 : Vec F S1x1024x512 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1

theorem scover1_C_0 (yy : S1024x8.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, yy ∈ pc.1.set :=
  View.cover_of_tiledL (s := S1024x8) _ S1024x1.size (by sl_kernel_rfl) yy

def sout1_C_0 : Vec F S1024x8 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1

theorem scover1_C_1 (yy : S1024x8.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, yy ∈ pc.1.set :=
  View.cover_of_tiledL (s := S1024x8) _ S1024x1.size (by sl_kernel_rfl) yy

def sout1_C_1 : Vec F S1024x8 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1

theorem scover1_C_2 (yy : S1024x512.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, yy ∈ pc.1.set :=
  View.cover_of_tiledL (s := S1024x512) _ S1024x64.size (by sl_kernel_rfl) yy

def sout1_C_2 : Vec F S1024x512 .f32 :=
  View.canon (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1

end C

end Cert.KernelIdeal.Hand

end
-- ==== Proof.Region1.lean ====
-- Region 1 (attention): what the three accumulators hold after each grid point, and that the body runs to its end at every point.
import proofs.«416084_j63617055588838_3_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev Sc (F : FTy → Type) : Type := Vec F S1024x8 .f32 × Vec F S1024x8 .f32 × Vec F S1024x512 .f32

theorem N1_pos : 0 < cfg1.N := by rw [show cfg1.N = 32 from N_1]; omega

theorem not_last_of_first (t : Fin cfg1.N) (h0 : t.val % 4 = 0) : ¬cond1_1 (grid1.coords t) :=
  fun h => by have := (hcond1_1 t).mp h; omega

def scA (c : Dev nD) (t : Fin cfg1.N) (h0 : t.val % 4 = 0) : Sc F :=
  (sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t) (iblk1 V c 3 t) (iblk1 V c 4 t) (iblk1 V c 5 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t) (iblk1 V c 3 t) (iblk1 V c 4 t) (iblk1 V c 5 t),
   sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (not_last_of_first t h0) (iblk1 V c 0 t) (iblk1 V c 1 t) (iblk1 V c 2 t) (iblk1 V c 3 t) (iblk1 V c 4 t) (iblk1 V c 5 t))

def scB (c : Dev nD) (t : Fin cfg1.N) (h0 : ¬t.val % 4 = 0) (h1 : ¬t.val % 4 = 3) (s : Sc F) : Sc F :=
  (sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s.1 s.2.1 s.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s.1 s.2.1 s.2.2,
   sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) s.1 s.2.1 s.2.2)

def scC (c : Dev nD) (t : Fin cfg1.N) (h0 : ¬t.val % 4 = 0) (h1 : t.val % 4 = 3) (s : Sc F) : Sc F :=
  (sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2,
   sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2)

def outC (c : Dev nD) (t : Fin cfg1.N) (h0 : ¬t.val % 4 = 0) (h1 : t.val % 4 = 3) (s : Sc F) : Vec F S1x1024x512 .f32 :=
  out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) s.1 s.2.1 s.2.2

def scAt (c : Dev nD) : ℕ → Sc F
  | 0 => scA V c ⟨0, N1_pos⟩ (Nat.zero_mod 4)
  | n + 1 =>
    if hn : n + 1 < cfg1.N then
      if h0 : (n + 1) % 4 = 0 then scA V c ⟨n + 1, hn⟩ h0
      else if h1 : (n + 1) % 4 = 3 then scC V c ⟨n + 1, hn⟩ h0 h1 (scAt c n)
      else scB V c ⟨n + 1, hn⟩ h0 h1 (scAt c n)
    else scAt c n

theorem scAt_A (c : Dev nD) (t : Fin cfg1.N) (h0 : t.val % 4 = 0) : scAt V c t.val = scA V c t h0 := by
  obtain ⟨n, hn⟩ := t
  cases n with
  | zero => exact rfl
  | succ n => exact (dif_pos hn).trans ((dif_pos h0).trans rfl)

theorem scAt_B (c : Dev nD) (t : Fin cfg1.N) (h0 : ¬t.val % 4 = 0) (h1 : ¬t.val % 4 = 3) :
    scAt V c t.val = scB V c t h0 h1 (scAt V c (t.val - 1)) := by
  obtain ⟨n, hn⟩ := t
  cases n with
  | zero => exact absurd (Nat.zero_mod 4) h0
  | succ n => exact (dif_pos hn).trans ((dif_neg h0).trans ((dif_neg h1).trans rfl))

theorem scAt_C (c : Dev nD) (t : Fin cfg1.N) (h0 : ¬t.val % 4 = 0) (h1 : t.val % 4 = 3) :
    scAt V c t.val = scC V c t h0 h1 (scAt V c (t.val - 1)) := by
  obtain ⟨n, hn⟩ := t
  cases n with
  | zero => exact absurd (Nat.zero_mod 4) h0
  | succ n => exact (dif_pos hn).trans ((dif_neg h0).trans ((dif_pos h1).trans rfl))

def out1_6 (c : Dev nD) (t : Fin cfg1.N) : Vec F S1x1024x512 .f32 :=
  if h1 : t.val % 4 = 3 then outC V c t (fun h => by omega) h1 (scAt V c (t.val - 1))
  else fun _ => (FloatOps.ofBits .f32 0#32 : F .f32)

theorem out1_6_C (c : Dev nD) (t : Fin cfg1.N) (h0 : ¬t.val % 4 = 0) (h1 : t.val % 4 = 3) :
    out1_6 V c t = outC V c t h0 h1 (scAt V c (t.val - 1)) := dif_pos h1

def withScratch (c : Dev nD) (P0 P1 P2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P0 ∗ P1 ∗ P2)

theorem PhiA1_eq (c : Dev nD) :
    (Pipeline.ΦA spec1 c : sProp 𝕄)
      = iprop(withScratch c iprop(∃ d, owns (c : Thread nD τ) scM1_0 fullShare d) iprop(∃ d, owns (c : Thread nD τ) scM1_1 fullShare d) iprop(∃ d, owns (c : Thread nD τ) scM1_2 fullShare d) ∗ (∃ r, prngReg c r)) := by
  unfold Pipeline.ΦA withScratch; rw [scopedRest1_eq]; simp only [scM1_0, scM1_1, scM1_2, owns_whole]; try rfl

def PhiS1 (c : Dev nD) : ℕ → sProp 𝕄
  | 0 => Pipeline.ΦA spec1 c
  | n + 1 => iprop(withScratch c (owns (c : Thread nD τ) scM1_0 fullShare (scAt V c n).1) (owns (c : Thread nD τ) scM1_1 fullShare (scAt V c n).2.1) (owns (c : Thread nD τ) scM1_2 fullShare (scAt V c n).2.2) ∗ (∃ r, prngReg c r))

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(withScratch c (owns (c : Thread nD τ) scM1_0 fullShare (scAt V c n).1) (owns (c : Thread nD τ) scM1_1 fullShare (scAt V c n).2.1) (owns (c : Thread nD τ) scM1_2 fullShare (scAt V c n).2.2) ∗ (∃ r, prngReg c r)) := rfl

theorem PhiS1_pos (c : Dev nD) (n : ℕ) (hz : n ≠ 0) :
    PhiS1 V c n = iprop(withScratch c (owns (c : Thread nD τ) scM1_0 fullShare (scAt V c (n - 1)).1) (owns (c : Thread nD τ) scM1_1 fullShare (scAt V c (n - 1)).2.1) (owns (c : Thread nD τ) scM1_2 fullShare (scAt V c (n - 1)).2.2) ∗ (∃ r, prngReg c r)) := by
  cases n with
  | zero => exact absurd rfl hz
  | succ n => rfl

theorem PhiS1_some (c : Dev nD) (n : ℕ) : PhiS1 V c n ⊢ (Pipeline.ΦA spec1 c : sProp 𝕄) := by
  by_cases hz : n = 0
  · rw [PhiS1_zero V c n hz]
  · rw [PhiS1_pos V c n hz, PhiA1_eq]; unfold withScratch
    iintro ⟨⟨Hs0, Hs1, Hs2, Hs3, Hs4, Hs5, HS0, HS1, HS2⟩, Hg⟩
    isplitr [Hg]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [HS0]; · iexists _; iexact HS0
      isplitl [HS1]; · iexists _; iexact HS1
      iexists _; iexact HS2
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := PhiS1 V c t.val
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := by
  dsimp only [dat1]; simp only [Fin.val_succ]

theorem Phi1_first (c : Dev nD) : Pipeline.ΦA spec1 c ⊢ ((dat1 (F := F) V c).Φ 0 : sProp 𝕄) := by
  rw [show (dat1 V c).Φ 0 = PhiS1 V c 0 from rfl, PhiS1_zero V c 0 rfl]

theorem Phi1_last (c : Dev nD) : (dat1 (F := F) V c).Φ (Fin.last cfg1.N) ⊢ (Pipeline.ΦA spec1 c : sProp 𝕄) := by
  rw [show (dat1 V c).Φ (Fin.last cfg1.N) = PhiS1 V c (Fin.last cfg1.N).val from rfl]
  exact PhiS1_some V c _

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem leaves1_0 (c : Dev nD) (t : Fin cfg1.N) :
    (dat1 V c).leavesExact 0 t = owns (c : Thread nD τ) (ms1_0 t) fullShare (iblk1 V c 0 t) := by
  unfold Dat.leavesExact
  rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact
  rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact
  rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact
  rw [show cfg1.idle 3 (cfg1.grid.coords t) = false from rfl, after1_3]
theorem leaves1_4 (c : Dev nD) (t : Fin cfg1.N) :
    (dat1 V c).leavesExact 4 t = owns (c : Thread nD τ) (ms1_4 t) fullShare (iblk1 V c 4 t) := by
  unfold Dat.leavesExact
  rw [show cfg1.idle 4 (cfg1.grid.coords t) = false from rfl, after1_4]
theorem leaves1_5 (c : Dev nD) (t : Fin cfg1.N) :
    (dat1 V c).leavesExact 5 t = owns (c : Thread nD τ) (ms1_5 t) fullShare (iblk1 V c 5 t) := by
  unfold Dat.leavesExact
  rw [show cfg1.idle 5 (cfg1.grid.coords t) = false from rfl, after1_5]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi1_succ, PhiS1_succ, Phi1_castSucc, leaves1_0, leaves1_1, leaves1_2, leaves1_3, leaves1_4, leaves1_5]
  have hN : t.val < 32 := lt_of_lt_of_eq t.isLt (show cfg1.N = 32 from N_1)
  by_cases h0 : t.val % 4 = 0
  ·
    rw [Dat.leavesExact_idle (dat1 V c) 6 t (idleAt1_6 t (not_last_of_first t h0)) (noFlush1_6 t (not_last_of_first t h0))]
    rw [scAt_A V c t h0]
    unfold scA sout1_A_0 sout1_A_1 sout1_A_2; (try dsimp only)
    refine (sep_mono (PhiS1_some V c t.val) .rfl).trans ?_
    rw [PhiA1_eq]; unfold withScratch
    iintro ⟨⟨⟨Hs0, Hs1, Hs2, Hs3, Hs4, Hs5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ _ _ ((hcond1_0 t).mpr h0) (not_last_of_first t h0) (iblk1 V c 0 t) (iblk1 V c 1 t) (iblk1 V c 2 t) (iblk1 V c 3 t) (iblk1 V c 4 t) (iblk1 V c 5 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, ⟨%es0, HS0⟩, ⟨%es1, HS1⟩, ⟨%es2, HS2⟩⟩
    isplitl [Hs0 Hs1 Hs2 Hs3 Hs4 Hs5 HS0 HS1 HS2 Hg]
    · isplitr [Hg]
      swap; · iexact Hg
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [HS0]
      · unfold owns; iexists _; isplitr
        swap; · iexact HS0
        ipureintro; exact View.read_writes_eq_canon _ _ _ (scover1_A_0 c _ _ _ _ _ _ _ _ _ _ _ _ _ _ _ _ _ _ _ _ _ _ _ _ _ _ _ _ _)
      isplitl [HS1]
      · unfold owns; iexists _; isplitr
        swap; · iexact HS1
        ipureintro; exact View.read_writes_eq_canon _ _ _ (scover1_A_1 c _ _ _ _ _ _ _ _ _ _ _ _ _ _ _ _ _ _ _ _ _ _ _ _ _ _ _ _ _)
      unfold owns; iexists _; isplitr
      swap; · iexact HS2
      ipureintro; exact View.read_writes_eq_canon _ _ _ (scover1_A_2 c _ _ _ _ _ _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hz : t.val ≠ 0 := fun e => h0 (by rw [e])
    rw [PhiS1_pos V c t.val hz]; unfold withScratch
    by_cases h1 : t.val % 4 = 3
    ·
      rw [show (dat1 V c).leavesExact 6 t = owns (c : Thread nD τ) (ms1_6 t) fullShare ((dat1 V c).after 6 t) from by
        unfold Dat.leavesExact; rw [liveAt1_6 t ((hcond1_1 t).mpr h1)], after1_6, out1_6_C V c t h0 h1]
      rw [scAt_C V c t h0 h1]
      unfold outC scC out1_C_6 sout1_C_0 sout1_C_1 sout1_C_2; (try dsimp only)
      iintro ⟨⟨⟨Hs0, Hs1, Hs2, Hs3, Hs4, Hs5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [Hs0 Hs1 Hs2 Hs3 Hs4 Hs5 HS0 HS1 HS2 Hg]
      · isplitr [Hg]
        swap; · iexact Hg
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [HS0]
        · unfold owns; iexists _; isplitr
          swap; · iexact HS0
          ipureintro; exact View.read_writes_eq_canon _ _ _ (scover1_C_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (scover1_C_1 c _ _ _ _ _ _ _ _ _ _ _ _ _ _ _ _ _ _ _ _ _ _ _ _ _ _ _ _ _ _ _ _)
        unfold owns; iexists _; isplitr
        swap; · iexact HS2
        ipureintro; exact View.read_writes_eq_canon _ _ _ (scover1_C_2 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (cover1_C_6 c _ _ _ _ _ _ _ _ _ _ _ _ _ _ _ _ _ _ _ _ _ _ _ _ _ _ _ _ _ _ _ _)
    ·
      rw [Dat.leavesExact_idle (dat1 V c) 6 t (idleAt1_6 t (fun h => h1 ((hcond1_1 t).mp h))) (noFlush1_6 t (fun h => h1 ((hcond1_1 t).mp h)))]
      rw [scAt_B V c t h0 h1]
      unfold scB sout1_B_0 sout1_B_1 sout1_B_2; (try dsimp only)
      iintro ⟨⟨⟨Hs0, Hs1, Hs2, Hs3, Hs4, Hs5, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hs0 Hs1 Hs2 Hs3 Hs4 Hs5 HS0 HS1 HS2 Hg]
      · isplitr [Hg]
        swap; · iexact Hg
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [HS0]
        · unfold owns; iexists _; isplitr
          swap; · iexact HS0
          ipureintro; exact View.read_writes_eq_canon _ _ _ (scover1_B_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_eq_canon _ _ _ (scover1_B_1 c _ _ _ _ _ _ _ _ _ _ _ _ _ _ _ _ _ _ _ _ _ _ _ _ _ _ _ _ _ _ _ _)
        unfold owns; iexists _; isplitr
        swap; · iexact HS2
        ipureintro; exact View.read_writes_eq_canon _ _ _ (scover1_B_2 c _ _ _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunMain.lean ====
-- The whole program: both regions between the host operations; every fair execution ends, faults nowhere, keeps the arguments, and the result array is named.
import proofs.«416084_j63617055588838_3_alg».proof.Proof.Gen.KernelIdeal.Regions
import proofs.«416084_j63617055588838_3_alg».proof.Proof.Region0
import proofs.«416084_j63617055588838_3_alg».proof.Proof.Region1
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

abbrev ent0 : (c : Dev nD) → (b : Ref sig .tc) → Buf (Elt F) ((c : Thread nD τ).loc b) := fun c b => V1 m c b

def outV4 (c : Dev nD) : Buf (Elt F) ((c : Thread nD τ).loc main_v4) := (dat0 (ent0 m) c).arrAt 3 cfg0.N

def outs0 : Outs (F := F) := fun _ r c => Function.update (V1 m c) main_v4 (outV4 m c) r

abbrev ent1 : (c : Dev nD) → (b : Ref sig .tc) → Buf (Elt F) ((c : Thread nD τ).loc b) := fun c b => V3 m (outs0 m) c b

def outV9 (c : Dev nD) : Buf (Elt F) ((c : Thread nD τ).loc main_v9) := (dat1 (ent1 m) c).arrAt 6 cfg1.N

def outsM : Outs (F := F) := fun _ r c => Function.update (Function.update (V1 m c) main_v4 (outV4 m c)) main_v9 (outV9 m c) r

theorem outsM_v4 (c : Dev nD) : outsM m 2 main_v4 c = outV4 m c := by
  unfold outsM
  rw [Function.update_of_ne (StableHlo.devRef_ne_of_ne (by decide) : (Proc.devRef .tc main_v4 : DevRef τ sig) ≠ Proc.devRef .tc main_v9)]
  exact Function.update_self ..
theorem outsM_v9 (c : Dev nD) : outsM m 4 main_v9 c = outV9 m c := by
  unfold outsM; exact Function.update_self ..
theorem outs0_v4 (c : Dev nD) : outs0 m 2 main_v4 c = outV4 m c := by
  unfold outs0; exact Function.update_self ..

theorem V3_outsM (c : Dev nD) : V3 m (outsM m) c = V3 m (outs0 m) c := by
  unfold V3 V2; rw [outsM_v4, outs0_v4]

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (res : (c : Dev nD) → Buf (Elt F) ((c : Thread nD τ).loc main_v9)) (hres : ∀ c, V4 m outs c main_v9 = res c)
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v9) = res c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => s.mem ((c.tc : Thread nD τ).loc main_v9) = res c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨(h (Proc.devRef .tc main_v9) (Finset.mem_filter.mpr ⟨StableHlo.devRef_mem_tcRefs main_v9, by decide⟩)).trans (hres c),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c),
        (h (Proc.devRef .tc main_arg2) (Finset.mem_filter.mpr ⟨StableHlo.devRef_mem_tcRefs main_arg2, by decide⟩)).trans (V4_main_arg2 m outs c),
        (h (Proc.devRef .tc main_arg3) (Finset.mem_filter.mpr ⟨StableHlo.devRef_mem_tcRefs main_arg3, by decide⟩)).trans (V4_main_arg3 m outs c),
        (h (Proc.devRef .tc main_arg4) (Finset.mem_filter.mpr ⟨StableHlo.devRef_mem_tcRefs main_arg4, by decide⟩)).trans (V4_main_arg4 m outs c),
        (h (Proc.devRef .tc main_arg5) (Finset.mem_filter.mpr ⟨StableHlo.devRef_mem_tcRefs main_arg5, by decide⟩)).trans (V4_main_arg5 m outs c)⟩
    · iexact HSI

def pdats : (p : Fin 2) → (c : Dev nD) → Dat τ (Elt F) Unit ℕ (UR sig nD τ) ℕ (cfgs p) c
  | ⟨0, _⟩ => fun c => dat0 (ent0 m) c
  | ⟨1, _⟩ => fun c => dat1 (ent1 m) c

abbrev noPairs : GSem nD τ sig → Finset Unit := fun _ => ∅
abbrev noLv : GSem nD τ sig → Unit → ℕ := fun _ _ => 0

abbrev rest (c : Dev nD) : sProp 𝕄 := iprop((∃ r, prngReg c r) ∗ ∃ W, owes (c : Thread nD τ) (0 : CellTallies nD τ sig Unit) W)

theorem exit0_arr (c : Dev nD) : ∀ w : Fin cfg0.W, (dat0 (ent0 m) c).arrAt w cfg0.N = V2 m (outsM m) c (Pipeline.arrRef spec0 w)
  | ⟨0, _⟩ => (((dat0 (ent0 m) c).arrAt_in 0 rfl _).trans (A_eq0 (ent0 m) c 0)).trans (V2_of m (outsM m) c _ (by decide)).symm
  | ⟨1, _⟩ => (((dat0 (ent0 m) c).arrAt_in 1 rfl _).trans (A_eq0 (ent0 m) c 1)).trans (V2_of m (outsM m) c _ (by decide)).symm
  | ⟨2, _⟩ => (((dat0 (ent0 m) c).arrAt_in 2 rfl _).trans (A_eq0 (ent0 m) c 2)).trans (V2_of m (outsM m) c _ (by decide)).symm
  | ⟨3, _⟩ => by
    show outV4 m c = Function.update (V1 m c) (Proc.devRef .tc main_v4) (outsM m 2 main_v4 c) (Proc.devRef .tc main_v4)
    rw [Function.update_self, outsM_v4]

theorem exit0_rest (c : Dev nD) : ∀ b, b ∉ Finset.univ.image (Pipeline.arrRef spec0) → V2 m (outsM m) c b = ent0 m c b :=
  fun b hb => V2_of m (outsM m) c b fun h => hb (Finset.mem_image.mpr ⟨3, Finset.mem_univ _, (List.mem_singleton.mp h).symm⟩)

set_option backward.isDefEq.respectTransparency.types false in
def reg0 : RegionSeg (pcfgs (F := F)) adm (pdats m) () defs₀ Variants.none noPairs noLv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noPairs noLv 0 fun _ _ => rfl
  pre c := iprop(StableHlo.held (c : Thread nD τ) (Pipeline.ucRefs τ sig) (V1 m c) ∗ rest c)
  post c := iprop(StableHlo.held (c : Thread nD τ) (Pipeline.ucRefs τ sig) (V2 m (outsM m) c) ∗ rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (fun b => V2 m (outsM m) c b) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Shared

variable (V : (c : Dev nD) → (b : Ref sig .tc) → Buf (Elt F) ((c : Thread nD τ).loc b)) (c : Dev nD)

theorem share1_0 : (dat1 V c).share 0 = fullShare.left := by
  unfold Dat.share; rw [if_neg (by decide)]; first | rfl | dsimp only [dat1]
theorem share1_1 : (dat1 V c).share 1 = fullShare.right.left := by
  unfold Dat.share; rw [if_neg (by decide)]; first | rfl | dsimp only [dat1]
theorem share1_2 : (dat1 V c).share 2 = fullShare.right.right := by
  unfold Dat.share; rw [if_neg (by decide)]; first | rfl | dsimp only [dat1]
theorem share1_3 : (dat1 V c).share 3 = fullShare := by
  unfold Dat.share; rw [if_neg (by decide)]; first | rfl | dsimp only [dat1]
theorem share1_4 : (dat1 V c).share 4 = fullShare := by
  unfold Dat.share; rw [if_neg (by decide)]; first | rfl | dsimp only [dat1]
theorem share1_5 : (dat1 V c).share 5 = fullShare := by
  unfold Dat.share; rw [if_neg (by decide)]; first | rfl | dsimp only [dat1]
theorem share1_6 : (dat1 V c).share 6 = fullShare := by
  unfold Dat.share; rw [if_pos (by decide)]

theorem array1_eq (w : Fin cfg1.W) (q : PosShare TreeShare) (hq : (dat1 V c).share w = q)
    (G : (w : Fin cfg1.W) → Buf (Elt F) ((cfg1.win w).arr.view.loc (c.tc : Thread nD τ))) :
    ((cfg1.win w).arr.view.loc (c.tc : Thread nD τ) ↦[(cfg1.win w).arr.view.set]{(dat1 V c).share w} G w : sProp 𝕄)
      = (((c.tc : Thread nD τ).loc (Pipeline.arrRef spec1 w)) ↦{q} G w) := by
  rw [(arr_whole1 w).set_eq_univ, hq]

theorem arrays1_eq (G : (w : Fin cfg1.W) → Buf (Elt F) ((cfg1.win w).arr.view.loc (c.tc : Thread nD τ))) :
    ((dat1 V c).arrays G : sProp 𝕄) = iprop(
      (((c : Thread nD τ).loc main_v5) ↦{fullShare.left} G 0) ∗ (((c : Thread nD τ).loc main_v5) ↦{fullShare.right.left} G 1)
      ∗ (((c : Thread nD τ).loc main_v5) ↦{fullShare.right.right} G 2) ∗ (((c : Thread nD τ).loc main_arg5) ↦{fullShare} G 3)
      ∗ (((c : Thread nD τ).loc main_v7) ↦{fullShare} G 4) ∗ (((c : Thread nD τ).loc main_v8) ↦{fullShare} G 5)
      ∗ (((c : Thread nD τ).loc main_v9) ↦{fullShare} G 6)) := by
  unfold Dat.arrays
  rw [bigSep_W1]
  exact congrArg₂ BI.sep (array1_eq V c 0 _ (share1_0 V c) G) <| congrArg₂ BI.sep (array1_eq V c 1 _ (share1_1 V c) G) <|
    congrArg₂ BI.sep (array1_eq V c 2 _ (share1_2 V c) G) <| congrArg₂ BI.sep (array1_eq V c 3 _ (share1_3 V c) G) <|
    congrArg₂ BI.sep (array1_eq V c 4 _ (share1_4 V c) G) <| congrArg₂ BI.sep (array1_eq V c 5 _ (share1_5 V c) G)
      (array1_eq V c 6 _ (share1_6 V c) G)

theorem arrBufs1_eq (V' : (b : Ref sig .tc) → Buf (Elt F) ((c : Thread nD τ).loc b)) :
    (Pipeline.arrBufs spec1 c V' : sProp 𝕄) = iprop(
      (((c : Thread nD τ).loc main_v5) ↦{fullShare} V' main_v5) ∗ (((c : Thread nD τ).loc main_arg5) ↦{fullShare} V' main_arg5)
      ∗ (((c : Thread nD τ).loc main_v7) ↦{fullShare} V' main_v7) ∗ (((c : Thread nD τ).loc main_v8) ↦{fullShare} V' main_v8)
      ∗ (((c : Thread nD τ).loc main_v9) ↦{fullShare} V' main_v9)) := by
  unfold Pipeline.arrBufs
  exact bigSep_eq_bigSepL_of_eq [main_v5, main_arg5, main_v7, main_v8, main_v9] (by decide) (by decide) _

theorem unscopedBufs1_split (V' : (b : Ref sig .tc) → Buf (Elt F) ((c : Thread nD τ).loc b)) :
    (unscopedBufs c V' : sProp 𝕄) = iprop(Pipeline.arrBufs spec1 c V' ∗ Pipeline.unscopedRest spec1 c V') :=
  Pipeline.unscopedBufs_split₀ cfgs 1 winFacts₀1.arr_unscoped c V'

theorem arrays1_of_arrBufs (V' : (b : Ref sig .tc) → Buf (Elt F) ((c : Thread nD τ).loc b))
    (G : (w : Fin cfg1.W) → Buf (Elt F) ((cfg1.win w).arr.view.loc (c.tc : Thread nD τ)))
    (h0 : G 0 = V' main_v5) (h1 : G 1 = V' main_v5) (h2 : G 2 = V' main_v5) (h3 : G 3 = V' main_arg5)
    (h4 : G 4 = V' main_v7) (h5 : G 5 = V' main_v8) (h6 : G 6 = V' main_v9) :
    (Pipeline.arrBufs spec1 c V' : sProp 𝕄) ⊢ (dat1 V c).arrays G := by
  rw [arrays1_eq, arrBufs1_eq, h0, h1, h2, h3, h4, h5, h6]
  iintro ⟨H5, Ha5, H7, H8, H9⟩
  ihave H5' := (pointsTo_share (PosShare.mem_left_op_right fullShare)).1 $$ H5
  icases H5' with ⟨Hl, Hr⟩
  ihave Hr' := (pointsTo_share (PosShare.mem_left_op_right fullShare.right)).1 $$ Hr
  icases Hr' with ⟨Hrl, Hrr⟩
  isplitl [Hl]; · iexact Hl
  isplitl [Hrl]; · iexact Hrl
  isplitl [Hrr]; · iexact Hrr
  isplitl [Ha5]; · iexact Ha5
  isplitl [H7]; · iexact H7
  isplitl [H8]; · iexact H8
  iexact H9

theorem unscopedBufs1_of_arrays (V' : (b : Ref sig .tc) → Buf (Elt F) ((c : Thread nD τ).loc b))
    (G : (w : Fin cfg1.W) → Buf (Elt F) ((cfg1.win w).arr.view.loc (c.tc : Thread nD τ)))
    (h0 : G 0 = V' main_v5) (h1 : G 1 = V' main_v5) (h2 : G 2 = V' main_v5) (h3 : G 3 = V' main_arg5)
    (h4 : G 4 = V' main_v7) (h5 : G 5 = V' main_v8) (h6 : G 6 = V' main_v9)
    (hrest : ∀ b, b ∉ Finset.univ.image (Pipeline.arrRef spec1) → V' b = V c b) :
    iprop((dat1 V c).arrays G ∗ Pipeline.unscopedRest (Ix := Unit) (Name := ℕ) (U := UR sig nD τ) (Lvl := ℕ) spec1 c (V c))
      ⊢ (unscopedBufs c V' : sProp 𝕄) := by
  rw [unscopedBufs1_split, arrays1_eq, arrBufs1_eq, h0, h1, h2, h3, h4, h5, h6]
  refine sep_mono ?_ (Entails.of_eq ?_)
  · iintro ⟨Hl, Hrl, Hrr, Ha5, H7, H8, H9⟩
    isplitl [Hl Hrl Hrr]
    · iapply (pointsTo_share (PosShare.mem_left_op_right fullShare)).2
      isplitl [Hl]; · iexact Hl
      iapply (pointsTo_share (PosShare.mem_left_op_right fullShare.right)).2
      isplitl [Hrl] <;> iassumption
    isplitl [Ha5]; · iexact Ha5
    isplitl [H7]; · iexact H7
    isplitl [H8]; · iexact H8
    iexact H9
  · unfold Pipeline.unscopedRest
    exact bigSep_congr fun b hb => by rw [hrest b (Finset.mem_sdiff.mp hb).2]

end Shared

theorem V4_ent1 (c : Dev nD) (r : Ref sig .tc) (h : r ∉ ([main_v9] : List (Ref sig .tc))) : V4 m (outsM m) c r = ent1 m c r :=
  (V4_of m (outsM m) c r h).trans (congrFun (V3_outsM m c) r)

theorem V4_v9 (c : Dev nD) : V4 m (outsM m) c main_v9 = outV9 m c := by
  show Function.update (V3 m (outsM m) c) (Proc.devRef .tc main_v9) (outsM m 4 main_v9 c) (Proc.devRef .tc main_v9) = outV9 m c
  rw [Function.update_self, outsM_v9]

set_option backward.isDefEq.respectTransparency.types false in
def reg1 : RegionSeg (pcfgs (F := F)) adm (pdats m) () defs₀ Variants.none noPairs noLv 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ noPairs noLv 1 fun _ _ => rfl
  pre c := iprop(StableHlo.held (c : Thread nD τ) (Pipeline.ucRefs τ sig) (V3 m (outsM m) c) ∗ rest c)
  post c := iprop(StableHlo.held (c : Thread nD τ) (Pipeline.ucRefs τ sig) (V4 m (outsM m) c) ∗ rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none, V3_outsM]
    have hub := unscopedBufs1_split (F := F) c (ent1 m c)
    rw [Pipeline.unscopedBufs_held] at hub
    have hsplit := arrays1_of_arrBufs (ent1 m) c (ent1 m c) ((dat1 (ent1 m) c).arrAt · 0)
      (A_eq1 (ent1 m) c 0) (A_eq1 (ent1 m) c 1) (A_eq1 (ent1 m) c 2) (A_eq1 (ent1 m) c 3) (A_eq1 (ent1 m) c 4) (A_eq1 (ent1 m) c 5) (A_eq1 (ent1 m) c 6)
    rw [hub]
    iintro ⟨⟨⟨Hab, Hrest⟩, Hp, HO⟩, -, -⟩
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi1_first (ent1 m) c)
    unfold Pipeline.ΦA
    iintro ⟨Hp, -, Hr⟩
    isplitl [Hr]; · iexact Hr
    iexact Hp
  hout c := by
    rw [Pipeline.ownSems0_none]
    refine BIBase.Entails.trans (Phi1_last (ent1 m) c) ?_
    unfold Pipeline.ΦA
    iintro ⟨Hr, Hp⟩
    isplitl [Hp]; · iexact Hp
    isplitr; · iempintro
    iexact Hr
  hexit c := by
    have hjoin := unscopedBufs1_of_arrays (ent1 m) c (fun b => V4 m (outsM m) c b) ((dat1 (ent1 m) c).arrAt · cfg1.N)
      ((((dat1 (ent1 m) c).arrAt_in 0 rfl _).trans (A_eq1 (ent1 m) c 0)).trans (V4_ent1 m c _ (by decide)).symm)
      ((((dat1 (ent1 m) c).arrAt_in 1 rfl _).trans (A_eq1 (ent1 m) c 1)).trans (V4_ent1 m c _ (by decide)).symm)
      ((((dat1 (ent1 m) c).arrAt_in 2 rfl _).trans (A_eq1 (ent1 m) c 2)).trans (V4_ent1 m c _ (by decide)).symm)
      ((((dat1 (ent1 m) c).arrAt_in 3 rfl _).trans (A_eq1 (ent1 m) c 3)).trans (V4_ent1 m c _ (by decide)).symm)
      ((((dat1 (ent1 m) c).arrAt_in 4 rfl _).trans (A_eq1 (ent1 m) c 4)).trans (V4_ent1 m c _ (by decide)).symm)
      ((((dat1 (ent1 m) c).arrAt_in 5 rfl _).trans (A_eq1 (ent1 m) c 5)).trans (V4_ent1 m c _ (by decide)).symm)
      (V4_v9 m c).symm
      (fun b hb => V4_ent1 m c b fun h => hb (Finset.mem_image.mpr ⟨6, Finset.mem_univ _, (List.mem_singleton.mp h).symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v9) = outV9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () Variants.none noPairs noLv (fun _ _ => rfl) ρ (outsM m) (outV9 m) (V4_v9 m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := by
      refine Pipeline.initEach noPairs noLv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.KernelIdeal.Hand

end
-- ==== Proof.Spec.lean ====
-- Masked multi-head self-attention with a fused input projection and an output projection, as one function of the argument arrays, entry by entry over the extended reals.
import Idealize.ShloMosaic.PureOps.Ideal
import Idealize.ShloMosaic.Lib.ValueIdx

noncomputable section

namespace AttnSpec

open Idealize.ShloMosaic Idealize.ShloMosaic.ValueIdx

def colIdx (s : Fin 3) (h : Fin 8) (d : Fin 64) : Fin 1536 :=
  ⟨s.val * 512 + h.val * 64 + d.val, by have := s.isLt; have := h.isLt; have := d.isLt; omega⟩

def headOf (c : Fin 512) : Fin 8 := ⟨c.val / 64, by have := c.isLt; omega⟩
def laneOf (c : Fin 512) : Fin 64 := ⟨c.val % 64, by have := c.isLt; omega⟩

variable (x : (⟨3, ![4, 2048, 512]⟩ : Shape).Idx → EReal) (w : (⟨2, ![1536, 512]⟩ : Shape).Idx → EReal)
  (b : (⟨1, ![1536]⟩ : Shape).Idx → EReal) (pw : (⟨2, ![512, 512]⟩ : Shape).Idx → EReal)
  (pb : (⟨1, ![512]⟩ : Shape).Idx → EReal) (mask : (⟨3, ![4, 2048, 2048]⟩ : Shape).Idx → BitVec 32)

variable (bi : Fin 4) (h : Fin 8) (n : Fin 2048) (m : Fin 2048)

def qkv (o : Fin 1536) : EReal :=
  (∑ c : Fin 512, x (ix3 bi n c) * w (ix2 o c)) + b (ix1 o)

def score : EReal :=
  (∑ d : Fin 64, qkv x w b bi n (colIdx 0 h d) * qkv x w b bi m (colIdx 1 h d)) * Ideal.ofBits .f32 0x3E000000#32

def masked : EReal :=
  if mask (ix3 bi n m) = 0#32 then ⊥ else score x w b bi h n m

def rowTop : EReal :=
  max ⊥ ((Finset.univ : Finset (Fin 2048)).fold max ⊥ fun m => masked x w b mask bi h n m)

def expw : EReal :=
  Ideal.exp (masked x w b mask bi h n m - rowTop x w b mask bi h n)

def weight : EReal :=
  Ideal.div (expw x w b mask bi h n m) (0 + ∑ m' : Fin 2048, expw x w b mask bi h n m')

def headOut (d : Fin 64) : EReal :=
  ∑ m : Fin 2048, weight x w b mask bi h n m * qkv x w b bi m (colIdx 2 h d)

def out (o : Fin 512) : EReal :=
  (∑ c : Fin 512, headOut x w b mask bi (headOf c) n (laneOf c) * pw (ix2 o c)) + pb (ix1 o)

def result : (⟨3, ![4, 2048, 512]⟩ : Shape).Idx → EReal :=
  fun i => out x w b pw pb mask (i 0) (i 1) (i 2)

end AttnSpec

end
-- ==== Proof.LibOnlineSoftmax.lean ====
-- A softmax-weighted row sum accumulated tile by tile under a running maximum equals the weighted sum over the whole row.
import Idealize.ShloMosaic.PureOps.Ideal
import Mathlib.Algebra.BigOperators.Fin
import Mathlib.Data.Finset.Fold

noncomputable section

namespace OnlineSoftmax

open Idealize.ShloMosaic

abbrev rowMax {n : ℕ} (s : Fin n → EReal) : EReal := (Finset.univ : Finset (Fin n)).fold max ⊥ s

def step {n : ℕ} (s : Fin n → EReal) (v : Fin n → EReal) (st : EReal × EReal × EReal) : EReal × EReal × EReal :=
  (max st.1 (rowMax s),
   Ideal.exp (st.1 - max st.1 (rowMax s)) * st.2.1 + ∑ k : Fin n, Ideal.exp (s k - max st.1 (rowMax s)),
   Ideal.exp (st.1 - max st.1 (rowMax s)) * st.2.2 + ∑ k : Fin n, Ideal.exp (s k - max st.1 (rowMax s)) * v k)

def run {T n : ℕ} (s : Fin T → Fin n → EReal) (v : Fin T → Fin n → EReal) : ℕ → EReal × EReal × EReal
  | 0 => (⊥, 0, 0)
  | j + 1 => if h : j < T then step (s ⟨j, h⟩) (v ⟨j, h⟩) (run s v j) else run s v j

theorem run_zero {T n : ℕ} (s : Fin T → Fin n → EReal) (v : Fin T → Fin n → EReal) : run s v 0 = (⊥, 0, 0) := rfl

theorem run_succ {T n : ℕ} (s : Fin T → Fin n → EReal) (v : Fin T → Fin n → EReal) (j : ℕ) (h : j < T) :
    run s v (j + 1) = step (s ⟨j, h⟩) (v ⟨j, h⟩) (run s v j) := by
  simp only [run, dif_pos h]

theorem coe_sum {ι : Type} (t : Finset ι) (f : ι → ℝ) :
    ((∑ i ∈ t, f i : ℝ) : EReal) = ∑ i ∈ t, (f i : EReal) := by
  classical
  refine Finset.induction_on t ?_ ?_
  · simp
  · intro a t ha ih
    rw [Finset.sum_insert ha, Finset.sum_insert ha, EReal.coe_add, ih]

def w (x m : EReal) : ℝ := (Ideal.exp (x - m)).toReal

theorem w_bot (m : EReal) : w ⊥ m = 0 := by
  unfold w; rw [EReal.bot_sub, Ideal.exp_bot, EReal.toReal_zero]

theorem w_coe (r q : ℝ) : w (r : EReal) (q : EReal) = Real.exp (r - q) := by
  unfold w; rw [← EReal.coe_sub, Ideal.exp_coe, EReal.toReal_coe]

theorem w_nonneg (x m : EReal) : 0 ≤ w x m := by
  unfold w
  generalize x - m = y
  induction y using EReal.rec with
  | bot => simp
  | coe r => rw [Ideal.exp_coe, EReal.toReal_coe]; exact (Real.exp_pos r).le
  | top => simp

theorem exp_sub {x m : EReal} (hm : m ≠ ⊤) (hxm : x ≤ m) : Ideal.exp (x - m) = ((w x m : ℝ) : EReal) := by
  induction x using EReal.rec with
  | bot => rw [w_bot, EReal.bot_sub, Ideal.exp_bot, EReal.coe_zero]
  | coe r =>
    induction m using EReal.rec with
    | bot => exact absurd hxm (by simp)
    | coe q => rw [w_coe, ← EReal.coe_sub, Ideal.exp_coe]
    | top => exact absurd rfl hm
  | top => exact absurd (top_le_iff.mp hxm) hm

theorem w_mul {x m m' : EReal} (hm' : m' ≠ ⊤) (hxm : x ≤ m) (hmm' : m ≤ m') : w m m' * w x m = w x m' := by
  induction x using EReal.rec with
  | bot => rw [w_bot, w_bot, mul_zero]
  | coe r =>
    induction m using EReal.rec with
    | bot => exact absurd hxm (by simp)
    | coe q =>
      induction m' using EReal.rec with
      | bot => exact absurd hmm' (by simp)
      | coe p => rw [w_coe, w_coe, w_coe, ← Real.exp_add]; congr 1; ring
      | top => exact absurd rfl hm'
    | top => exact absurd (top_le_iff.mp hmm') hm'
  | top => exact absurd (top_le_iff.mp (hxm.trans hmm')) hm'

theorem coe_toReal_of_exists {x : EReal} (h : ∃ r : ℝ, x = (r : EReal)) : x = ((x.toReal : ℝ) : EReal) := by
  obtain ⟨r, hr⟩ := h
  rw [hr, EReal.toReal_coe]

theorem le_rowMax {n : ℕ} (s : Fin n → EReal) (k : Fin n) : s k ≤ rowMax s :=
  (Finset.le_fold_max _).mpr (Or.inr ⟨k, Finset.mem_univ k, le_rfl⟩)

theorem rowMax_ne_top {n : ℕ} (s : Fin n → EReal) (hs : ∀ k, s k ≠ ⊤) : rowMax s ≠ ⊤ :=
  ((Finset.fold_max_lt _).mpr ⟨bot_lt_top, fun k _ => lt_top_iff_ne_top.mpr (hs k)⟩).ne

theorem step_coe {n : ℕ} (s v : Fin n → EReal) (hs : ∀ k, s k ≠ ⊤) (hv : ∀ k, ∃ r : ℝ, v k = (r : EReal))
    (m : EReal) (hm : m ≠ ⊤) (l a : ℝ) :
    step s v (m, (l : EReal), (a : EReal))
      = (max m (rowMax s),
         ((w m (max m (rowMax s)) * l + ∑ k, w (s k) (max m (rowMax s)) : ℝ) : EReal),
         ((w m (max m (rowMax s)) * a + ∑ k, w (s k) (max m (rowMax s)) * (v k).toReal : ℝ) : EReal)) := by
  have hM : max m (rowMax s) ≠ ⊤ := by
    rcases max_choice m (rowMax s) with h | h <;> rw [h]
    · exact hm
    · exact rowMax_ne_top s hs
  have hk : ∀ k, s k ≤ max m (rowMax s) := fun k => (le_rowMax s k).trans (le_max_right _ _)
  have e1 : ∑ k : Fin n, Ideal.exp (s k - max m (rowMax s)) = ((∑ k, w (s k) (max m (rowMax s)) : ℝ) : EReal) := by
    rw [coe_sum]
    exact Finset.sum_congr rfl fun k _ => exp_sub hM (hk k)
  have e2 : ∑ k : Fin n, Ideal.exp (s k - max m (rowMax s)) * v k
      = ((∑ k, w (s k) (max m (rowMax s)) * (v k).toReal : ℝ) : EReal) := by
    rw [coe_sum]
    refine Finset.sum_congr rfl fun k _ => ?_
    rw [exp_sub hM (hk k), EReal.coe_mul, ← coe_toReal_of_exists (hv k)]
  unfold step
  simp only []
  rw [e1, e2, exp_sub hM (le_max_left _ _), EReal.coe_add, EReal.coe_add, EReal.coe_mul, EReal.coe_mul]

def upto (T j : ℕ) : Finset (Fin T) := Finset.univ.filter fun i => i.val < j

theorem upto_zero (T : ℕ) : upto T 0 = ∅ := by
  ext i
  simp [upto]

theorem upto_self (T : ℕ) : upto T T = Finset.univ := by
  ext i
  simp [upto]

theorem upto_succ {T : ℕ} (j : ℕ) (h : j < T) : upto T (j + 1) = insert (⟨j, h⟩ : Fin T) (upto T j) := by
  ext i
  simp only [upto, Finset.mem_filter, Finset.mem_univ, true_and, Finset.mem_insert, Fin.ext_iff]
  omega

theorem not_mem_upto {T : ℕ} (j : ℕ) (h : j < T) : (⟨j, h⟩ : Fin T) ∉ upto T j := by
  simp [upto]

def pmax {T n : ℕ} (s : Fin T → Fin n → EReal) (j : ℕ) : EReal := (upto T j).fold max ⊥ fun i => rowMax (s i)

theorem pmax_zero {T n : ℕ} (s : Fin T → Fin n → EReal) : pmax s 0 = ⊥ := by
  rw [pmax, upto_zero, Finset.fold_empty]

theorem pmax_succ {T n : ℕ} (s : Fin T → Fin n → EReal) (j : ℕ) (h : j < T) :
    pmax s (j + 1) = max (pmax s j) (rowMax (s ⟨j, h⟩)) := by
  rw [pmax, upto_succ j h, Finset.fold_insert (not_mem_upto j h), max_comm]
  rfl

theorem le_pmax {T n : ℕ} (s : Fin T → Fin n → EReal) (j : ℕ) {i : Fin T} (hi : i ∈ upto T j) (k : Fin n) :
    s i k ≤ pmax s j :=
  (Finset.le_fold_max _).mpr (Or.inr ⟨i, hi, le_rowMax (s i) k⟩)

theorem pmax_ne_top {T n : ℕ} (s : Fin T → Fin n → EReal) (hs : ∀ j k, s j k ≠ ⊤) (j : ℕ) : pmax s j ≠ ⊤ :=
  ((Finset.fold_max_lt _).mpr ⟨bot_lt_top, fun i _ => lt_top_iff_ne_top.mpr (rowMax_ne_top (s i) (hs i))⟩).ne

def den {T n : ℕ} (s : Fin T → Fin n → EReal) (j : ℕ) : ℝ := ∑ i ∈ upto T j, ∑ k, w (s i k) (pmax s j)

def num {T n : ℕ} (s v : Fin T → Fin n → EReal) (j : ℕ) : ℝ :=
  ∑ i ∈ upto T j, ∑ k, w (s i k) (pmax s j) * (v i k).toReal

theorem den_succ {T n : ℕ} (s : Fin T → Fin n → EReal) (hs : ∀ j k, s j k ≠ ⊤) (j : ℕ) (h : j < T) :
    w (pmax s j) (pmax s (j + 1)) * den s j + ∑ k, w (s ⟨j, h⟩ k) (pmax s (j + 1)) = den s (j + 1) := by
  have hle : pmax s j ≤ pmax s (j + 1) := by rw [pmax_succ s j h]; exact le_max_left _ _
  have htop := pmax_ne_top s hs (j + 1)
  rw [den, den, upto_succ j h, Finset.sum_insert (not_mem_upto j h), Finset.mul_sum, add_comm]
  congr 1
  refine Finset.sum_congr rfl fun i hi => ?_
  rw [Finset.mul_sum]
  exact Finset.sum_congr rfl fun k _ => w_mul htop (le_pmax s j hi k) hle

theorem num_succ {T n : ℕ} (s v : Fin T → Fin n → EReal) (hs : ∀ j k, s j k ≠ ⊤) (j : ℕ) (h : j < T) :
    w (pmax s j) (pmax s (j + 1)) * num s v j + ∑ k, w (s ⟨j, h⟩ k) (pmax s (j + 1)) * (v ⟨j, h⟩ k).toReal
      = num s v (j + 1) := by
  have hle : pmax s j ≤ pmax s (j + 1) := by rw [pmax_succ s j h]; exact le_max_left _ _
  have htop := pmax_ne_top s hs (j + 1)
  rw [num, num, upto_succ j h, Finset.sum_insert (not_mem_upto j h), Finset.mul_sum, add_comm]
  congr 1
  refine Finset.sum_congr rfl fun i hi => ?_
  rw [Finset.mul_sum]
  refine Finset.sum_congr rfl fun k _ => ?_
  rw [← mul_assoc, w_mul htop (le_pmax s j hi k) hle]

theorem run_eq {T n : ℕ} (s v : Fin T → Fin n → EReal) (hs : ∀ j k, s j k ≠ ⊤)
    (hv : ∀ j k, ∃ r : ℝ, v j k = (r : EReal)) :
    ∀ j, j ≤ T → run s v j = (pmax s j, ((den s j : ℝ) : EReal), ((num s v j : ℝ) : EReal)) := by
  intro j
  induction j with
  | zero =>
    intro _
    rw [run_zero, pmax_zero, den, num, upto_zero, Finset.sum_empty, Finset.sum_empty, EReal.coe_zero]
  | succ j ih =>
    intro hj
    have h : j < T := hj
    rw [run_succ s v j h, ih h.le, step_coe (s ⟨j, h⟩) (v ⟨j, h⟩) (hs ⟨j, h⟩) (hv ⟨j, h⟩) _ (pmax_ne_top s hs j),
      ← pmax_succ s j h, den_succ s hs j h, num_succ s v hs j h]

theorem den_pos {T n : ℕ} (s : Fin T → Fin n → EReal) (hs : ∀ j k, s j k ≠ ⊤) (hne : ∃ j k, s j k ≠ ⊥) :
    0 < den s T := by
  obtain ⟨j, k, hjk⟩ := hne
  have hj : j ∈ upto T T := by rw [upto_self]; exact Finset.mem_univ j
  have hle := le_pmax s T hj k
  have htop := pmax_ne_top s hs T
  have hpos : 0 < w (s j k) (pmax s T) := by
    generalize pmax s T = m at hle htop
    have hs' := hs j k
    generalize s j k = x at hjk hle hs'
    induction x using EReal.rec with
    | bot => exact absurd rfl hjk
    | coe r =>
      induction m using EReal.rec with
      | bot => exact absurd hle (by simp)
      | coe q => rw [w_coe]; exact Real.exp_pos _
      | top => exact absurd rfl htop
    | top => exact absurd rfl hs'
  have h1 : w (s j k) (pmax s T) ≤ ∑ k', w (s j k') (pmax s T) :=
    Finset.single_le_sum (f := fun k' => w (s j k') (pmax s T)) (fun k' _ => w_nonneg _ _) (Finset.mem_univ k)
  have h2 : ∑ k', w (s j k') (pmax s T) ≤ den s T :=
    Finset.single_le_sum (f := fun i => ∑ k', w (s i k') (pmax s T))
      (fun i _ => Finset.sum_nonneg fun k' _ => w_nonneg _ _) hj
  exact lt_of_lt_of_le hpos (h1.trans h2)

theorem result_coe {T n : ℕ} (s v : Fin T → Fin n → EReal) (hs : ∀ j k, s j k ≠ ⊤)
    (hv : ∀ j k, ∃ r : ℝ, v j k = (r : EReal)) (hne : ∃ j k, s j k ≠ ⊥) :
    (run s v T).2.2 * Ideal.div 1 (run s v T).2.1 = ((num s v T * (1 / den s T) : ℝ) : EReal) := by
  rw [run_eq s v hs hv T le_rfl]
  simp only []
  rw [Ideal.div_coe (den_pos s hs hne).ne', one_mul, ← EReal.coe_mul]

theorem run_result {T n : ℕ} (s : Fin T → Fin n → EReal) (v : Fin T → Fin n → EReal)
    (hs : ∀ j k, s j k ≠ ⊤) (hv : ∀ j k, ∃ r : ℝ, v j k = (r : EReal)) (hne : ∃ j k, s j k ≠ ⊥) :
    (run s v T).2.2 * Ideal.div 1 (run s v T).2.1
      = ∑ j : Fin T, ∑ k : Fin n,
          Ideal.div (Ideal.exp (s j k - max ⊥ ((Finset.univ : Finset (Fin T)).fold max ⊥ fun j' => rowMax (s j'))))
            (0 + ∑ j' : Fin T, ∑ k' : Fin n, Ideal.exp (s j' k' - max ⊥ ((Finset.univ : Finset (Fin T)).fold max ⊥ fun j' => rowMax (s j'))))
          * v j k := by
  have hM : max ⊥ ((Finset.univ : Finset (Fin T)).fold max ⊥ fun j' => rowMax (s j')) = pmax s T := by
    rw [max_eq_right bot_le, pmax, upto_self]
  have htop := pmax_ne_top s hs T
  have hmem : ∀ i : Fin T, i ∈ upto T T := fun i => by rw [upto_self]; exact Finset.mem_univ i
  have hden : (0 : EReal) + ∑ j' : Fin T, ∑ k' : Fin n, Ideal.exp (s j' k' - pmax s T) = ((den s T : ℝ) : EReal) := by
    rw [zero_add, den, upto_self, coe_sum]
    refine Finset.sum_congr rfl fun i _ => ?_
    rw [coe_sum]
    exact Finset.sum_congr rfl fun k _ => exp_sub htop (le_pmax s T (hmem i) k)
  rw [result_coe s v hs hv hne, hM, hden, num, upto_self, Finset.sum_mul, coe_sum]
  refine Finset.sum_congr rfl fun i _ => ?_
  rw [Finset.sum_mul, coe_sum]
  refine Finset.sum_congr rfl fun k _ => ?_
  rw [Ideal.div_coe (den_pos s hs hne).ne', exp_sub htop (le_pmax s T (hmem i) k)]
  conv_rhs => rw [coe_toReal_of_exists (hv i k)]
  rw [← EReal.coe_mul, ← EReal.coe_mul]
  congr 1
  ring

theorem run_result_real {T n : ℕ} (s : Fin T → Fin n → EReal) (v : Fin T → Fin n → EReal)
    (hs : ∀ j k, s j k ≠ ⊤) (hv : ∀ j k, ∃ r : ℝ, v j k = (r : EReal)) (hne : ∃ j k, s j k ≠ ⊥) :
    ∃ r : ℝ, (run s v T).2.2 * Ideal.div 1 (run s v T).2.1 = (r : EReal) :=
  ⟨_, result_coe s v hs hv hne⟩

def flat {T n : ℕ} (j : Fin T) (k : Fin n) : Fin (T * n) := finProdFinEquiv (j, k)

theorem flat_val {T n : ℕ} (j : Fin T) (k : Fin n) : (flat j k).val = k.val + n * j.val := rfl

theorem flat_surj {T n : ℕ} (i : Fin (T * n)) : flat (finProdFinEquiv.symm i).1 (finProdFinEquiv.symm i).2 = i :=
  finProdFinEquiv.apply_symm_apply i

theorem sum_flat {T n : ℕ} (f : Fin (T * n) → EReal) : ∑ i : Fin (T * n), f i = ∑ j : Fin T, ∑ k : Fin n, f (flat j k) := by
  rw [← Fintype.sum_prod_type' (fun j k => f (flat j k))]
  exact (Fintype.sum_equiv finProdFinEquiv (fun p => f (flat p.1 p.2)) f fun _ => rfl).symm

theorem fold_max_flat {T n : ℕ} (f : Fin (T * n) → EReal) :
    (Finset.univ : Finset (Fin (T * n))).fold max ⊥ f = (Finset.univ : Finset (Fin T)).fold max ⊥ fun j => rowMax fun k => f (flat j k) := by
  apply le_antisymm
  · refine (Finset.fold_max_le _).mpr ⟨bot_le, fun i _ => ?_⟩
    refine (Finset.le_fold_max _).mpr (Or.inr ⟨(finProdFinEquiv.symm i).1, Finset.mem_univ _, ?_⟩)
    refine (Finset.le_fold_max _).mpr (Or.inr ⟨(finProdFinEquiv.symm i).2, Finset.mem_univ _, ?_⟩)
    rw [flat_surj]
  · refine (Finset.fold_max_le _).mpr ⟨bot_le, fun j _ => ?_⟩
    refine (Finset.fold_max_le _).mpr ⟨bot_le, fun k _ => ?_⟩
    exact (Finset.le_fold_max _).mpr (Or.inr ⟨flat j k, Finset.mem_univ _, le_rfl⟩)

end OnlineSoftmax

end
-- ==== Proof.AttnMid.lean ====
-- The specification's attention row, cut into four key tiles, is the streamed row of the tiles' masked scores and value lanes.
import proofs.«416084_j63617055588838_3_alg».proof.Proof.Spec
import proofs.«416084_j63617055588838_3_alg».proof.Proof.LibOnlineSoftmax

noncomputable section

namespace AttnMid

open Idealize.ShloMosaic Idealize.ShloMosaic.ValueIdx

variable (x : (⟨3, ![4, 2048, 512]⟩ : Shape).Idx → EReal) (w : (⟨2, ![1536, 512]⟩ : Shape).Idx → EReal)
  (b : (⟨1, ![1536]⟩ : Shape).Idx → EReal) (mask : (⟨3, ![4, 2048, 2048]⟩ : Shape).Idx → BitVec 32)

def key (j : Fin 4) (kk : Fin 512) : Fin 2048 := ⟨j.val * 512 + kk.val, by have := j.isLt; have := kk.isLt; omega⟩

def tileS (bi : Fin 4) (h : Fin 8) (n : Fin 2048) (j : Fin 4) (kk : Fin 512) : EReal :=
  AttnSpec.masked x w b mask bi h n (key j kk)

def tileV (bi : Fin 4) (h : Fin 8) (d : Fin 64) (j : Fin 4) (kk : Fin 512) : EReal :=
  AttnSpec.qkv x w b bi (key j kk) (AttnSpec.colIdx 2 h d)

theorem add_real {p q : EReal} (hp : ∃ r : ℝ, p = (r : EReal)) (hq : ∃ r : ℝ, q = (r : EReal)) :
    ∃ r : ℝ, p + q = (r : EReal) := by
  obtain ⟨p', rfl⟩ := hp
  obtain ⟨q', rfl⟩ := hq
  exact ⟨p' + q', (EReal.coe_add p' q').symm⟩

theorem mul_real {p q : EReal} (hp : ∃ r : ℝ, p = (r : EReal)) (hq : ∃ r : ℝ, q = (r : EReal)) :
    ∃ r : ℝ, p * q = (r : EReal) := by
  obtain ⟨p', rfl⟩ := hp
  obtain ⟨q', rfl⟩ := hq
  exact ⟨p' * q', (EReal.coe_mul p' q').symm⟩

theorem sum_real {ι : Type} [Fintype ι] (f : ι → EReal) (hf : ∀ i, ∃ r : ℝ, f i = (r : EReal)) :
    ∃ r : ℝ, ∑ i, f i = (r : EReal) := by
  choose g hg using hf
  refine ⟨∑ i, g i, ?_⟩
  rw [OnlineSoftmax.coe_sum]
  exact Finset.sum_congr rfl fun i _ => hg i

theorem scale_real : ∃ r : ℝ, Ideal.ofBits .f32 0x3E000000#32 = (r : EReal) := ⟨_, rfl⟩

theorem qkv_real (hx : ∀ i, ∃ r : ℝ, x i = (r : EReal)) (hw : ∀ i, ∃ r : ℝ, w i = (r : EReal))
    (hb : ∀ i, ∃ r : ℝ, b i = (r : EReal)) (bi : Fin 4) (n : Fin 2048) (o : Fin 1536) :
    ∃ r : ℝ, AttnSpec.qkv x w b bi n o = (r : EReal) := by
  show ∃ r : ℝ, (∑ c : Fin 512, x (ix3 bi n c) * w (ix2 o c)) + b (ix1 o) = (r : EReal)
  exact add_real (sum_real _ fun c => mul_real (hx _) (hw _)) (hb _)

theorem score_real (hx : ∀ i, ∃ r : ℝ, x i = (r : EReal)) (hw : ∀ i, ∃ r : ℝ, w i = (r : EReal))
    (hb : ∀ i, ∃ r : ℝ, b i = (r : EReal)) (bi : Fin 4) (h : Fin 8) (n m : Fin 2048) :
    ∃ r : ℝ, AttnSpec.score x w b bi h n m = (r : EReal) := by
  show ∃ r : ℝ, (∑ d : Fin 64, AttnSpec.qkv x w b bi n (AttnSpec.colIdx 0 h d) * AttnSpec.qkv x w b bi m (AttnSpec.colIdx 1 h d))
      * Ideal.ofBits .f32 0x3E000000#32 = (r : EReal)
  exact mul_real (sum_real _ fun d => mul_real (qkv_real x w b hx hw hb bi n _) (qkv_real x w b hx hw hb bi m _)) scale_real

theorem masked_eq (bi : Fin 4) (h : Fin 8) (n m : Fin 2048) :
    AttnSpec.masked x w b mask bi h n m = if mask (ix3 bi n m) = 0#32 then ⊥ else AttnSpec.score x w b bi h n m := rfl

theorem masked_ne_top (hx : ∀ i, ∃ r : ℝ, x i = (r : EReal)) (hw : ∀ i, ∃ r : ℝ, w i = (r : EReal))
    (hb : ∀ i, ∃ r : ℝ, b i = (r : EReal)) (bi : Fin 4) (h : Fin 8) (n m : Fin 2048) :
    AttnSpec.masked x w b mask bi h n m ≠ ⊤ := by
  rw [masked_eq]
  split_ifs
  · exact bot_ne_top
  · obtain ⟨r, hr⟩ := score_real x w b hx hw hb bi h n m
    rw [hr]
    exact EReal.coe_ne_top r

theorem masked_ne_bot (hx : ∀ i, ∃ r : ℝ, x i = (r : EReal)) (hw : ∀ i, ∃ r : ℝ, w i = (r : EReal))
    (hb : ∀ i, ∃ r : ℝ, b i = (r : EReal)) (bi : Fin 4) (h : Fin 8) (n m : Fin 2048)
    (hm : mask (ix3 bi n m) ≠ 0#32) : AttnSpec.masked x w b mask bi h n m ≠ ⊥ := by
  rw [masked_eq, if_neg hm]
  obtain ⟨r, hr⟩ := score_real x w b hx hw hb bi h n m
  rw [hr]
  exact EReal.coe_ne_bot r

theorem key_surj (m : Fin 2048) :
    key ⟨m.val / 512, by have := m.isLt; omega⟩ ⟨m.val % 512, Nat.mod_lt _ (by norm_num)⟩ = m := by
  apply Fin.ext
  show m.val / 512 * 512 + m.val % 512 = m.val
  omega

theorem flat_eq_key (j : Fin 4) (kk : Fin 512) : (OnlineSoftmax.flat j kk : Fin (4 * 512)) = key j kk := by
  apply Fin.ext
  rw [OnlineSoftmax.flat_val]
  show kk.val + 512 * j.val = j.val * 512 + kk.val
  omega

theorem sum_key (F : Fin 2048 → EReal) : ∑ m : Fin 2048, F m = ∑ j : Fin 4, ∑ kk : Fin 512, F (key j kk) := by
  have h := OnlineSoftmax.sum_flat (T := 4) (n := 512) F
  simp only [flat_eq_key] at h
  exact h

theorem fold_key (F : Fin 2048 → EReal) :
    (Finset.univ : Finset (Fin 2048)).fold max ⊥ F
      = (Finset.univ : Finset (Fin 4)).fold max ⊥ fun j => OnlineSoftmax.rowMax fun kk => F (key j kk) := by
  have h := OnlineSoftmax.fold_max_flat (T := 4) (n := 512) F
  simp only [flat_eq_key] at h
  exact h

theorem rowTop_eq (bi : Fin 4) (h : Fin 8) (n : Fin 2048) :
    AttnSpec.rowTop x w b mask bi h n
      = max ⊥ ((Finset.univ : Finset (Fin 2048)).fold max ⊥ fun m => AttnSpec.masked x w b mask bi h n m) := rfl

theorem headOut_eq (bi : Fin 4) (h : Fin 8) (n : Fin 2048) (d : Fin 64) :
    AttnSpec.headOut x w b mask bi h n d
      = ∑ m : Fin 2048,
          Ideal.div (Ideal.exp (AttnSpec.masked x w b mask bi h n m - AttnSpec.rowTop x w b mask bi h n))
            (0 + ∑ m' : Fin 2048, Ideal.exp (AttnSpec.masked x w b mask bi h n m' - AttnSpec.rowTop x w b mask bi h n))
          * AttnSpec.qkv x w b bi m (AttnSpec.colIdx 2 h d) := rfl

theorem tile_hyps (hx : ∀ i, ∃ r : ℝ, x i = (r : EReal)) (hw : ∀ i, ∃ r : ℝ, w i = (r : EReal))
    (hb : ∀ i, ∃ r : ℝ, b i = (r : EReal)) (bi : Fin 4) (h : Fin 8) (n : Fin 2048) (d : Fin 64)
    (hrow : ∃ mi : Fin 2048, mask (ValueIdx.ix3 bi n mi) ≠ 0#32) :
    (∀ j k, tileS x w b mask bi h n j k ≠ ⊤) ∧ (∀ j k, ∃ r : ℝ, tileV x w b bi h d j k = (r : EReal))
      ∧ ∃ j k, tileS x w b mask bi h n j k ≠ ⊥ := by
  refine ⟨fun j k => masked_ne_top x w b mask hx hw hb bi h n (key j k),
    fun j k => qkv_real x w b hx hw hb bi (key j k) _, ?_⟩
  obtain ⟨mi, hmi⟩ := hrow
  refine ⟨⟨mi.val / 512, by have := mi.isLt; omega⟩, ⟨mi.val % 512, Nat.mod_lt _ (by norm_num)⟩, ?_⟩
  show AttnSpec.masked x w b mask bi h n (key _ _) ≠ ⊥
  rw [key_surj]
  exact masked_ne_bot x w b mask hx hw hb bi h n mi hmi

theorem stream_eq (hx : ∀ i, ∃ r : ℝ, x i = (r : EReal)) (hw : ∀ i, ∃ r : ℝ, w i = (r : EReal))
    (hb : ∀ i, ∃ r : ℝ, b i = (r : EReal)) (bi : Fin 4) (h : Fin 8) (n : Fin 2048) (d : Fin 64)
    (hrow : ∃ mi : Fin 2048, mask (ValueIdx.ix3 bi n mi) ≠ 0#32) :
    (OnlineSoftmax.run (tileS x w b mask bi h n) (tileV x w b bi h d) 4).2.2
        * Ideal.div 1 (OnlineSoftmax.run (tileS x w b mask bi h n) (tileV x w b bi h d) 4).2.1
      = AttnSpec.headOut x w b mask bi h n d := by
  obtain ⟨hs, hv, hne⟩ := tile_hyps x w b mask hx hw hb bi h n d hrow
  have hmax : max ⊥ ((Finset.univ : Finset (Fin 4)).fold max ⊥ fun j' => OnlineSoftmax.rowMax (tileS x w b mask bi h n j'))
      = AttnSpec.rowTop x w b mask bi h n := by
    rw [rowTop_eq, fold_key]
    rfl
  rw [OnlineSoftmax.run_result _ _ hs hv hne, hmax, headOut_eq]
  simp only [sum_key]
  rfl

end AttnMid

end
-- ==== Proof.TileSpec.lean ====
-- One key tile of one head: its masked, scaled scores and its value lanes as functions of the staged tiles.
import proofs.«416084_j63617055588838_3_alg».proof.KernelIdeal
import proofs.«416084_j63617055588838_3_alg».proof.Proof.LibOnlineSoftmax
import Idealize.ShloMosaic.Lib.ValueIdx

noncomputable section

namespace Cert.KernelIdeal.HandValue

open Cert.KernelIdeal Idealize.ShloMosaic Idealize.ShloMosaic.ValueIdx

def hcol (h : Fin 8) (d : Fin 64) : Fin 512 := ⟨h.val * 64 + d.val, by have := h.isLt; have := d.isLt; omega⟩

def tileScore (q : S1x1024x512.Idx → EReal) (k : S1x512x512.Idx → EReal) (mk : S1x1024x512.Idx → BitVec 32)
    (h : Fin 8) (r : Fin 1024) (kk : Fin 512) : EReal :=
  if mk (ix3 (0 : Fin 1) r kk) = 0#32 then ⊥
  else (∑ d : Fin 64, q (ix3 (0 : Fin 1) r (hcol h d)) * k (ix3 (0 : Fin 1) kk (hcol h d))) * Ideal.ofBits .f32 0x3E000000#32

def tileVal (v : S1x512x512.Idx → EReal) (h : Fin 8) (d : Fin 64) (kk : Fin 512) : EReal := v (ix3 (0 : Fin 1) kk (hcol h d))

end Cert.KernelIdeal.HandValue

end
-- ==== Proof.StreamGlue.lean ====
-- Accumulators that satisfy the per-tile update equations hold the streamed row's maximum, denominator and weighted sum; the last tile's output follows.
import proofs.«416084_j63617055588838_3_alg».proof.Proof.Spec
import proofs.«416084_j63617055588838_3_alg».proof.Proof.LibOnlineSoftmax
import proofs.«416084_j63617055588838_3_alg».proof.Proof.AttnMid
import proofs.«416084_j63617055588838_3_alg».proof.Proof.TileSpec
import Idealize.ShloMosaic.Lib.ValueIdx
import Idealize.ShloMosaic.Lib.IdealHost

noncomputable section

namespace StreamGlue

open Idealize.ShloMosaic Idealize.ShloMosaic.ValueIdx Cert.KernelIdeal.HandValue

theorem scratch_step
    (S : Fin 4 → Fin 1024 → Fin 8 → Fin 512 → EReal) (Vv : Fin 4 → Fin 8 → Fin 64 → Fin 512 → EReal)
    (M L Mp Lp : Fin 4 → (⟨2, ![1024, 8]⟩ : Shape).Idx → EReal)
    (A Ap : Fin 4 → (⟨2, ![1024, 512]⟩ : Shape).Idx → EReal)
    (hM : ∀ j r h, M j (ix2 r h) = max (Mp j (ix2 r h)) (OnlineSoftmax.rowMax fun kk => S j r h kk))
    (hL : ∀ j r h, L j (ix2 r h) = Ideal.exp (Mp j (ix2 r h) - M j (ix2 r h)) * Lp j (ix2 r h)
      + ∑ kk : Fin 512, Ideal.exp (S j r h kk - M j (ix2 r h)))
    (hA : ∀ j r h d, A j (ix2 r (hcol h d)) = Ideal.exp (Mp j (ix2 r h) - M j (ix2 r h)) * Ap j (ix2 r (hcol h d))
      + ∑ kk : Fin 512, Ideal.exp (S j r h kk - M j (ix2 r h)) * Vv j h d kk)
    (j : Fin 4) (r : Fin 1024) (h : Fin 8) (d : Fin 64) :
    (M j (ix2 r h), L j (ix2 r h), A j (ix2 r (hcol h d)))
      = OnlineSoftmax.step (fun kk => S j r h kk) (fun kk => Vv j h d kk)
          (Mp j (ix2 r h), Lp j (ix2 r h), Ap j (ix2 r (hcol h d))) := by
  rw [hA j r h d, hL j r h, hM j r h]
  rfl

theorem scratch_run
    (S : Fin 4 → Fin 1024 → Fin 8 → Fin 512 → EReal) (Vv : Fin 4 → Fin 8 → Fin 64 → Fin 512 → EReal)
    (M L Mp Lp : Fin 4 → (⟨2, ![1024, 8]⟩ : Shape).Idx → EReal)
    (A Ap : Fin 4 → (⟨2, ![1024, 512]⟩ : Shape).Idx → EReal)
    (h0 : ∀ i, Mp 0 i = ⊥ ∧ Lp 0 i = 0) (h0A : ∀ i, Ap 0 i = 0)
    (hs : ∀ (j : Fin 4) (hj : j.val + 1 < 4), Mp ⟨j.val + 1, hj⟩ = M j ∧ Lp ⟨j.val + 1, hj⟩ = L j ∧ Ap ⟨j.val + 1, hj⟩ = A j)
    (hM : ∀ j r h, M j (ix2 r h) = max (Mp j (ix2 r h)) (OnlineSoftmax.rowMax fun kk => S j r h kk))
    (hL : ∀ j r h, L j (ix2 r h) = Ideal.exp (Mp j (ix2 r h) - M j (ix2 r h)) * Lp j (ix2 r h)
      + ∑ kk : Fin 512, Ideal.exp (S j r h kk - M j (ix2 r h)))
    (hA : ∀ j r h d, A j (ix2 r (hcol h d)) = Ideal.exp (Mp j (ix2 r h) - M j (ix2 r h)) * Ap j (ix2 r (hcol h d))
      + ∑ kk : Fin 512, Ideal.exp (S j r h kk - M j (ix2 r h)) * Vv j h d kk)
    (j : Fin 4) (r : Fin 1024) (h : Fin 8) (d : Fin 64) :
    (M j (ix2 r h), L j (ix2 r h), A j (ix2 r (hcol h d)))
      = OnlineSoftmax.run (fun j' kk => S j' r h kk) (fun j' kk => Vv j' h d kk) (j.val + 1) := by
  have key : ∀ (t : ℕ) (ht : t < 4),
      (M ⟨t, ht⟩ (ix2 r h), L ⟨t, ht⟩ (ix2 r h), A ⟨t, ht⟩ (ix2 r (hcol h d)))
        = OnlineSoftmax.run (fun j' kk => S j' r h kk) (fun j' kk => Vv j' h d kk) (t + 1) := by
    intro t
    induction t with
    | zero =>
      intro ht
      rw [scratch_step S Vv M L Mp Lp A Ap hM hL hA ⟨0, ht⟩ r h d, OnlineSoftmax.run_succ _ _ 0 ht,
        OnlineSoftmax.run_zero]
      have e1 : Mp ⟨0, ht⟩ (ix2 r h) = ⊥ := (h0 _).1
      have e2 : Lp ⟨0, ht⟩ (ix2 r h) = 0 := (h0 _).2
      have e3 : Ap ⟨0, ht⟩ (ix2 r (hcol h d)) = 0 := h0A _
      rw [e1, e2, e3]
    | succ t ih =>
      intro ht
      have ht' : t < 4 := by omega
      obtain ⟨eM, eL, eA⟩ := hs ⟨t, ht'⟩ ht
      rw [scratch_step S Vv M L Mp Lp A Ap hM hL hA ⟨t + 1, ht⟩ r h d, OnlineSoftmax.run_succ _ _ (t + 1) ht,
        ← ih ht', eM, eL, eA]
  exact key j.val j.isLt

def rowOf (qt : Fin 2) (r : Fin 1024) : Fin 2048 := ⟨qt.val * 1024 + r.val, by have := qt.isLt; have := r.isLt; omega⟩

theorem hcol_head_lane (c : Fin 512) : hcol (AttnSpec.headOf c) (AttnSpec.laneOf c) = c := by
  apply Fin.ext
  show c.val / 64 * 64 + c.val % 64 = c.val
  omega

variable (x : (⟨3, ![4, 2048, 512]⟩ : Shape).Idx → EReal) (w : (⟨2, ![1536, 512]⟩ : Shape).Idx → EReal)
  (b : (⟨1, ![1536]⟩ : Shape).Idx → EReal) (pw : (⟨2, ![512, 512]⟩ : Shape).Idx → EReal)
  (pb : (⟨1, ![512]⟩ : Shape).Idx → EReal) (mask : (⟨3, ![4, 2048, 2048]⟩ : Shape).Idx → BitVec 32)

theorem norm_col (hx : ∀ i, ∃ r : ℝ, x i = (r : EReal)) (hw : ∀ i, ∃ r : ℝ, w i = (r : EReal))
    (hb : ∀ i, ∃ r : ℝ, b i = (r : EReal))
    (hrows : ∀ (bi : Fin 4) (n : Fin 2048), ∃ mi : Fin 2048, mask (ix3 bi n mi) ≠ 0#32)
    (bi : Fin 4) (qt : Fin 2)
    (L3 : (⟨2, ![1024, 8]⟩ : Shape).Idx → EReal) (A3 : (⟨2, ![1024, 512]⟩ : Shape).Idx → EReal)
    (hL3 : ∀ r h d, L3 (ix2 r h)
      = (OnlineSoftmax.run (AttnMid.tileS x w b mask bi h (rowOf qt r)) (AttnMid.tileV x w b bi h d) 4).2.1)
    (hA3 : ∀ r h d, A3 (ix2 r (hcol h d))
      = (OnlineSoftmax.run (AttnMid.tileS x w b mask bi h (rowOf qt r)) (AttnMid.tileV x w b bi h d) 4).2.2)
    (N : (⟨2, ![1024, 512]⟩ : Shape).Idx → EReal)
    (hN : ∀ r h d, N (ix2 r (hcol h d))
      = A3 (ix2 r (hcol h d)) * Ideal.div (Ideal.ofBits .f32 0x3F800000#32) (L3 (ix2 r h)))
    (r : Fin 1024) (c : Fin 512) :
    N (ix2 r c) = AttnSpec.headOut x w b mask bi (AttnSpec.headOf c) (rowOf qt r) (AttnSpec.laneOf c) := by
  have h1 := hN r (AttnSpec.headOf c) (AttnSpec.laneOf c)
  rw [hA3 r (AttnSpec.headOf c) (AttnSpec.laneOf c), hL3 r (AttnSpec.headOf c) (AttnSpec.laneOf c),
    Ideal.ofBits_one_f32,
    AttnMid.stream_eq x w b mask hx hw hb bi (AttnSpec.headOf c) (rowOf qt r) (AttnSpec.laneOf c) (hrows bi (rowOf qt r)),
    hcol_head_lane] at h1
  exact h1

theorem out_tile (hx : ∀ i, ∃ r : ℝ, x i = (r : EReal)) (hw : ∀ i, ∃ r : ℝ, w i = (r : EReal))
    (hb : ∀ i, ∃ r : ℝ, b i = (r : EReal))
    (hrows : ∀ (bi : Fin 4) (n : Fin 2048), ∃ mi : Fin 2048, mask (ix3 bi n mi) ≠ 0#32)
    (bi : Fin 4) (qt : Fin 2)
    (L3 : (⟨2, ![1024, 8]⟩ : Shape).Idx → EReal) (A3 : (⟨2, ![1024, 512]⟩ : Shape).Idx → EReal)
    (hL3 : ∀ r h d, L3 (ix2 r h)
      = (OnlineSoftmax.run (AttnMid.tileS x w b mask bi h (rowOf qt r)) (AttnMid.tileV x w b bi h d) 4).2.1)
    (hA3 : ∀ r h d, A3 (ix2 r (hcol h d))
      = (OnlineSoftmax.run (AttnMid.tileS x w b mask bi h (rowOf qt r)) (AttnMid.tileV x w b bi h d) 4).2.2)
    (N : (⟨2, ![1024, 512]⟩ : Shape).Idx → EReal)
    (hN : ∀ r h d, N (ix2 r (hcol h d))
      = A3 (ix2 r (hcol h d)) * Ideal.div (Ideal.ofBits .f32 0x3F800000#32) (L3 (ix2 r h)))
    (x4 : (⟨2, ![512, 512]⟩ : Shape).Idx → EReal) (hx4 : ∀ c o, x4 (ix2 c o) = pw (ix2 o c))
    (x5 : (⟨2, ![1, 512]⟩ : Shape).Idx → EReal) (hx5 : ∀ o, x5 (ix2 (0 : Fin 1) o) = pb (ix1 o))
    (r : Fin 1024) (o : Fin 512) :
    (∑ c : Fin 512, N (ix2 r c) * x4 (ix2 c o)) + x5 (ix2 (0 : Fin 1) o)
      = AttnSpec.out x w b pw pb mask bi (rowOf qt r) o := by
  show _ = (∑ c : Fin 512, AttnSpec.headOut x w b mask bi (AttnSpec.headOf c) (rowOf qt r) (AttnSpec.laneOf c)
      * pw (ix2 o c)) + pb (ix1 o)
  rw [hx5 o]
  congr 1
  refine Finset.sum_congr rfl fun c _ => ?_
  rw [norm_col x w b mask hx hw hb hrows bi qt L3 A3 hL3 hA3 N hN r c, hx4 c o]

end StreamGlue

end
-- ==== Proof.TileBridge.lean ====
-- A staged tile's masked score and value lane are the specification's at the tile's batch entry, rows and keys.
import proofs.«416084_j63617055588838_3_alg».proof.Proof.TileSpec
import proofs.«416084_j63617055588838_3_alg».proof.Proof.AttnMid
import proofs.«416084_j63617055588838_3_alg».proof.Proof.Spec
import Idealize.ShloMosaic.Lib.ValueIdx

noncomputable section

namespace Cert.KernelIdeal.HandValue

open Cert.KernelIdeal Idealize.ShloMosaic Idealize.ShloMosaic.ValueIdx

def rowOf (qt : Fin 2) (r : Fin 1024) : Fin 2048 := ⟨qt.val * 1024 + r.val, by have := qt.isLt; have := r.isLt; omega⟩

theorem col_seg0 (h : Fin 8) (d : Fin 64) (hp : (hcol h d).val < 1536) :
    (⟨(hcol h d).val, hp⟩ : Fin 1536) = AttnSpec.colIdx 0 h d :=
  Fin.ext (by
    show h.val * 64 + d.val = 0 * 512 + h.val * 64 + d.val
    omega)

theorem col_seg1 (h : Fin 8) (d : Fin 64) (hp : 512 + (hcol h d).val < 1536) :
    (⟨512 + (hcol h d).val, hp⟩ : Fin 1536) = AttnSpec.colIdx 1 h d :=
  Fin.ext (by
    show 512 + (h.val * 64 + d.val) = 1 * 512 + h.val * 64 + d.val
    omega)

theorem col_seg2 (h : Fin 8) (d : Fin 64) (hp : 1024 + (hcol h d).val < 1536) :
    (⟨1024 + (hcol h d).val, hp⟩ : Fin 1536) = AttnSpec.colIdx 2 h d :=
  Fin.ext (by
    show 1024 + (h.val * 64 + d.val) = 2 * 512 + h.val * 64 + d.val
    omega)

variable (x : (⟨3, ![4, 2048, 512]⟩ : Shape).Idx → EReal) (w : (⟨2, ![1536, 512]⟩ : Shape).Idx → EReal)
  (b : (⟨1, ![1536]⟩ : Shape).Idx → EReal) (mask : (⟨3, ![4, 2048, 2048]⟩ : Shape).Idx → BitVec 32)

theorem tileScore_eq (q : S1x1024x512.Idx → EReal) (k : S1x512x512.Idx → EReal) (mk : S1x1024x512.Idx → BitVec 32)
    (bi : Fin 4) (qt : Fin 2) (j : Fin 4)
    (hq : ∀ (r : Fin 1024) (col : Fin 512), q (ix3 (0 : Fin 1) r col)
      = AttnSpec.qkv x w b bi (rowOf qt r) ⟨col.val, by have := col.isLt; omega⟩)
    (hk : ∀ (kk col : Fin 512), k (ix3 (0 : Fin 1) kk col)
      = AttnSpec.qkv x w b bi (AttnMid.key j kk) ⟨512 + col.val, by have := col.isLt; omega⟩)
    (hm : ∀ (r : Fin 1024) (kk : Fin 512), mk (ix3 (0 : Fin 1) r kk) = mask (ix3 bi (rowOf qt r) (AttnMid.key j kk)))
    (h : Fin 8) (r : Fin 1024) (kk : Fin 512) :
    tileScore q k mk h r kk = AttnMid.tileS x w b mask bi h (rowOf qt r) j kk := by
  unfold tileScore AttnMid.tileS AttnSpec.masked AttnSpec.score
  have hs : (∑ d : Fin 64, q (ix3 (0 : Fin 1) r (hcol h d)) * k (ix3 (0 : Fin 1) kk (hcol h d)))
      = ∑ d : Fin 64, AttnSpec.qkv x w b bi (rowOf qt r) (AttnSpec.colIdx 0 h d)
          * AttnSpec.qkv x w b bi (AttnMid.key j kk) (AttnSpec.colIdx 1 h d) :=
    Finset.sum_congr rfl fun d _ => by rw [hq, hk, col_seg0, col_seg1]
  rw [hm, hs]

theorem tileVal_eq (v : S1x512x512.Idx → EReal) (bi : Fin 4) (j : Fin 4)
    (hv : ∀ (kk col : Fin 512), v (ix3 (0 : Fin 1) kk col)
      = AttnSpec.qkv x w b bi (AttnMid.key j kk) ⟨1024 + col.val, by have := col.isLt; omega⟩)
    (h : Fin 8) (d : Fin 64) (kk : Fin 512) :
    tileVal v h d kk = AttnMid.tileV x w b bi h d j kk := by
  unfold tileVal AttnMid.tileV
  rw [hv, col_seg2]

end Cert.KernelIdeal.HandValue

end
-- ==== Proof.Blocks1.lean ====
-- Where each window's block of the attention grid (4 batch entries x 2 query tiles x 4 key tiles) sits in its array.
import proofs.«416084_j63617055588838_3_alg».proof.Proof.Gen.KernelIdeal.Launch
import proofs.«416084_j63617055588838_3_alg».proof.Proof.Gen.KernelIdeal.Points
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.ValueIdx

theorem N1 : cfg1.N = 32 := N_1

variable (A5 : S4x2048x1536.Idx → EReal) (t : Fin cfg1.N) (i : S4x2048x512.Idx) (kk : Fin 512) (r : Fin 1024) (col : Fin 512)

def ptB : Fin 4 := ⟨t.val / 8, by have := t.isLt; have h := N1; omega⟩

def ptQ : ℕ := (t.val / 4) % 2

def ptK : ℕ := t.val % 4

theorem ptQ_lt : ptQ t < 2 := Nat.mod_lt _ (by decide)
theorem ptK_lt : ptK t < 4 := Nat.mod_lt _ (by decide)

theorem idx1 : ∀ t : Fin cfg1.N,
    (win1_0.index t (0 : Fin 3) = t.val / 8 ∧ win1_0.index t (1 : Fin 3) = (t.val / 4) % 2 ∧ win1_0.index t (2 : Fin 3) = 0)
    ∧ (win1_1.index t (0 : Fin 3) = t.val / 8 ∧ win1_1.index t (1 : Fin 3) = t.val % 4 ∧ win1_1.index t (2 : Fin 3) = 1)
    ∧ (win1_2.index t (0 : Fin 3) = t.val / 8 ∧ win1_2.index t (1 : Fin 3) = t.val % 4 ∧ win1_2.index t (2 : Fin 3) = 2)
    ∧ (win1_3.index t (0 : Fin 3) = t.val / 8 ∧ win1_3.index t (1 : Fin 3) = (t.val / 4) % 2 ∧ win1_3.index t (2 : Fin 3) = t.val % 4)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 8 ∧ win1_6.index t (1 : Fin 3) = (t.val / 4) % 2 ∧ win1_6.index t (2 : Fin 3) = 0) :=
  (by decide +kernel : ∀ t : Fin grid1.N, _)

theorem blk1_0 :
    ((cfg1.win 0).blk t).view.read (Elt Ideal) A5 (ix3 (0 : Fin 1) r col)
      = A5 (ix3 (ptB t) ⟨ptQ t * 1024 + r.val, by have := ptQ_lt t; have := r.isLt; omega⟩ ⟨col.val, by have := col.isLt; omega⟩) := by
  obtain ⟨⟨e0, e1, e2⟩, -⟩ := idx1 t
  rw [View.read_apply]
  show A5 (((cfg1.win 0).blk t).view.emb (ix3 (0 : Fin 1) r col)) = A5 _
  refine congrArg A5 ?_
  funext a; apply Fin.ext
  match a with
  | ⟨0, _⟩ => show win1_0.index t (0 : Fin 3) * 1 + 1 * (0 : ℕ) = t.val / 8; omega
  | ⟨1, _⟩ => show win1_0.index t (1 : Fin 3) * 1024 + 1 * r.val = (t.val / 4) % 2 * 1024 + r.val; omega
  | ⟨2, _⟩ => show win1_0.index t (2 : Fin 3) * 512 + 1 * col.val = col.val; omega

theorem blk1_1 :
    ((cfg1.win 1).blk t).view.read (Elt Ideal) A5 (ix3 (0 : Fin 1) kk col)
      = A5 (ix3 (ptB t) ⟨ptK t * 512 + kk.val, by have := ptK_lt t; have := kk.isLt; omega⟩ ⟨512 + col.val, by have := col.isLt; omega⟩) := by
  obtain ⟨-, ⟨e0, e1, e2⟩, -⟩ := idx1 t
  rw [View.read_apply]
  show A5 (((cfg1.win 1).blk t).view.emb (ix3 (0 : Fin 1) kk col)) = A5 _
  refine congrArg A5 ?_
  funext a; apply Fin.ext
  match a with
  | ⟨0, _⟩ => show win1_1.index t (0 : Fin 3) * 1 + 1 * (0 : ℕ) = t.val / 8; omega
  | ⟨1, _⟩ => show win1_1.index t (1 : Fin 3) * 512 + 1 * kk.val = t.val % 4 * 512 + kk.val; omega
  | ⟨2, _⟩ => show win1_1.index t (2 : Fin 3) * 512 + 1 * col.val = 512 + col.val; omega

theorem blk1_2 :
    ((cfg1.win 2).blk t).view.read (Elt Ideal) A5 (ix3 (0 : Fin 1) kk col)
      = A5 (ix3 (ptB t) ⟨ptK t * 512 + kk.val, by have := ptK_lt t; have := kk.isLt; omega⟩ ⟨1024 + col.val, by have := col.isLt; omega⟩) := by
  obtain ⟨-, -, ⟨e0, e1, e2⟩, -⟩ := idx1 t
  rw [View.read_apply]
  show A5 (((cfg1.win 2).blk t).view.emb (ix3 (0 : Fin 1) kk col)) = A5 _
  refine congrArg A5 ?_
  funext a; apply Fin.ext
  match a with
  | ⟨0, _⟩ => show win1_2.index t (0 : Fin 3) * 1 + 1 * (0 : ℕ) = t.val / 8; omega
  | ⟨1, _⟩ => show win1_2.index t (1 : Fin 3) * 512 + 1 * kk.val = t.val % 4 * 512 + kk.val; omega
  | ⟨2, _⟩ => show win1_2.index t (2 : Fin 3) * 512 + 1 * col.val = 1024 + col.val; omega

theorem blk1_3 (Am : S4x2048x2048.Idx → BitVec 32) (t : Fin cfg1.N) (r : Fin 1024) (kk : Fin 512) :
    ((cfg1.win 3).blk t).view.read (Elt Ideal) Am (ix3 (0 : Fin 1) r kk)
      = Am (ix3 (ptB t) ⟨ptQ t * 1024 + r.val, by have := ptQ_lt t; have := r.isLt; omega⟩ ⟨ptK t * 512 + kk.val, by have := ptK_lt t; have := kk.isLt; omega⟩) := by
  obtain ⟨-, -, -, ⟨e0, e1, e2⟩, -⟩ := idx1 t
  rw [View.read_apply]
  show Am (((cfg1.win 3).blk t).view.emb (ix3 (0 : Fin 1) r kk)) = Am _
  refine congrArg Am ?_
  funext a; apply Fin.ext
  match a with
  | ⟨0, _⟩ => show win1_3.index t (0 : Fin 3) * 1 + 1 * (0 : ℕ) = t.val / 8; omega
  | ⟨1, _⟩ => show win1_3.index t (1 : Fin 3) * 1024 + 1 * r.val = (t.val / 4) % 2 * 1024 + r.val; omega
  | ⟨2, _⟩ => show win1_3.index t (2 : Fin 3) * 512 + 1 * kk.val = t.val % 4 * 512 + kk.val; omega

theorem blk1_4 (A7 : S512x512.Idx → EReal) (t : Fin cfg1.N) :
    ((cfg1.win 4).blk t).view.read (Elt Ideal) A7 = A7 := by
  obtain ⟨-, -, -, -, ⟨e0, e1⟩, -⟩ := idx1 t
  funext j
  rw [View.read_apply]
  show A7 (((cfg1.win 4).blk t).view.emb j) = A7 j
  refine congrArg A7 ?_
  funext a; apply Fin.ext
  match a with
  | ⟨0, _⟩ => show win1_4.index t (0 : Fin 2) * 512 + 1 * (j 0).val = (j 0).val; omega
  | ⟨1, _⟩ => show win1_4.index t (1 : Fin 2) * 512 + 1 * (j 1).val = (j 1).val; omega

theorem blk1_5 (A8 : S1x512.Idx → EReal) (t : Fin cfg1.N) :
    ((cfg1.win 5).blk t).view.read (Elt Ideal) A8 = A8 := by
  obtain ⟨-, -, -, -, -, ⟨e0, e1⟩, -⟩ := idx1 t
  funext j
  rw [View.read_apply]
  show A8 (((cfg1.win 5).blk t).view.emb j) = A8 j
  refine congrArg A8 ?_
  funext a; apply Fin.ext
  match a with
  | ⟨0, _⟩ => show win1_5.index t (0 : Fin 2) * 1 + 1 * (j 0).val = (j 0).val; omega
  | ⟨1, _⟩ => show win1_5.index t (1 : Fin 2) * 512 + 1 * (j 1).val = (j 1).val; omega

theorem blk1_6 (G : S4x2048x512.Idx → EReal) (t : Fin cfg1.N) (r : Fin 1024) (o : Fin 512) :
    ((cfg1.win 6).blk t).view.read (Elt Ideal) G (ix3 (0 : Fin 1) r o)
      = G (ix3 (ptB t) ⟨ptQ t * 1024 + r.val, by have := ptQ_lt t; have := r.isLt; omega⟩ o) := by
  obtain ⟨-, -, -, -, -, -, e0, e1, e2⟩ := idx1 t
  rw [View.read_apply]
  show G (((cfg1.win 6).blk t).view.emb (ix3 (0 : Fin 1) r o)) = G _
  refine congrArg G ?_
  funext a; apply Fin.ext
  match a with
  | ⟨0, _⟩ => show win1_6.index t (0 : Fin 3) * 1 + 1 * (0 : ℕ) = t.val / 8; omega
  | ⟨1, _⟩ => show win1_6.index t (1 : Fin 3) * 1024 + 1 * r.val = (t.val / 4) % 2 * 1024 + r.val; omega
  | ⟨2, _⟩ => show win1_6.index t (2 : Fin 3) * 512 + 1 * o.val = o.val; omega

theorem mem_blk1_6 :
    i ∈ ((cfg1.win 6).blk t).view.set ↔ ∀ a : Fin 3, win1_6.index t a * S1x1024x512.size a ≤ (i a).val ∧ (i a).val < win1_6.index t a * S1x1024x512.size a + S1x1024x512.size a := by
  show i ∈ ((View.whole main_v9).slice (win1_6.rect t)).set ↔ _
  rw [View.set_slice_whole, Rect.mem_set_unit]
  exact Iff.rfl

theorem cover1_6 :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 512 := (i 2).isLt
  obtain ⟨t, ht⟩ : ∃ t : Fin cfg1.N, t.val = (i 0).val * 8 + (i 1).val / 1024 * 4 + 3 :=
    ⟨⟨(i 0).val * 8 + (i 1).val / 1024 * 4 + 3, by rw [N1]; omega⟩, rfl⟩
  obtain ⟨-, -, -, -, -, -, e0, e1, e2⟩ := idx1 t
  refine ⟨t, (flush1_6 t).2 (by omega), ?_⟩
  rw [mem_blk1_6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 512 ≤ (i 2).val ∧ (i 2).val < win1_6.index t (2 : Fin 3) * 512 + 512; omega

end Cert.KernelIdeal.HandValue

end
-- ==== Proof.BlockBridge.lean ====
-- The staged blocks at a grid point are the specification's query, key, value and mask tiles of that point.
import proofs.«416084_j63617055588838_3_alg».proof.Proof.Blocks1
import proofs.«416084_j63617055588838_3_alg».proof.Proof.TileBridge
import proofs.«416084_j63617055588838_3_alg».proof.Proof.AttnMid
import proofs.«416084_j63617055588838_3_alg».proof.Proof.TileSpec
import proofs.«416084_j63617055588838_3_alg».proof.Proof.Spec

noncomputable section

namespace Cert.KernelIdeal.HandValue

open Cert.KernelIdeal Cert.KernelIdeal.Gen Idealize.ShloMosaic Idealize.ShloMosaic.ValueIdx

def qtOf (t : Fin cfg1.N) : Fin 2 := ⟨ptQ t, ptQ_lt t⟩

def jOf (t : Fin cfg1.N) : Fin 4 := ⟨ptK t, ptK_lt t⟩

section
variable (x : (⟨3, ![4, 2048, 512]⟩ : Shape).Idx → EReal) (w : (⟨2, ![1536, 512]⟩ : Shape).Idx → EReal)
  (b : (⟨1, ![1536]⟩ : Shape).Idx → EReal) (mask : (⟨3, ![4, 2048, 2048]⟩ : Shape).Idx → BitVec 32)

theorem blockScore_eq (A5 : S4x2048x1536.Idx → EReal)
    (hA5 : ∀ (bi : Fin 4) (n : Fin 2048) (o : Fin 1536), A5 (ix3 bi n o) = AttnSpec.qkv x w b bi n o)
    (Am : S4x2048x2048.Idx → BitVec 32) (hAm : Am = mask) (t : Fin cfg1.N) (h : Fin 8) (r : Fin 1024) (kk : Fin 512) :
    tileScore (((cfg1.win 0).blk t).view.read (Elt Ideal) A5) (((cfg1.win 1).blk t).view.read (Elt Ideal) A5)
        (((cfg1.win 3).blk t).view.read (Elt Ideal) Am) h r kk
      = AttnMid.tileS x w b mask (ptB t) h (rowOf (qtOf t) r) (jOf t) kk := by
  subst hAm
  refine tileScore_eq x w b Am _ _ _ (ptB t) (qtOf t) (jOf t) ?_ ?_ ?_ h r kk
  · intro r col
    rw [blk1_0, hA5]; rfl
  · intro kk col
    rw [blk1_1, hA5]; rfl
  · intro r kk
    rw [blk1_3]; rfl

theorem blockVal_eq (A5 : S4x2048x1536.Idx → EReal)
    (hA5 : ∀ (bi : Fin 4) (n : Fin 2048) (o : Fin 1536), A5 (ix3 bi n o) = AttnSpec.qkv x w b bi n o)
    (t : Fin cfg1.N) (h : Fin 8) (d : Fin 64) (kk : Fin 512) :
    tileVal (((cfg1.win 2).blk t).view.read (Elt Ideal) A5) h d kk
      = AttnMid.tileV x w b (ptB t) h d (jOf t) kk := by
  refine tileVal_eq x w b _ (ptB t) (jOf t) ?_ h d kk
  intro kk col
  rw [blk1_2, hA5]; rfl

end

def groupPt (t : Fin cfg1.N) (j : Fin 4) : Fin cfg1.N :=
  ⟨t.val - 3 + j.val, by have := t.isLt; have := j.isLt; have h := N1; omega⟩

theorem group_pt (t : Fin cfg1.N) (ht : t.val % 4 = 3) (j : Fin 4) :
    ptB (groupPt t j) = ptB t ∧ qtOf (groupPt t j) = qtOf t ∧ jOf (groupPt t j) = j := by
  have hj := j.isLt
  refine ⟨Fin.ext ?_, Fin.ext ?_, Fin.ext ?_⟩
  · show (t.val - 3 + j.val) / 8 = t.val / 8
    omega
  · show ((t.val - 3 + j.val) / 4) % 2 = (t.val / 4) % 2
    omega
  · show (t.val - 3 + j.val) % 4 = j.val
    omega

theorem groupPt_last (t : Fin cfg1.N) (ht : t.val % 4 = 3) : groupPt t (3 : Fin 4) = t :=
  Fin.ext (by show t.val - 3 + 3 = t.val; omega)

end Cert.KernelIdeal.HandValue

end
-- ==== Proof.Cover6.lean ====
-- The second region's output array, assembled from the block each last key tile writes.
import proofs.«416084_j63617055588838_3_alg».proof.Proof.Blocks1
import proofs.«416084_j63617055588838_3_alg».proof.Proof.Gen.KernelIdeal.Launch
import proofs.«416084_j63617055588838_3_alg».proof.Proof.Gen.KernelIdeal.Points
import Idealize.ShloMosaic.Lib.Pipeline.Value
import Idealize.ShloMosaic.Lib.ValueIdx

noncomputable section

namespace Cert.KernelIdeal.HandValue

open Cert.KernelIdeal Cert.KernelIdeal.Gen Idealize.ShloMosaic Idealize.ShloMosaic.TcCoe Idealize.ShloMosaic.ValueIdx

theorem arrAt6_of_tiles (c : Dev nD) (dat : Pipeline.Dat τ (Elt Ideal) Unit ℕ (UR sig nD τ) ℕ cfg1 c)
    (G : S4x2048x512.Idx → EReal)
    (htile : ∀ t : Fin cfg1.N, (cfg1.win 6).flush t = true → ∀ (r : Fin 1024) (o : Fin 512),
      (dat.after 6 t : S1x1024x512.Idx → EReal) (ix3 (0 : Fin 1) r o)
        = G (ix3 (ptB t) ⟨ptQ t * 1024 + r.val, by have := ptQ_lt t; have := r.isLt; omega⟩ o)) :
    dat.arrAt 6 cfg1.N = G := by
  refine dat.arrAt_eq_of_cover 6 G (fun t hf => ?_) cover1_6
  show (dat.after 6 t : S1x1024x512.Idx → EReal) = ((cfg1.win 6).blk t).view.read (Elt Ideal) G
  funext y
  obtain ⟨u, r, o, rfl⟩ : ∃ (u : Fin 1) (r : Fin 1024) (o : Fin 512), y = ix3 u r o := ⟨y 0, y 1, y 2, eq_ix3 y⟩
  obtain rfl : u = 0 := Subsingleton.elim _ _
  rw [htile t hf r o, blk1_6 G t r o]

end Cert.KernelIdeal.HandValue

end
-- ==== Proof.KernelValueCore.lean ====
-- From one step per grid point to the whole output array: each group of four key tiles yields the specification's rows.
import proofs.«416084_j63617055588838_3_alg».proof.Proof.Spec
import proofs.«416084_j63617055588838_3_alg».proof.Proof.LibOnlineSoftmax
import proofs.«416084_j63617055588838_3_alg».proof.Proof.AttnMid
import proofs.«416084_j63617055588838_3_alg».proof.Proof.StreamGlue
import proofs.«416084_j63617055588838_3_alg».proof.Proof.TileSpec
import proofs.«416084_j63617055588838_3_alg».proof.Proof.TileBridge
import proofs.«416084_j63617055588838_3_alg».proof.Proof.Blocks1
import proofs.«416084_j63617055588838_3_alg».proof.Proof.BlockBridge
import proofs.«416084_j63617055588838_3_alg».proof.Proof.Cover6

noncomputable section

namespace Cert.KernelIdeal.HandValue

open Cert.KernelIdeal Cert.KernelIdeal.Gen Idealize.ShloMosaic Idealize.ShloMosaic.TcCoe Idealize.ShloMosaic.ValueIdx

abbrev Scr : Type := (S1024x8.Idx → EReal) × (S1024x8.Idx → EReal) × (S1024x512.Idx → EReal)

def resetScr : Scr := (fun _ => ⊥, fun _ => 0, fun _ => 0)

def StepAt (Sc : Fin 8 → Fin 1024 → Fin 512 → EReal) (Vl : Fin 8 → Fin 64 → Fin 512 → EReal) (prev cur : Scr) : Prop :=
  ∀ (r : Fin 1024) (h : Fin 8),
    cur.1 (ix2 r h) = max (prev.1 (ix2 r h)) (OnlineSoftmax.rowMax fun kk => Sc h r kk)
    ∧ cur.2.1 (ix2 r h) = Ideal.exp (prev.1 (ix2 r h) - cur.1 (ix2 r h)) * prev.2.1 (ix2 r h)
        + ∑ kk : Fin 512, Ideal.exp (Sc h r kk - cur.1 (ix2 r h))
    ∧ ∀ d : Fin 64, cur.2.2 (ix2 r (hcol h d))
        = Ideal.exp (prev.1 (ix2 r h) - cur.1 (ix2 r h)) * prev.2.2 (ix2 r (hcol h d))
          + ∑ kk : Fin 512, Ideal.exp (Sc h r kk - cur.1 (ix2 r h)) * Vl h d kk

def OutForm (s : Scr) (x4 : S512x512.Idx → EReal) (x5 : S1x512.Idx → EReal) (r : Fin 1024) (o : Fin 512) : EReal :=
  (∑ c : Fin 512, (s.2.2 (ix2 r c) * Ideal.div (Ideal.ofBits .f32 0x3F800000#32) (s.2.1 (ix2 r (AttnSpec.headOf c))))
      * x4 (ix2 c o)) + x5 (ix2 (0 : Fin 1) o)

def prevScr (sc : ℕ → Scr) (n : ℕ) : Scr := if n % 4 = 0 then resetScr else sc (n - 1)

theorem prevScr_first (sc : ℕ → Scr) (n : ℕ) (h : n % 4 = 0) : prevScr sc n = resetScr := if_pos h

theorem prevScr_next (sc : ℕ → Scr) (n : ℕ) (h : (n + 1) % 4 ≠ 0) : prevScr sc (n + 1) = sc n := if_neg h

theorem headOf_hcol (h : Fin 8) (d : Fin 64) : AttnSpec.headOf (hcol h d) = h := by
  apply Fin.ext
  show (h.val * 64 + d.val) / 64 = h.val
  have := d.isLt
  omega

section
variable (x : (⟨3, ![4, 2048, 512]⟩ : Shape).Idx → EReal) (w : (⟨2, ![1536, 512]⟩ : Shape).Idx → EReal)
  (b : (⟨1, ![1536]⟩ : Shape).Idx → EReal) (pw : (⟨2, ![512, 512]⟩ : Shape).Idx → EReal)
  (pb : (⟨1, ![512]⟩ : Shape).Idx → EReal) (mask : (⟨3, ![4, 2048, 2048]⟩ : Shape).Idx → BitVec 32)

theorem group_state (sc : ℕ → Scr)
    (Sc : Fin cfg1.N → Fin 8 → Fin 1024 → Fin 512 → EReal) (Vl : Fin cfg1.N → Fin 8 → Fin 64 → Fin 512 → EReal)
    (hSc : ∀ t h r kk, Sc t h r kk = AttnMid.tileS x w b mask (ptB t) h (rowOf (qtOf t) r) (jOf t) kk)
    (hVl : ∀ t h d kk, Vl t h d kk = AttnMid.tileV x w b (ptB t) h d (jOf t) kk)
    (hstep0 : ∀ t : Fin cfg1.N, t.val % 4 = 0 → StepAt (Sc t) (Vl t) resetScr (sc t.val))
    (hstep : ∀ t : Fin cfg1.N, t.val % 4 ≠ 0 → StepAt (Sc t) (Vl t) (sc (t.val - 1)) (sc t.val))
    (t : Fin cfg1.N) (ht : t.val % 4 = 3) (r : Fin 1024) (h : Fin 8) (d : Fin 64) :
    ((sc t.val).1 (ix2 r h), (sc t.val).2.1 (ix2 r h), (sc t.val).2.2 (ix2 r (hcol h d)))
      = OnlineSoftmax.run (AttnMid.tileS x w b mask (ptB t) h (rowOf (qtOf t) r)) (AttnMid.tileV x w b (ptB t) h d) 4 := by

  have hall : ∀ u : Fin cfg1.N, StepAt (Sc u) (Vl u) (prevScr sc u.val) (sc u.val) := by
    intro u
    by_cases hu : u.val % 4 = 0
    · rw [prevScr_first sc _ hu]; exact hstep0 u hu
    · have e : prevScr sc u.val = sc (u.val - 1) := if_neg hu
      rw [e]; exact hstep u hu

  have hScg : ∀ j : Fin 4, Sc (groupPt t j)
      = fun h' r' kk => AttnMid.tileS x w b mask (ptB t) h' (rowOf (qtOf t) r') j kk := by
    intro j
    obtain ⟨e1, e2, e3⟩ := group_pt t ht j
    funext h' r' kk
    rw [hSc, e1, e2, e3]
  have hVlg : ∀ j : Fin 4, Vl (groupPt t j) = fun h' d' kk => AttnMid.tileV x w b (ptB t) h' d' j kk := by
    intro j
    obtain ⟨e1, e2, e3⟩ := group_pt t ht j
    funext h' d' kk
    rw [hVl, e1, e3]
  have hSt : ∀ j : Fin 4, StepAt (fun h' r' kk => AttnMid.tileS x w b mask (ptB t) h' (rowOf (qtOf t) r') j kk)
      (fun h' d' kk => AttnMid.tileV x w b (ptB t) h' d' j kk)
      (prevScr sc (groupPt t j).val) (sc (groupPt t j).val) := by
    intro j
    have := hall (groupPt t j)
    rw [hScg j, hVlg j] at this
    exact this
  have h0 : prevScr sc (groupPt t 0).val = resetScr :=
    prevScr_first sc _ (by show (t.val - 3 + 0) % 4 = 0; omega)
  have hnext : ∀ (j : Fin 4) (hj : j.val + 1 < 4),
      prevScr sc (groupPt t ⟨j.val + 1, hj⟩).val = sc (groupPt t j).val := by
    intro j hj
    have e : (groupPt t ⟨j.val + 1, hj⟩).val = (groupPt t j).val + 1 := by
      show t.val - 3 + (j.val + 1) = t.val - 3 + j.val + 1
      omega
    rw [e]
    exact prevScr_next sc _ (by show (t.val - 3 + j.val + 1) % 4 ≠ 0; omega)
  have hrun := StreamGlue.scratch_run
    (fun j r' h' kk => AttnMid.tileS x w b mask (ptB t) h' (rowOf (qtOf t) r') j kk)
    (fun j h' d' kk => AttnMid.tileV x w b (ptB t) h' d' j kk)
    (fun j => (sc (groupPt t j).val).1) (fun j => (sc (groupPt t j).val).2.1)
    (fun j => (prevScr sc (groupPt t j).val).1) (fun j => (prevScr sc (groupPt t j).val).2.1)
    (fun j => (sc (groupPt t j).val).2.2) (fun j => (prevScr sc (groupPt t j).val).2.2)
    (fun i => by show (prevScr sc (groupPt t 0).val).1 i = ⊥ ∧ (prevScr sc (groupPt t 0).val).2.1 i = 0
                 rw [h0]; exact ⟨rfl, rfl⟩)
    (fun i => by show (prevScr sc (groupPt t 0).val).2.2 i = 0
                 rw [h0]; rfl)
    (fun j hj => by
      show (prevScr sc (groupPt t ⟨j.val + 1, hj⟩).val).1 = (sc (groupPt t j).val).1
        ∧ (prevScr sc (groupPt t ⟨j.val + 1, hj⟩).val).2.1 = (sc (groupPt t j).val).2.1
        ∧ (prevScr sc (groupPt t ⟨j.val + 1, hj⟩).val).2.2 = (sc (groupPt t j).val).2.2
      rw [hnext j hj]; exact ⟨rfl, rfl, rfl⟩)
    (fun j r' h' => (hSt j r' h').1) (fun j r' h' => (hSt j r' h').2.1) (fun j r' h' d' => (hSt j r' h').2.2 d')
    (3 : Fin 4) r h d
  have hlast : groupPt t (3 : Fin 4) = t := groupPt_last t ht
  simp only [hlast] at hrun
  exact hrun

theorem out_rows (hx : ∀ i, ∃ r : ℝ, x i = (r : EReal)) (hw : ∀ i, ∃ r : ℝ, w i = (r : EReal))
    (hb : ∀ i, ∃ r : ℝ, b i = (r : EReal))
    (hrows : ∀ (bi : Fin 4) (n : Fin 2048), ∃ mi : Fin 2048, mask (ix3 bi n mi) ≠ 0#32)
    (sc : ℕ → Scr)
    (Sc : Fin cfg1.N → Fin 8 → Fin 1024 → Fin 512 → EReal) (Vl : Fin cfg1.N → Fin 8 → Fin 64 → Fin 512 → EReal)
    (hSc : ∀ t h r kk, Sc t h r kk = AttnMid.tileS x w b mask (ptB t) h (rowOf (qtOf t) r) (jOf t) kk)
    (hVl : ∀ t h d kk, Vl t h d kk = AttnMid.tileV x w b (ptB t) h d (jOf t) kk)
    (hstep0 : ∀ t : Fin cfg1.N, t.val % 4 = 0 → StepAt (Sc t) (Vl t) resetScr (sc t.val))
    (hstep : ∀ t : Fin cfg1.N, t.val % 4 ≠ 0 → StepAt (Sc t) (Vl t) (sc (t.val - 1)) (sc t.val))
    (A7 : S512x512.Idx → EReal) (hA7 : ∀ k o, A7 (ix2 k o) = pw (ix2 o k))
    (A8 : S1x512.Idx → EReal) (hA8 : ∀ o, A8 (ix2 (0 : Fin 1) o) = pb (ix1 o))
    (t : Fin cfg1.N) (ht : t.val % 4 = 3) (r : Fin 1024) (o : Fin 512) :
    OutForm (sc t.val) A7 A8 r o = AttnSpec.out x w b pw pb mask (ptB t) (rowOf (qtOf t) r) o := by
  have hg := fun r' h' d' => group_state x w b mask sc Sc Vl hSc hVl hstep0 hstep t ht r' h' d'
  exact StreamGlue.out_tile x w b pw pb mask hx hw hb hrows (ptB t) (qtOf t)
    (sc t.val).2.1 (sc t.val).2.2
    (fun r' h' d' => congrArg (fun s : EReal × EReal × EReal => s.2.1) (hg r' h' d'))
    (fun r' h' d' => congrArg (fun s : EReal × EReal × EReal => s.2.2) (hg r' h' d'))
    (fun i => (sc t.val).2.2 i * Ideal.div (Ideal.ofBits .f32 0x3F800000#32) ((sc t.val).2.1 (ix2 (i 0) (AttnSpec.headOf (i 1)))))
    (fun r' h' d' => by
      show (sc t.val).2.2 (ix2 r' (hcol h' d')) * Ideal.div (Ideal.ofBits .f32 0x3F800000#32) ((sc t.val).2.1 (ix2 r' (AttnSpec.headOf (hcol h' d'))))
        = (sc t.val).2.2 (ix2 r' (hcol h' d')) * Ideal.div (Ideal.ofBits .f32 0x3F800000#32) ((sc t.val).2.1 (ix2 r' h'))
      rw [headOf_hcol])
    A7 hA7 A8 hA8 r o

theorem arrAt6_eq_result (hx : ∀ i, ∃ r : ℝ, x i = (r : EReal)) (hw : ∀ i, ∃ r : ℝ, w i = (r : EReal))
    (hb : ∀ i, ∃ r : ℝ, b i = (r : EReal))
    (hrows : ∀ (bi : Fin 4) (n : Fin 2048), ∃ mi : Fin 2048, mask (ix3 bi n mi) ≠ 0#32)
    (c : Dev nD) (dat : Pipeline.Dat τ (Elt Ideal) Unit ℕ (UR sig nD τ) ℕ cfg1 c)
    (sc : ℕ → Scr)
    (Sc : Fin cfg1.N → Fin 8 → Fin 1024 → Fin 512 → EReal) (Vl : Fin cfg1.N → Fin 8 → Fin 64 → Fin 512 → EReal)
    (hSc : ∀ t h r kk, Sc t h r kk = AttnMid.tileS x w b mask (ptB t) h (rowOf (qtOf t) r) (jOf t) kk)
    (hVl : ∀ t h d kk, Vl t h d kk = AttnMid.tileV x w b (ptB t) h d (jOf t) kk)
    (hstep0 : ∀ t : Fin cfg1.N, t.val % 4 = 0 → StepAt (Sc t) (Vl t) resetScr (sc t.val))
    (hstep : ∀ t : Fin cfg1.N, t.val % 4 ≠ 0 → StepAt (Sc t) (Vl t) (sc (t.val - 1)) (sc t.val))
    (A7 : S512x512.Idx → EReal) (hA7 : ∀ k o, A7 (ix2 k o) = pw (ix2 o k))
    (A8 : S1x512.Idx → EReal) (hA8 : ∀ o, A8 (ix2 (0 : Fin 1) o) = pb (ix1 o))
    (hout : ∀ t : Fin cfg1.N, t.val % 4 = 3 → ∀ (r : Fin 1024) (o : Fin 512),
      (dat.after 6 t : S1x1024x512.Idx → EReal) (ix3 (0 : Fin 1) r o) = OutForm (sc t.val) A7 A8 r o) :
    dat.arrAt 6 cfg1.N = AttnSpec.result x w b pw pb mask := by
  refine arrAt6_of_tiles c dat (AttnSpec.result x w b pw pb mask) fun t hf r o => ?_
  have ht : t.val % 4 = 3 := (flush1_6 t).1 hf
  rw [hout t ht r o,
    out_rows x w b pw pb mask hx hw hb hrows sc Sc Vl hSc hVl hstep0 hstep A7 hA7 A8 hA8 t ht r o]
  rfl

end

end Cert.KernelIdeal.HandValue

end
-- ==== Proof.HeadTerms.lean ====
-- Per head: the new maximum, the new denominator and the new weighted sum, named as compositions of the body's value functions.
import proofs.«416084_j63617055588838_3_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F] [Named F]

abbrev colR0 : Rect S1024x8 := Rect.unit (s := S1024x8) ![0, 0] S1024x1.size inb_S1024x8_S1024x1_0_0
abbrev colR1 : Rect S1024x8 := Rect.unit (s := S1024x8) ![0, 1] S1024x1.size inb_S1024x8_S1024x1_0_1
abbrev colR2 : Rect S1024x8 := Rect.unit (s := S1024x8) ![0, 2] S1024x1.size inb_S1024x8_S1024x1_0_2
abbrev colR3 : Rect S1024x8 := Rect.unit (s := S1024x8) ![0, 3] S1024x1.size inb_S1024x8_S1024x1_0_3
abbrev colR4 : Rect S1024x8 := Rect.unit (s := S1024x8) ![0, 4] S1024x1.size inb_S1024x8_S1024x1_0_4
abbrev colR5 : Rect S1024x8 := Rect.unit (s := S1024x8) ![0, 5] S1024x1.size inb_S1024x8_S1024x1_0_5
abbrev colR6 : Rect S1024x8 := Rect.unit (s := S1024x8) ![0, 6] S1024x1.size inb_S1024x8_S1024x1_0_6
abbrev colR7 : Rect S1024x8 := Rect.unit (s := S1024x8) ![0, 7] S1024x1.size inb_S1024x8_S1024x1_0_7
abbrev slcR0 : Rect S1024x512 := Rect.unit (s := S1024x512) ![0, 0] S1024x64.size inb_S1024x512_S1024x64_0_0
abbrev slcR1 : Rect S1024x512 := Rect.unit (s := S1024x512) ![0, 64] S1024x64.size inb_S1024x512_S1024x64_0_64
abbrev slcR2 : Rect S1024x512 := Rect.unit (s := S1024x512) ![0, 128] S1024x64.size inb_S1024x512_S1024x64_0_128
abbrev slcR3 : Rect S1024x512 := Rect.unit (s := S1024x512) ![0, 192] S1024x64.size inb_S1024x512_S1024x64_0_192
abbrev slcR4 : Rect S1024x512 := Rect.unit (s := S1024x512) ![0, 256] S1024x64.size inb_S1024x512_S1024x64_0_256
abbrev slcR5 : Rect S1024x512 := Rect.unit (s := S1024x512) ![0, 320] S1024x64.size inb_S1024x512_S1024x64_0_320
abbrev slcR6 : Rect S1024x512 := Rect.unit (s := S1024x512) ![0, 384] S1024x64.size inb_S1024x512_S1024x64_0_384
abbrev slcR7 : Rect S1024x512 := Rect.unit (s := S1024x512) ![0, 448] S1024x64.size inb_S1024x512_S1024x64_0_448

variable (x0 : Vec F S1x1024x512 .bf16) (x1 : Vec F S1x512x512 .bf16) (x2 : Vec F S1x512x512 .bf16) (x3 : Vec F S1x1024x512 .i32) (m : Vec F S1024x1 .f32) (a : Vec F S1024x64 .f32) (l : Vec F S1024x1 .f32)

noncomputable def hdM_0 : FVec F S1024x1 .f32 :=
  k1_pay28 (k1_pay23 x0 x1 x3 m)

noncomputable def hdL_0 : FVec F S1024x1 .f32 :=
  k1_pay29 (k1_pay25 x0 x1 x3 m) (k1_pay26 x0 x1 x3 m l)

noncomputable def hdA_0 : FVec F S1024x64 .f32 :=
  k1_pay27 (k1_pay21 x2) (k1_pay24 x0 x1 x3 m) (k1_pay25 x0 x1 x3 m) a

noncomputable def hdM_1 : FVec F S1024x1 .f32 :=
  k1_pay38 (k1_pay32 (k1_pay17 x0) (k1_pay18 x1) (k1_pay20 x3) m)

noncomputable def hdL_1 : FVec F S1024x1 .f32 :=
  k1_pay39 (k1_pay35 (k1_pay17 x0) (k1_pay18 x1) (k1_pay20 x3) m l) (k1_pay36 (k1_pay17 x0) (k1_pay18 x1) (k1_pay20 x3) m)

noncomputable def hdA_1 : FVec F S1024x64 .f32 :=
  k1_pay37 (k1_pay30 (k1_pay19 x2)) (k1_pay33 (k1_pay17 x0) (k1_pay18 x1) (k1_pay20 x3) m) (k1_pay34 (k1_pay17 x0) (k1_pay18 x1) (k1_pay20 x3) m) a

noncomputable def hdM_2 : FVec F S1024x1 .f32 :=
  k1_pay48 (k1_pay42 (k1_pay17 x0) (k1_pay18 x1) (k1_pay20 x3) m)

noncomputable def hdL_2 : FVec F S1024x1 .f32 :=
  k1_pay49 (k1_pay45 (k1_pay17 x0) (k1_pay18 x1) (k1_pay20 x3) m l)

noncomputable def hdA_2 : FVec F S1024x64 .f32 :=
  k1_pay47 (k1_pay40 (k1_pay19 x2)) (k1_pay43 (k1_pay17 x0) (k1_pay18 x1) (k1_pay20 x3) m) (k1_pay46 (k1_pay17 x0) (k1_pay18 x1) (k1_pay20 x3) m) a

noncomputable def hdM_3 : FVec F S1024x1 .f32 :=
  k1_pay57 (k1_pay51 (k1_pay17 x0) (k1_pay18 x1) (k1_pay20 x3) m)

noncomputable def hdL_3 : FVec F S1024x1 .f32 :=
  k1_pay58 (k1_pay54 (k1_pay17 x0) (k1_pay18 x1) (k1_pay20 x3) m l)

noncomputable def hdA_3 : FVec F S1024x64 .f32 :=
  k1_pay56 (k1_pay52 (k1_pay17 x0) (k1_pay18 x1) (k1_pay20 x3) m) (k1_pay55 (k1_pay17 x0) (k1_pay18 x1) (k1_pay19 x2) (k1_pay20 x3) m) a

noncomputable def hdM_4 : FVec F S1024x1 .f32 :=
  k1_pay66 (k1_pay60 (k1_pay17 x0) (k1_pay18 x1) (k1_pay20 x3) m)

noncomputable def hdL_4 : FVec F S1024x1 .f32 :=
  k1_pay67 (k1_pay63 (k1_pay17 x0) (k1_pay18 x1) (k1_pay20 x3) m l)

noncomputable def hdA_4 : FVec F S1024x64 .f32 :=
  k1_pay65 (k1_pay61 (k1_pay17 x0) (k1_pay18 x1) (k1_pay20 x3) m) (k1_pay64 (k1_pay17 x0) (k1_pay18 x1) (k1_pay19 x2) (k1_pay20 x3) m) a

noncomputable def hdM_5 : FVec F S1024x1 .f32 :=
  k1_pay76 (k1_pay69 (k1_pay17 x0) (k1_pay18 x1) (k1_pay20 x3) m)

noncomputable def hdL_5 : FVec F S1024x1 .f32 :=
  k1_pay77 (k1_pay72 (k1_pay17 x0) (k1_pay18 x1) (k1_pay20 x3) m l)

noncomputable def hdA_5 : FVec F S1024x64 .f32 :=
  k1_pay75 (k1_pay73 (k1_pay17 x0) (k1_pay18 x1) (k1_pay19 x2) (k1_pay20 x3) m) a (k1_pay74 (k1_pay17 x0) (k1_pay18 x1) (k1_pay20 x3) m)

noncomputable def hdM_6 : FVec F S1024x1 .f32 :=
  k1_pay85 (k1_pay79 (k1_pay17 x0) (k1_pay18 x1) (k1_pay20 x3) m)

noncomputable def hdL_6 : FVec F S1024x1 .f32 :=
  k1_pay86 (k1_pay82 (k1_pay17 x0) (k1_pay18 x1) (k1_pay20 x3) m l)

noncomputable def hdA_6 : FVec F S1024x64 .f32 :=
  k1_pay84 (k1_pay83 (k1_pay17 x0) (k1_pay18 x1) (k1_pay19 x2) (k1_pay20 x3) m a)

noncomputable def hdM_7 : FVec F S1024x1 .f32 :=
  k1_pay2 (k1_pay88 (k1_pay17 x0) (k1_pay18 x1) (k1_pay20 x3) m)

noncomputable def hdL_7 : FVec F S1024x1 .f32 :=
  k1_pay3 (k1_pay91 (k1_pay17 x0) (k1_pay18 x1) (k1_pay20 x3) m l)

noncomputable def hdA_7 : FVec F S1024x64 .f32 :=
  k1_pay1 (k1_pay92 (k1_pay17 x0) (k1_pay18 x1) (k1_pay19 x2) (k1_pay20 x3) m a)

noncomputable def outBlk (s1 : Vec F S1024x8 .f32) (s2 : Vec F S1024x512 .f32) (x4 : Vec F S512x512 .bf16) (x5 : Vec F S1x512 .f32) : FVec F S1x1024x512 .f32 :=
  k1_pay4 (k1_pay6 s1 (View.ld s2 slcR0)) (k1_pay7 s1 (View.ld s2 slcR1)) (k1_pay8 s1 (View.ld s2 slcR2)) (k1_pay9 s1 (View.ld s2 slcR3))
    (k1_pay10 s1 (View.ld s2 slcR4)) (k1_pay11 s1 (View.ld s2 slcR5)) (k1_pay12 s1 (View.ld s2 slcR6)) (View.ld s2 slcR7) (k1_pay13 s1) x4 x5

end Cert.KernelIdeal.Hand

end
-- ==== Proof.PayA.lean ====
-- Index lemmas shared by all heads (slices, the two matrix products, row maximum and row sum), then the body's values for heads 0 and 1 read at an index.
import proofs.«416084_j63617055588838_3_alg».proof.Proof.Gen.KernelIdeal.Skeleton
import proofs.«416084_j63617055588838_3_alg».proof.Proof.TileSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.HandValue

open Cert.KernelIdeal Cert.KernelIdeal.Gen Idealize.ShloMosaic Idealize.ShloMosaic.ValueIdx
open scoped BigOperators

def tileScore2 (q : S1024x512.Idx → EReal) (k : S512x512.Idx → EReal) (m : S1024x512.Idx → BitVec 1)
    (h : Fin 8) (r : Fin 1024) (kk : Fin 512) : EReal :=
  if m (ix2 r kk) = 1#1 then ⊥
  else (∑ d : Fin 64, q (ix2 r (hcol h d)) * k (ix2 kk (hcol h d))) * Ideal.ofBits .f32 0x3E000000#32

namespace PayA

theorem select_cmpi_eq_zero {α : Type} (a : BitVec 32) (A B : α) :
    Scalar.select (IntOp.cmpi .eq a 0#32) A B = if a = 0#32 then A else B := by
  unfold Scalar.select IntOp.cmpi
  by_cases h : a = 0#32
  · rw [if_pos h, if_pos (by subst h; rfl)]
  · have hb : (a == 0#32) = false := by simpa using h
    rw [if_neg h]
    show (if BitVec.ofBool (a == 0#32) = 1#1 then A else B) = B
    rw [hb]
    exact if_neg (by decide)

theorem neg_big : Named.named (F := Ideal) κ "neg_big" (φ := .f32) 0xFF333333#32 = (⊥ : EReal) :=
  IdealRules.named_const.ideal_named_scalar _ _ _ _ rfl

theorem ofBits_neg_inf : Ideal.ofBits .f32 0xFF800000#32 = (⊥ : EReal) := by
  simp [Ideal.ofBits, Ideal.ieee]

theorem slice_cols_apply {α : Type} {n : Nat} (h : Fin 8) (X : (⟨2, ![n, 512]⟩ : Shape).Idx → α)
    (hs : (⟨2, ![n, 512]⟩ : Shape).Slices ![0, h.val * 64] ⟨2, ![n, 64]⟩) (a : Fin n) (d : Fin 64) :
    extractStridedSlice ⟨2, ![n, 64]⟩ ![0, h.val * 64] X hs (ix2 a d) = X (ix2 a (hcol h d)) :=
  slice2_axis1_apply (h.val * 64) X hs a d (hcol h d) rfl

theorem lhs_scores_0 (i : S1024x512.Idx) (q : dot_S1024x64_S512x64_S1024x512_1_1_0_0_n_n.contr.Idx) :
    (dot_S1024x64_S512x64_S1024x512_1_1_0_0_n_n.lhsIdx i q 0).val = (i 0).val := by
  unfold DotDims.lhsIdx
  rw [dif_neg (show ¬(0 : Fin S1024x64.rank) ∈ dot_S1024x64_S512x64_S1024x512_1_1_0_0_n_n.lhsBatch by decide), dif_pos (show (0 : Fin S1024x64.rank) ∈ dot_S1024x64_S512x64_S1024x512_1_1_0_0_n_n.lhsNonContracting by decide)]
  rfl
theorem lhs_scores_1 (i : S1024x512.Idx) (q : dot_S1024x64_S512x64_S1024x512_1_1_0_0_n_n.contr.Idx) :
    (dot_S1024x64_S512x64_S1024x512_1_1_0_0_n_n.lhsIdx i q 1).val = (q ⟨0, by decide⟩).val :=
  dot_S1024x64_S512x64_S1024x512_1_1_0_0_n_n.lhsIdx_val_of_single rfl i q
theorem rhs_scores_0 (i : S1024x512.Idx) (q : dot_S1024x64_S512x64_S1024x512_1_1_0_0_n_n.contr.Idx) :
    (dot_S1024x64_S512x64_S1024x512_1_1_0_0_n_n.rhsIdx i q 0).val = (i 1).val := by
  unfold DotDims.rhsIdx
  rw [dif_neg (show ¬(0 : Fin S512x64.rank) ∈ dot_S1024x64_S512x64_S1024x512_1_1_0_0_n_n.rhsBatch by decide), dif_pos (show (0 : Fin S512x64.rank) ∈ dot_S1024x64_S512x64_S1024x512_1_1_0_0_n_n.rhsNonContracting by decide)]
  rfl
theorem rhs_scores_1 (i : S1024x512.Idx) (q : dot_S1024x64_S512x64_S1024x512_1_1_0_0_n_n.contr.Idx) :
    (dot_S1024x64_S512x64_S1024x512_1_1_0_0_n_n.rhsIdx i q 1).val = (q ⟨0, by decide⟩).val :=
  dot_S1024x64_S512x64_S1024x512_1_1_0_0_n_n.rhsIdx_val_of_single rfl i q

theorem scores_matmul_apply {φ₁ φ₂ : FTy} (A : FVec Ideal S1024x64 φ₁) (B : FVec Ideal S512x64 φ₂) (r : Fin 1024) (kk : Fin 512) :
    matmul dot_S1024x64_S512x64_S1024x512_1_1_0_0_n_n none A B (constant (F := Ideal) S1024x512 .f32 0x00000000#32) (ix2 r kk)
      = ∑ d : Fin 64, A (ix2 r d) * B (ix2 kk d) := by
  show FloatOps.matmul dot_S1024x64_S512x64_S1024x512_1_1_0_0_n_n none A B (constant (F := Ideal) S1024x512 .f32 0x00000000#32) (ix2 r kk) = _
  rw [Ideal.matmul_constant_zero_apply, ← Equiv.sum_comp (contrEquiv1 dot_S1024x64_S512x64_S1024x512_1_1_0_0_n_n 64 rfl rfl).symm]
  refine Finset.sum_congr rfl fun k _ => ?_
  have hk := contrEquiv1_symm_val dot_S1024x64_S512x64_S1024x512_1_1_0_0_n_n 64 rfl rfl k
  have el : dot_S1024x64_S512x64_S1024x512_1_1_0_0_n_n.lhsIdx (ix2 r kk) ((contrEquiv1 dot_S1024x64_S512x64_S1024x512_1_1_0_0_n_n 64 rfl rfl).symm k) = ix2 r k := funext fun a => Fin.ext (by
    match a with
    | ⟨0, _⟩ => exact lhs_scores_0 _ _
    | ⟨1, _⟩ => exact (lhs_scores_1 _ _).trans hk)
  have er : dot_S1024x64_S512x64_S1024x512_1_1_0_0_n_n.rhsIdx (ix2 r kk) ((contrEquiv1 dot_S1024x64_S512x64_S1024x512_1_1_0_0_n_n 64 rfl rfl).symm k) = ix2 kk k := funext fun a => Fin.ext (by
    match a with
    | ⟨0, _⟩ => exact rhs_scores_0 _ _
    | ⟨1, _⟩ => exact (rhs_scores_1 _ _).trans hk)
  rw [el, er]

theorem lhs_pv_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem lhs_pv_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem rhs_pv_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem rhs_pv_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

theorem pv_matmul_apply {φ₁ φ₂ : FTy} (P : FVec Ideal S1024x512 φ₁) (V : FVec Ideal S512x64 φ₂) (r : Fin 1024) (d : Fin 64) :
    matmul dot_S1024x512_S512x64_S1024x64_1_0_0_1_n_n none P V (constant (F := Ideal) S1024x64 .f32 0x00000000#32) (ix2 r d)
      = ∑ kk : Fin 512, P (ix2 r kk) * V (ix2 kk d) := by
  show FloatOps.matmul dot_S1024x512_S512x64_S1024x64_1_0_0_1_n_n none P V (constant (F := Ideal) S1024x64 .f32 0x00000000#32) (ix2 r d) = _
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r d) ((contrEquiv1 dot_S1024x512_S512x64_S1024x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S1024x512_S512x64_S1024x64_1_0_0_1_n_n.rhsIdx (ix2 r d) ((contrEquiv1 dot_S1024x512_S512x64_S1024x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem exp_apply {s : Shape} {φ : FTy} (a : FVec Ideal s φ) (i : s.Idx) : exp a i = Ideal.exp (a i) := rfl

theorem rowMax_apply (src : FVec Ideal S1024x512 .f32) (hφ : FKind.Formats .f32)
    (hacc : (0xFF800000#32 : BitVec 32) = FKind.maximumf.neutral .f32 hφ) (r : Fin 1024) :
    multiReduction (F := Ideal) .maximumf [1] S1024 src 0xFF800000#32 reduces_S1024x512_S1024 hφ hacc (ix1 r)
      = OnlineSoftmax.rowMax fun kk : Fin 512 => src (ix2 r kk) := by
  refine (Ideal.multiReduction_maximumf_single src 0xFF800000#32 reduces_S1024x512_S1024 hφ hacc (ix1 r)).trans ?_
  show (Finset.univ : Finset (Fin 512)).fold max (Ideal.ofBits .f32 0xFF800000#32) _ = _
  rw [ofBits_neg_inf]
  refine congrArg (fun f => Finset.fold max (⊥ : EReal) f (Finset.univ : Finset (Fin 512))) (funext fun kk => ?_)
  exact congrArg src (funext fun a => Fin.ext (by match a with | ⟨0, _⟩ => rfl | ⟨1, _⟩ => rfl))

theorem rowSum_apply (src : FVec Ideal S1024x512 .f32) (hφ : FKind.Formats .f32)
    (hacc : (0x00000000#32 : BitVec 32) = FKind.add.neutral .f32 hφ) (r : Fin 1024) :
    multiReduction (F := Ideal) .add [1] S1024 src 0x00000000#32 reduces_S1024x512_S1024 hφ hacc (ix1 r)
      = ∑ kk : Fin 512, src (ix2 r kk) := by
  refine (Ideal.multiReduction_add_single src 0x00000000#32 reduces_S1024x512_S1024 hφ hacc (ix1 r)).trans ?_
  show ∑ kk : Fin 512, _ = _
  refine Finset.sum_congr rfl fun kk _ => ?_
  exact congrArg src (funext fun a => Fin.ext (by match a with | ⟨0, _⟩ => rfl | ⟨1, _⟩ => rfl))

theorem masked_score_apply (h : Fin 8) (q : FVec Ideal S1024x512 .bf16) (k : FVec Ideal S512x512 .bf16) (m : IVec S1024x512 1)
    (hq : S1024x512.Slices ![0, h.val * 64] S1024x64) (hk : S512x512.Slices ![0, h.val * 64] S512x64)
    (r : Fin 1024) (kk : Fin 512) :
    select m (broadcast S1024x512 (Named.named (F := Ideal) κ "neg_big" (φ := .f32) 0xFF333333#32))
        (mulf (matmul dot_S1024x64_S512x64_S1024x512_1_1_0_0_n_n none
            (extractStridedSlice S1024x64 ![0, h.val * 64] q hq) (extractStridedSlice S512x64 ![0, h.val * 64] k hk)
            (constant (F := Ideal) S1024x512 .f32 0x00000000#32))
          (broadcast S1024x512 (Scalar.ofBits (F := Ideal) .f32 0x3E000000#32))) (ix2 r kk)
      = tileScore2 q k m h r kk := by
  refine (select_apply _ _ _ _).trans ?_
  unfold tileScore2
  show (if m (ix2 r kk) = 1#1 then _ else _) = _
  refine congrArg₂ (fun a b : EReal => if m (ix2 r kk) = 1#1 then a else b) neg_big ?_
  refine (mulf_apply _ _ _).trans ?_
  refine congrArg (fun x : EReal => x * Ideal.ofBits .f32 0x3E000000#32) ?_
  refine (scores_matmul_apply _ _ r kk).trans ?_
  refine Finset.sum_congr rfl fun d _ => ?_
  rw [slice_cols_apply h q hq r d, slice_cols_apply h k hk kk d]

theorem acc_update_apply (v : FVec Ideal S512x64 .bf16) (a : FVec Ideal S1024x1 .f32) (p : FVec Ideal S1024x512 .f32)
    (old : FVec Ideal S1024x64 .f32) (r : Fin 1024) (d : Fin 64) :
    shapeCast S1024x64
        (addf (mulf (broadcastTo S1024x64 a broadcasts_S1024x1_S1024x64) old)
          (matmul dot_S1024x512_S512x64_S1024x64_1_0_0_1_n_n none (truncf .bf16 p bitsLt_bf16_f32) v
            (constant (F := Ideal) S1024x64 .f32 0x00000000#32)))
        shapeCasts_S1024x64_S1024x64 (ix2 r d)
      = a (ix2 r (0 : Fin 1)) * old (ix2 r d) + ∑ kk : Fin 512, p (ix2 r kk) * v (ix2 kk d) := by
  rw [shapeCast_self]
  refine (addf_apply _ _ _).trans ?_
  refine congrArg₂ (fun x y : EReal => x + y) ?_ ?_
  · refine (mulf_apply _ _ _).trans ?_
    exact congrArg (fun x : EReal => x * old (ix2 r d)) (broadcastTo_a1_ab_apply a broadcasts_S1024x1_S1024x64 r d)
  · exact pv_matmul_apply (truncf .bf16 p bitsLt_bf16_f32) v r d

theorem den_update_apply (p : FVec Ideal S1024x512 .f32) (l : FVec Ideal S1024x1 .f32) (hφ : FKind.Formats .f32)
    (hacc : (0x00000000#32 : BitVec 32) = FKind.add.neutral .f32 hφ) (r : Fin 1024) :
    addf l (shapeCast S1024x1 (multiReduction (F := Ideal) .add [1] S1024 p 0x00000000#32 reduces_S1024x512_S1024 hφ hacc)
        shapeCasts_S1024_S1024x1) (ix2 r (0 : Fin 1))
      = l (ix2 r (0 : Fin 1)) + ∑ kk : Fin 512, p (ix2 r kk) := by
  refine (addf_apply _ _ _).trans ?_
  refine congrArg (fun x : EReal => l (ix2 r (0 : Fin 1)) + x) ?_
  refine (shapeCast_a_a1_apply _ _ r 0).trans ?_
  exact rowSum_apply p hφ hacc r

end PayA

open PayA

theorem k1_pay14_apply (i : S1024x8.Idx) : (k1_pay14 (F := Ideal)) i = (⊥ : EReal) := by
  unfold k1_pay14
  rw [shapeCast_self]
  exact ofBits_neg_inf

theorem k1_pay15_apply (i : S1024x8.Idx) : (k1_pay15 (F := Ideal)) i = (0 : EReal) := by
  unfold k1_pay15
  rw [shapeCast_self]
  exact Ideal.ofBits_zero_f32

theorem k1_pay16_apply (i : S1024x512.Idx) : (k1_pay16 (F := Ideal)) i = (0 : EReal) := by
  unfold k1_pay16
  rw [shapeCast_self]
  exact Ideal.ofBits_zero_f32

variable (v4 : FVec Ideal S1024x512 .bf16) (v6 : FVec Ideal S512x512 .bf16) (v12 : IVec S1024x512 1) (v58 : Vec Ideal S1024x1 .f32) (v30 : FVec Ideal S1024x512 .f32) (v9 : Vec Ideal S1x1024x512 .i32) (v7 : Vec Ideal S1x512x512 .bf16) (v5 : Vec Ideal S1x512x512 .bf16) (kk : Fin 512) (d : Fin 64) (v3 : Vec Ideal S1x1024x512 .bf16) (r : Fin 1024) (c : Fin 512)

theorem k1_pay17_apply :
    k1_pay17 v3 (ix2 r c) = v3 (ix3 (0 : Fin 1) r c) := by
  unfold k1_pay17
  exact shapeCast_1ab_ab_apply v3 _ r c

theorem k1_pay18_apply :
    k1_pay18 v5 (ix2 kk c) = v5 (ix3 (0 : Fin 1) kk c) := by
  unfold k1_pay18
  exact shapeCast_1ab_ab_apply v5 _ kk c

theorem k1_pay19_apply :
    k1_pay19 v7 (ix2 kk c) = v7 (ix3 (0 : Fin 1) kk c) := by
  unfold k1_pay19
  exact shapeCast_1ab_ab_apply v7 _ kk c

theorem k1_pay20_apply (kk : Fin 512) :
    k1_pay20 (F := Ideal) v9 (ix2 r kk) = IntOp.cmpi .eq (v9 (ix3 (0 : Fin 1) r kk)) 0#32 := by
  unfold k1_pay20
  exact congrArg (fun w => IntOp.cmpi .eq w 0#32) (shapeCast_1ab_ab_apply v9 _ r kk)

theorem tileScore2_tile (v5 : Vec Ideal S1x512x512 .bf16) (v9 : Vec Ideal S1x1024x512 .i32)
    (h : Fin 8) (r : Fin 1024) (kk : Fin 512) :
    tileScore2 (k1_pay17 v3) (k1_pay18 v5) (k1_pay20 (F := Ideal) v9) h r kk = tileScore v3 v5 v9 h r kk := by
  unfold tileScore2 tileScore
  have hsel := select_cmpi_eq_zero (v9 (ix3 (0 : Fin 1) r kk)) (⊥ : EReal)
    ((∑ d : Fin 64, k1_pay17 v3 (ix2 r (hcol h d)) * k1_pay18 v5 (ix2 kk (hcol h d))) * Ideal.ofBits .f32 0x3E000000#32)
  rw [k1_pay20_apply]
  refine hsel.trans ?_
  refine congrArg (fun x => if v9 (ix3 (0 : Fin 1) r kk) = 0#32 then (⊥ : EReal) else x * Ideal.ofBits .f32 0x3E000000#32) ?_
  refine Finset.sum_congr rfl fun d _ => ?_
  rw [k1_pay17_apply, k1_pay18_apply]

theorem k1_pay21_apply :
    k1_pay21 v7 (ix2 kk d) = v7 (ix3 (0 : Fin 1) kk (hcol 0 d)) := by
  unfold k1_pay21
  exact (slice_cols_apply 0 (k1_pay19 v7) slices_S512x512_o0_0_S512x64 kk d).trans (k1_pay19_apply v7 kk (hcol 0 d))

theorem k1_pay22_apply (v5 : Vec Ideal S1x512x512 .bf16) (v9 : Vec Ideal S1x1024x512 .i32)
    (r : Fin 1024) (kk : Fin 512) :
    k1_pay22 v3 v5 v9 (ix2 r kk) = tileScore v3 v5 v9 0 r kk := by
  unfold k1_pay22
  exact (masked_score_apply 0 (k1_pay17 v3) (k1_pay18 v5) (k1_pay20 (F := Ideal) v9) slices_S1024x512_o0_0_S1024x64
    slices_S512x512_o0_0_S512x64 r kk).trans (tileScore2_tile v3 v5 v9 0 r kk)

theorem k1_pay23_apply (v5 : Vec Ideal S1x512x512 .bf16) (v9 : Vec Ideal S1x1024x512 .i32)
    (v21 : Vec Ideal S1024x1 .f32) (r : Fin 1024) :
    k1_pay23 v3 v5 v9 v21 (ix2 r (0 : Fin 1))
      = max (v21 (ix2 r (0 : Fin 1))) (OnlineSoftmax.rowMax fun kk : Fin 512 => tileScore v3 v5 v9 0 r kk) := by
  unfold k1_pay23
  refine (maximumf_apply _ _ _).trans ?_
  refine congrArg (max (v21 (ix2 r (0 : Fin 1)))) ?_
  refine (shapeCast_a_a1_apply _ _ r 0).trans ?_
  refine (rowMax_apply _ _ _ r).trans ?_
  exact congrArg (fun f : Fin 512 → EReal => OnlineSoftmax.rowMax f) (funext fun kk => k1_pay22_apply v3 v5 v9 r kk)

theorem k1_pay24_apply (v5 : Vec Ideal S1x512x512 .bf16) (v9 : Vec Ideal S1x1024x512 .i32)
    (v21 : Vec Ideal S1024x1 .f32) (r : Fin 1024) :
    k1_pay24 v3 v5 v9 v21 (ix2 r (0 : Fin 1))
      = Ideal.exp (v21 (ix2 r (0 : Fin 1)) - k1_pay23 v3 v5 v9 v21 (ix2 r (0 : Fin 1))) := by
  unfold k1_pay24
  rfl

theorem k1_pay25_apply (v5 : Vec Ideal S1x512x512 .bf16) (v9 : Vec Ideal S1x1024x512 .i32)
    (v21 : Vec Ideal S1024x1 .f32) (r : Fin 1024) (kk : Fin 512) :
    k1_pay25 v3 v5 v9 v21 (ix2 r kk)
      = Ideal.exp (tileScore v3 v5 v9 0 r kk - k1_pay23 v3 v5 v9 v21 (ix2 r (0 : Fin 1))) := by
  unfold k1_pay25
  refine (exp_apply _ _).trans ?_
  refine congrArg Ideal.exp ?_
  refine (subf_apply _ _ _).trans ?_
  exact congrArg₂ (fun a b : EReal => a - b) (k1_pay22_apply v3 v5 v9 r kk)
    (broadcastTo_a1_ab_apply (k1_pay23 v3 v5 v9 v21) broadcasts_S1024x1_S1024x512 r kk)

theorem k1_pay26_apply (v5 : Vec Ideal S1x512x512 .bf16) (v9 : Vec Ideal S1x1024x512 .i32)
    (v21 : Vec Ideal S1024x1 .f32) (v22 : Vec Ideal S1024x1 .f32) (r : Fin 1024) :
    k1_pay26 v3 v5 v9 v21 v22 (ix2 r (0 : Fin 1))
      = k1_pay24 v3 v5 v9 v21 (ix2 r (0 : Fin 1)) * v22 (ix2 r (0 : Fin 1)) := by
  unfold k1_pay26
  rfl

theorem k1_pay27_apply (v15 : FVec Ideal S512x64 .bf16) (v27 : FVec Ideal S1024x1 .f32) (v30 : FVec Ideal S1024x512 .f32)
    (v37 : Vec Ideal S1024x64 .f32) (r : Fin 1024) (d : Fin 64) :
    k1_pay27 v15 v27 v30 v37 (ix2 r d)
      = v27 (ix2 r (0 : Fin 1)) * v37 (ix2 r d) + ∑ kk : Fin 512, v30 (ix2 r kk) * v15 (ix2 kk d) := by
  unfold k1_pay27
  exact acc_update_apply v15 v27 v30 v37 r d

theorem k1_pay28_apply (v25 : FVec Ideal S1024x1 .f32) : k1_pay28 v25 = v25 := by
  unfold k1_pay28
  exact shapeCast_self _ _

theorem k1_pay29_apply (v31 : FVec Ideal S1024x1 .f32) (r : Fin 1024) :
    k1_pay29 v30 v31 (ix2 r (0 : Fin 1)) = v31 (ix2 r (0 : Fin 1)) + ∑ kk : Fin 512, v30 (ix2 r kk) := by
  unfold k1_pay29
  rw [shapeCast_self]
  exact den_update_apply v30 v31 _ _ r

theorem k1_pay30_apply (v8 : FVec Ideal S512x512 .bf16) (kk : Fin 512) (d : Fin 64) :
    k1_pay30 v8 (ix2 kk d) = v8 (ix2 kk (hcol 1 d)) := by
  unfold k1_pay30
  exact slice_cols_apply 1 v8 slices_S512x512_o0_64_S512x64 kk d

theorem k1_pay31_apply (kk : Fin 512) :
    k1_pay31 v4 v6 v12 (ix2 r kk) = tileScore2 v4 v6 v12 1 r kk := by
  unfold k1_pay31
  exact masked_score_apply 1 v4 v6 v12 slices_S1024x512_o0_64_S1024x64 slices_S512x512_o0_64_S512x64 r kk

theorem k1_pay32_apply :
    k1_pay32 v4 v6 v12 v58 (ix2 r (0 : Fin 1))
      = max (v58 (ix2 r (0 : Fin 1))) (OnlineSoftmax.rowMax fun kk : Fin 512 => tileScore2 v4 v6 v12 1 r kk) := by
  unfold k1_pay32
  refine (maximumf_apply _ _ _).trans ?_
  refine congrArg (max (v58 (ix2 r (0 : Fin 1)))) ?_
  refine (shapeCast_a_a1_apply _ _ r 0).trans ?_
  refine (rowMax_apply _ _ _ r).trans ?_
  exact congrArg (fun f : Fin 512 → EReal => OnlineSoftmax.rowMax f) (funext fun kk => k1_pay31_apply v4 v6 v12 r kk)

theorem k1_pay33_apply :
    k1_pay33 v4 v6 v12 v58 (ix2 r (0 : Fin 1))
      = Ideal.exp (v58 (ix2 r (0 : Fin 1)) - k1_pay32 v4 v6 v12 v58 (ix2 r (0 : Fin 1))) := by
  unfold k1_pay33
  rfl

theorem k1_pay34_apply (kk : Fin 512) :
    k1_pay34 v4 v6 v12 v58 (ix2 r kk)
      = Ideal.exp (tileScore2 v4 v6 v12 1 r kk - k1_pay32 v4 v6 v12 v58 (ix2 r (0 : Fin 1))) := by
  unfold k1_pay34
  refine (exp_apply _ _).trans ?_
  refine congrArg Ideal.exp ?_
  refine (subf_apply _ _ _).trans ?_
  exact congrArg₂ (fun a b : EReal => a - b) (k1_pay31_apply v4 v6 v12 r kk)
    (broadcastTo_a1_ab_apply (k1_pay32 v4 v6 v12 v58) broadcasts_S1024x1_S1024x512 r kk)

theorem k1_pay35_apply (v59 : Vec Ideal S1024x1 .f32) (r : Fin 1024) :
    k1_pay35 v4 v6 v12 v58 v59 (ix2 r (0 : Fin 1))
      = k1_pay33 v4 v6 v12 v58 (ix2 r (0 : Fin 1)) * v59 (ix2 r (0 : Fin 1)) := by
  unfold k1_pay35
  rfl

theorem k1_pay36_apply :
    k1_pay36 v4 v6 v12 v58 (ix2 r (0 : Fin 1)) = ∑ kk : Fin 512, k1_pay34 v4 v6 v12 v58 (ix2 r kk) := by
  unfold k1_pay36
  refine (shapeCast_a_a1_apply _ _ r 0).trans ?_
  exact rowSum_apply (k1_pay34 v4 v6 v12 v58) _ _ r

theorem k1_pay37_apply (v52 : FVec Ideal S512x64 .bf16) (v64 : FVec Ideal S1024x1 .f32) (v67 : FVec Ideal S1024x512 .f32)
    (v74 : Vec Ideal S1024x64 .f32) (r : Fin 1024) (d : Fin 64) :
    k1_pay37 v52 v64 v67 v74 (ix2 r d)
      = v64 (ix2 r (0 : Fin 1)) * v74 (ix2 r d) + ∑ kk : Fin 512, v67 (ix2 r kk) * v52 (ix2 kk d) := by
  unfold k1_pay37
  exact acc_update_apply v52 v64 v67 v74 r d

theorem k1_pay38_apply (v62 : FVec Ideal S1024x1 .f32) : k1_pay38 v62 = v62 := by
  unfold k1_pay38
  exact shapeCast_self _ _

theorem k1_pay39_apply (v68 : FVec Ideal S1024x1 .f32) (v70 : FVec Ideal S1024x1 .f32) (i : S1024x1.Idx) :
    k1_pay39 v68 v70 i = v68 i + v70 i := by
  unfold k1_pay39
  rw [shapeCast_self]
  rfl

end Cert.KernelIdeal.HandValue

end
-- ==== Proof.HeadGlueA.lean ====
-- Heads 0 and 1: the stored maximum, denominator and weighted sum are one streaming-softmax step on the tile.
import proofs.«416084_j63617055588838_3_alg».proof.Proof.HeadTerms
import proofs.«416084_j63617055588838_3_alg».proof.Proof.PayA
import proofs.«416084_j63617055588838_3_alg».proof.Proof.TileSpec

noncomputable section

namespace Cert.KernelIdeal.HandValue

open Cert.KernelIdeal Cert.KernelIdeal.Gen Cert.KernelIdeal.Hand Idealize.ShloMosaic Idealize.ShloMosaic.ValueIdx
open scoped BigOperators

variable (x0 : Vec Ideal S1x1024x512 .bf16) (x1 : Vec Ideal S1x512x512 .bf16) (x2 : Vec Ideal S1x512x512 .bf16) (x3 : Vec Ideal S1x1024x512 .i32) (m : Vec Ideal S1024x1 .f32) (a : Vec Ideal S1024x64 .f32) (l : Vec Ideal S1024x1 .f32) (r : Fin 1024) (d : Fin 64)

theorem hdM_0_eq : hdM_0 (F := Ideal) x0 x1 x3 m = k1_pay23 x0 x1 x3 m := by
  unfold hdM_0
  exact k1_pay28_apply _

theorem hdM_0_apply :
    hdM_0 (F := Ideal) x0 x1 x3 m (ix2 r (0 : Fin 1))
      = max (m (ix2 r (0 : Fin 1))) (OnlineSoftmax.rowMax fun kk : Fin 512 => tileScore x0 x1 x3 0 r kk) := by
  rw [hdM_0_eq]
  exact k1_pay23_apply x0 x1 x3 m r

theorem hdL_0_apply :
    hdL_0 (F := Ideal) x0 x1 x3 m l (ix2 r (0 : Fin 1))
      = Ideal.exp (m (ix2 r (0 : Fin 1)) - hdM_0 (F := Ideal) x0 x1 x3 m (ix2 r (0 : Fin 1))) * l (ix2 r (0 : Fin 1))
        + ∑ kk : Fin 512, Ideal.exp (tileScore x0 x1 x3 0 r kk - hdM_0 (F := Ideal) x0 x1 x3 m (ix2 r (0 : Fin 1))) := by
  rw [hdM_0_eq]
  unfold hdL_0
  refine (k1_pay29_apply _ _ r).trans ?_
  refine congrArg₂ (fun a b : EReal => a + b) ?_ (Finset.sum_congr rfl fun kk _ => k1_pay25_apply x0 x1 x3 m r kk)
  refine (k1_pay26_apply x0 x1 x3 m l r).trans ?_
  exact congrArg (fun a : EReal => a * l (ix2 r (0 : Fin 1))) (k1_pay24_apply x0 x1 x3 m r)

theorem hdA_0_apply :
    hdA_0 (F := Ideal) x0 x1 x2 x3 m a (ix2 r d)
      = Ideal.exp (m (ix2 r (0 : Fin 1)) - hdM_0 (F := Ideal) x0 x1 x3 m (ix2 r (0 : Fin 1))) * a (ix2 r d)
        + ∑ kk : Fin 512, Ideal.exp (tileScore x0 x1 x3 0 r kk - hdM_0 (F := Ideal) x0 x1 x3 m (ix2 r (0 : Fin 1)))
            * tileVal x2 0 d kk := by
  rw [hdM_0_eq]
  unfold hdA_0
  refine (k1_pay27_apply _ _ _ a r d).trans ?_
  refine congrArg₂ (fun u w : EReal => u + w) ?_ (Finset.sum_congr rfl fun kk _ => ?_)
  · exact congrArg (fun u : EReal => u * a (ix2 r d)) (k1_pay24_apply x0 x1 x3 m r)
  · exact congrArg₂ (fun u w : EReal => u * w) (k1_pay25_apply x0 x1 x3 m r kk) (k1_pay21_apply x2 kk d)

theorem hdM_1_eq :
    hdM_1 (F := Ideal) x0 x1 x3 m = k1_pay32 (k1_pay17 x0) (k1_pay18 x1) (k1_pay20 (F := Ideal) x3) m := by
  unfold hdM_1
  exact k1_pay38_apply _

theorem hdM_1_apply :
    hdM_1 (F := Ideal) x0 x1 x3 m (ix2 r (0 : Fin 1))
      = max (m (ix2 r (0 : Fin 1))) (OnlineSoftmax.rowMax fun kk : Fin 512 => tileScore x0 x1 x3 1 r kk) := by
  rw [hdM_1_eq]
  refine (k1_pay32_apply _ _ _ m r).trans ?_
  exact congrArg (fun f : Fin 512 → EReal => max (m (ix2 r (0 : Fin 1))) (OnlineSoftmax.rowMax f))
    (funext fun kk => tileScore2_tile x0 x1 x3 1 r kk)

theorem hdL_1_apply :
    hdL_1 (F := Ideal) x0 x1 x3 m l (ix2 r (0 : Fin 1))
      = Ideal.exp (m (ix2 r (0 : Fin 1)) - hdM_1 (F := Ideal) x0 x1 x3 m (ix2 r (0 : Fin 1))) * l (ix2 r (0 : Fin 1))
        + ∑ kk : Fin 512, Ideal.exp (tileScore x0 x1 x3 1 r kk - hdM_1 (F := Ideal) x0 x1 x3 m (ix2 r (0 : Fin 1))) := by
  rw [hdM_1_eq]
  unfold hdL_1
  refine (k1_pay39_apply _ _ _).trans ?_
  refine congrArg₂ (fun u w : EReal => u + w) ?_ ?_
  · refine (k1_pay35_apply _ _ _ m l r).trans ?_
    exact congrArg (fun u : EReal => u * l (ix2 r (0 : Fin 1))) (k1_pay33_apply _ _ _ m r)
  · refine (k1_pay36_apply _ _ _ m r).trans ?_
    refine Finset.sum_congr rfl fun kk _ => ?_
    refine (k1_pay34_apply _ _ _ m r kk).trans ?_
    exact congrArg (fun s : EReal => Ideal.exp (s - k1_pay32 (k1_pay17 x0) (k1_pay18 x1) (k1_pay20 (F := Ideal) x3) m (ix2 r (0 : Fin 1))))
      (tileScore2_tile x0 x1 x3 1 r kk)

theorem hdA_1_apply :
    hdA_1 (F := Ideal) x0 x1 x2 x3 m a (ix2 r d)
      = Ideal.exp (m (ix2 r (0 : Fin 1)) - hdM_1 (F := Ideal) x0 x1 x3 m (ix2 r (0 : Fin 1))) * a (ix2 r d)
        + ∑ kk : Fin 512, Ideal.exp (tileScore x0 x1 x3 1 r kk - hdM_1 (F := Ideal) x0 x1 x3 m (ix2 r (0 : Fin 1)))
            * tileVal x2 1 d kk := by
  rw [hdM_1_eq]
  unfold hdA_1
  refine (k1_pay37_apply _ _ _ a r d).trans ?_
  refine congrArg₂ (fun u w : EReal => u + w) ?_ (Finset.sum_congr rfl fun kk _ => ?_)
  · exact congrArg (fun u : EReal => u * a (ix2 r d)) (k1_pay33_apply _ _ _ m r)
  · refine congrArg₂ (fun u w : EReal => u * w) ?_ ?_
    · refine (k1_pay34_apply _ _ _ m r kk).trans ?_
      exact congrArg (fun s : EReal => Ideal.exp (s - k1_pay32 (k1_pay17 x0) (k1_pay18 x1) (k1_pay20 (F := Ideal) x3) m (ix2 r (0 : Fin 1))))
        (tileScore2_tile x0 x1 x3 1 r kk)
    · exact (k1_pay30_apply (k1_pay19 x2) kk d).trans (k1_pay19_apply x2 kk (hcol 1 d))

end Cert.KernelIdeal.HandValue

end
-- ==== Proof.PayB.lean ====
-- The body's values for heads 2, 3 and 4 read at an index.
import proofs.«416084_j63617055588838_3_alg».proof.Proof.Gen.KernelIdeal.Skeleton
import proofs.«416084_j63617055588838_3_alg».proof.Proof.PayA
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.HandValue

open Cert.KernelIdeal Cert.KernelIdeal.Gen Idealize.ShloMosaic Idealize.ShloMosaic.ValueIdx

variable (v8 : FVec Ideal S512x512 .bf16) (kk : Fin 512) (d : Fin 64) (v4 : FVec Ideal S1024x512 .bf16) (v6 : FVec Ideal S512x512 .bf16) (v12 : IVec S1024x512 1) (v169 : Vec Ideal S1024x1 .f32) (v132 : Vec Ideal S1024x1 .f32) (v95 : Vec Ideal S1024x1 .f32) (r : Fin 1024)

def castScore
    (h : Fin 8) (r : Fin 1024) (kk : Fin 512) : EReal :=
  if v12 (ix2 r kk) = 1#1 then ⊥
  else (∑ d : Fin 64, v4 (ix2 r (hcol h d)) * v6 (ix2 kk (hcol h d))) * Ideal.ofBits .f32 0x3E000000#32

open PayA

namespace PayB

variable {α : Type}

theorem slice_cols_apply {n : ℕ} (o : ℕ) (h : Fin 8) (ho : o = h.val * 64) (X : (⟨2, ![n, 512]⟩ : Shape).Idx → α)
    (hs : (⟨2, ![n, 512]⟩ : Shape).Slices ![0, o] ⟨2, ![n, 64]⟩) (r : Fin n) (d : Fin 64) :
    extractStridedSlice ⟨2, ![n, 64]⟩ ![0, o] X hs (ix2 r d) = X (ix2 r (hcol h d)) :=
  slice2_axis1_apply o X hs r d (hcol h d) (by subst ho; rfl)

theorem rowMax_apply (src : FVec Ideal S1024x512 .f32) (hr : S1024x512.Reduces [1] S1024) (r : Fin 1024) :
    multiReduction (F := Ideal) .maximumf [1] S1024 src 0xFF800000#32 hr (.inl rfl) rfl (ix1 r)
      = OnlineSoftmax.rowMax fun kk : Fin 512 => src (ix2 r kk) := by
  refine (Ideal.multiReduction_maximumf_single src 0xFF800000#32 hr (.inl rfl) rfl (ix1 r)).trans ?_
  show (Finset.univ : Finset (Fin 512)).fold max (Ideal.ofBits .f32 0xFF800000#32) _ = _
  rw [ofBits_neg_inf]
  refine congrArg ((Finset.univ : Finset (Fin 512)).fold max ⊥) (funext fun kk => congrArg src ?_)
  funext a
  match a with
  | ⟨0, _⟩ => rfl
  | ⟨1, _⟩ => rfl

theorem rowSum_apply (src : FVec Ideal S1024x512 .f32) (hr : S1024x512.Reduces [1] S1024) (r : Fin 1024) :
    multiReduction (F := Ideal) .add [1] S1024 src 0x00000000#32 hr (.inl rfl) rfl (ix1 r)
      = ∑ kk : Fin 512, src (ix2 r kk) := by
  refine (Ideal.multiReduction_add_single src 0x00000000#32 hr (.inl rfl) rfl (ix1 r)).trans ?_
  refine Finset.sum_congr rfl fun kk _ => congrArg src ?_
  funext a
  match a with
  | ⟨0, _⟩ => rfl
  | ⟨1, _⟩ => rfl

theorem score_apply (o : ℕ) (h : Fin 8) (ho : o = h.val * 64)
    (hq : S1024x512.Slices ![0, o] S1024x64) (hk : S512x512.Slices ![0, o] S512x64)
    (v4 : FVec Ideal S1024x512 .bf16) (v6 : FVec Ideal S512x512 .bf16) (v12 : IVec S1024x512 1) (r : Fin 1024) (kk : Fin 512) :
    select v12 (broadcast S1024x512 (Named.named (F := Ideal) κ "neg_big" (φ := .f32) 0xFF333333#32))
      (mulf (matmul dot_S1024x64_S512x64_S1024x512_1_1_0_0_n_n none (extractStridedSlice S1024x64 ![0, o] v4 hq) (extractStridedSlice S512x64 ![0, o] v6 hk)
          (constant (F := Ideal) S1024x512 .f32 0x00000000#32))
        (broadcast S1024x512 (Scalar.ofBits (F := Ideal) .f32 0x3E000000#32))) (ix2 r kk)
      = castScore v4 v6 v12 h r kk := by
  refine (select_apply _ _ _ _).trans ?_
  rw [broadcast_apply, neg_big, mulf_apply, broadcast_apply, scores_matmul_apply]
  have hsum : (∑ d : Fin 64, extractStridedSlice S1024x64 ![0, o] v4 hq (ix2 r d) * extractStridedSlice S512x64 ![0, o] v6 hk (ix2 kk d))
      = ∑ d : Fin 64, v4 (ix2 r (hcol h d)) * v6 (ix2 kk (hcol h d)) :=
    Finset.sum_congr rfl fun d _ => by rw [slice_cols_apply o h ho v4 hq r d, slice_cols_apply o h ho v6 hk kk d]
  rw [hsum]
  rfl

theorem newMax_apply (S : FVec Ideal S1024x512 .f32) (m : FVec Ideal S1024x1 .f32) (hr : S1024x512.Reduces [1] S1024)
    (hc : S1024.ShapeCasts S1024x1) (r : Fin 1024) :
    maximumf m (shapeCast S1024x1 (multiReduction (F := Ideal) .maximumf [1] S1024 S 0xFF800000#32 hr (.inl rfl) rfl) hc) (ix2 r 0)
      = max (m (ix2 r 0)) (OnlineSoftmax.rowMax fun kk : Fin 512 => S (ix2 r kk)) := by
  rw [maximumf_apply, shapeCast_a_a1_apply, rowMax_apply]

theorem alpha_apply (m m' : FVec Ideal S1024x1 .f32) (r : Fin 1024) :
    exp (subf m m') (ix2 r 0) = Ideal.exp (m (ix2 r 0) - m' (ix2 r 0)) := rfl

theorem weights_apply (S : FVec Ideal S1024x512 .f32) (m' : FVec Ideal S1024x1 .f32) (hb : S1024x1.Broadcasts S1024x512)
    (r : Fin 1024) (kk : Fin 512) :
    exp (subf S (broadcastTo S1024x512 m' hb)) (ix2 r kk) = Ideal.exp (S (ix2 r kk) - m' (ix2 r 0)) := by
  show Ideal.exp (S (ix2 r kk) - broadcastTo S1024x512 m' hb (ix2 r kk)) = _
  rw [broadcastTo_a1_ab_apply]

theorem newDen_apply (a l : FVec Ideal S1024x1 .f32) (P : FVec Ideal S1024x512 .f32) (hr : S1024x512.Reduces [1] S1024)
    (hc : S1024.ShapeCasts S1024x1) (r : Fin 1024) :
    addf (mulf a l) (shapeCast S1024x1 (multiReduction (F := Ideal) .add [1] S1024 P 0x00000000#32 hr (.inl rfl) rfl) hc) (ix2 r 0)
      = a (ix2 r 0) * l (ix2 r 0) + ∑ kk : Fin 512, P (ix2 r kk) := by
  rw [addf_apply, mulf_apply, shapeCast_a_a1_apply, rowSum_apply]

theorem newAcc_apply (a : FVec Ideal S1024x1 .f32) (acc pv : FVec Ideal S1024x64 .f32) (hb : S1024x1.Broadcasts S1024x64)
    (hs : S1024x64.ShapeCasts S1024x64) (r : Fin 1024) (d : Fin 64) :
    shapeCast S1024x64 (addf (mulf (broadcastTo S1024x64 a hb) acc) pv) hs (ix2 r d)
      = a (ix2 r 0) * acc (ix2 r d) + pv (ix2 r d) := by
  rw [shapeCast_self, addf_apply, mulf_apply, broadcastTo_a1_ab_apply]

end PayB

theorem k1_pay40_apply :
    k1_pay40 (F := Ideal) v8 (ix2 kk d) = v8 (ix2 kk (hcol 2 d)) := by
  unfold k1_pay40
  exact PayB.slice_cols_apply 128 2 rfl v8 _ kk d

theorem k1_pay41_apply (kk : Fin 512) :
    k1_pay41 (F := Ideal) v4 v6 v12 (ix2 r kk) = castScore v4 v6 v12 2 r kk := by
  unfold k1_pay41
  exact PayB.score_apply 128 2 rfl _ _ v4 v6 v12 r kk

theorem k1_pay42_apply :
    k1_pay42 (F := Ideal) v4 v6 v12 v95 (ix2 r 0)
      = max (v95 (ix2 r 0)) (OnlineSoftmax.rowMax fun kk => castScore v4 v6 v12 2 r kk) := by
  unfold k1_pay42
  refine (PayB.newMax_apply (k1_pay41 (F := Ideal) v4 v6 v12) v95 _ _ r).trans ?_
  exact congrArg (fun f : Fin 512 → EReal => max (v95 (ix2 r 0)) (OnlineSoftmax.rowMax f))
    (funext fun kk => k1_pay41_apply v4 v6 v12 r kk)

theorem k1_pay43_apply :
    k1_pay43 (F := Ideal) v4 v6 v12 v95 (ix2 r 0)
      = Ideal.exp (v95 (ix2 r 0) - k1_pay42 (F := Ideal) v4 v6 v12 v95 (ix2 r 0)) := by
  unfold k1_pay43
  exact PayB.alpha_apply v95 (k1_pay42 (F := Ideal) v4 v6 v12 v95) r

theorem k1_pay44_apply (kk : Fin 512) :
    k1_pay44 (F := Ideal) v4 v6 v12 v95 (ix2 r kk)
      = Ideal.exp (castScore v4 v6 v12 2 r kk - k1_pay42 (F := Ideal) v4 v6 v12 v95 (ix2 r 0)) := by
  unfold k1_pay44
  refine (PayB.weights_apply (k1_pay41 (F := Ideal) v4 v6 v12) (k1_pay42 (F := Ideal) v4 v6 v12 v95) _ r kk).trans ?_
  rw [k1_pay41_apply]

theorem k1_pay45_apply (v96 : Vec Ideal S1024x1 .f32) (r : Fin 1024) :
    k1_pay45 (F := Ideal) v4 v6 v12 v95 v96 (ix2 r 0)
      = k1_pay43 (F := Ideal) v4 v6 v12 v95 (ix2 r 0) * v96 (ix2 r 0) + ∑ kk : Fin 512, k1_pay44 (F := Ideal) v4 v6 v12 v95 (ix2 r kk) := by
  unfold k1_pay45
  exact PayB.newDen_apply (k1_pay43 (F := Ideal) v4 v6 v12 v95) v96 (k1_pay44 (F := Ideal) v4 v6 v12 v95) _ _ r

theorem k1_pay46_apply (kk : Fin 512) :
    k1_pay46 (F := Ideal) v4 v6 v12 v95 (ix2 r kk) = k1_pay44 (F := Ideal) v4 v6 v12 v95 (ix2 r kk) := by
  unfold k1_pay46
  rfl

theorem k1_pay47_apply (v89 : FVec Ideal S512x64 .bf16) (v101 : FVec Ideal S1024x1 .f32) (v109 : FVec Ideal S1024x512 .bf16)
    (v111 : Vec Ideal S1024x64 .f32) (r : Fin 1024) (d : Fin 64) :
    k1_pay47 (F := Ideal) v89 v101 v109 v111 (ix2 r d)
      = v101 (ix2 r 0) * v111 (ix2 r d) + ∑ kk : Fin 512, v109 (ix2 r kk) * v89 (ix2 kk d) := by
  unfold k1_pay47
  refine (PayB.newAcc_apply v101 v111 _ _ _ r d).trans ?_
  rw [pv_matmul_apply]

theorem k1_pay48_apply (v99 : FVec Ideal S1024x1 .f32) : k1_pay48 (F := Ideal) v99 = v99 := by
  unfold k1_pay48
  exact shapeCast_self _ _

theorem k1_pay49_apply (v108 : FVec Ideal S1024x1 .f32) : k1_pay49 (F := Ideal) v108 = v108 := by
  unfold k1_pay49
  exact shapeCast_self _ _

theorem k1_pay50_apply (kk : Fin 512) :
    k1_pay50 (F := Ideal) v4 v6 v12 (ix2 r kk) = castScore v4 v6 v12 3 r kk := by
  unfold k1_pay50
  exact PayB.score_apply 192 3 rfl _ _ v4 v6 v12 r kk

theorem k1_pay51_apply :
    k1_pay51 (F := Ideal) v4 v6 v12 v132 (ix2 r 0)
      = max (v132 (ix2 r 0)) (OnlineSoftmax.rowMax fun kk => castScore v4 v6 v12 3 r kk) := by
  unfold k1_pay51
  refine (PayB.newMax_apply (k1_pay50 (F := Ideal) v4 v6 v12) v132 _ _ r).trans ?_
  exact congrArg (fun f : Fin 512 → EReal => max (v132 (ix2 r 0)) (OnlineSoftmax.rowMax f))
    (funext fun kk => k1_pay50_apply v4 v6 v12 r kk)

theorem k1_pay52_apply :
    k1_pay52 (F := Ideal) v4 v6 v12 v132 (ix2 r 0)
      = Ideal.exp (v132 (ix2 r 0) - k1_pay51 (F := Ideal) v4 v6 v12 v132 (ix2 r 0)) := by
  unfold k1_pay52
  exact PayB.alpha_apply v132 (k1_pay51 (F := Ideal) v4 v6 v12 v132) r

theorem k1_pay53_apply (kk : Fin 512) :
    k1_pay53 (F := Ideal) v4 v6 v12 v132 (ix2 r kk)
      = Ideal.exp (castScore v4 v6 v12 3 r kk - k1_pay51 (F := Ideal) v4 v6 v12 v132 (ix2 r 0)) := by
  unfold k1_pay53
  refine (PayB.weights_apply (k1_pay50 (F := Ideal) v4 v6 v12) (k1_pay51 (F := Ideal) v4 v6 v12 v132) _ r kk).trans ?_
  rw [k1_pay50_apply]

theorem k1_pay54_apply (v133 : Vec Ideal S1024x1 .f32) (r : Fin 1024) :
    k1_pay54 (F := Ideal) v4 v6 v12 v132 v133 (ix2 r 0)
      = k1_pay52 (F := Ideal) v4 v6 v12 v132 (ix2 r 0) * v133 (ix2 r 0) + ∑ kk : Fin 512, k1_pay53 (F := Ideal) v4 v6 v12 v132 (ix2 r kk) := by
  unfold k1_pay54
  exact PayB.newDen_apply (k1_pay52 (F := Ideal) v4 v6 v12 v132) v133 (k1_pay53 (F := Ideal) v4 v6 v12 v132) _ _ r

theorem k1_pay55_apply (v8 : FVec Ideal S512x512 .bf16) (v12 : IVec S1024x512 1) (v132 : Vec Ideal S1024x1 .f32) (r : Fin 1024) (d : Fin 64) :
    k1_pay55 (F := Ideal) v4 v6 v8 v12 v132 (ix2 r d)
      = ∑ kk : Fin 512, k1_pay53 (F := Ideal) v4 v6 v12 v132 (ix2 r kk) * v8 (ix2 kk (hcol 3 d)) := by
  unfold k1_pay55
  refine (pv_matmul_apply _ _ r d).trans ?_
  refine Finset.sum_congr rfl fun kk _ => ?_
  rw [PayB.slice_cols_apply 192 3 rfl v8 _ kk d]
  rfl

theorem k1_pay56_apply (v138 : FVec Ideal S1024x1 .f32) (v147 : FVec Ideal S1024x64 .f32) (v148 : Vec Ideal S1024x64 .f32)
    (r : Fin 1024) (d : Fin 64) :
    k1_pay56 (F := Ideal) v138 v147 v148 (ix2 r d) = v138 (ix2 r 0) * v148 (ix2 r d) + v147 (ix2 r d) := by
  unfold k1_pay56
  exact PayB.newAcc_apply v138 v148 v147 _ _ r d

theorem k1_pay57_apply (v136 : FVec Ideal S1024x1 .f32) : k1_pay57 (F := Ideal) v136 = v136 := by
  unfold k1_pay57
  exact shapeCast_self _ _

theorem k1_pay58_apply (v145 : FVec Ideal S1024x1 .f32) : k1_pay58 (F := Ideal) v145 = v145 := by
  unfold k1_pay58
  exact shapeCast_self _ _

theorem k1_pay59_apply (kk : Fin 512) :
    k1_pay59 (F := Ideal) v4 v6 v12 (ix2 r kk) = castScore v4 v6 v12 4 r kk := by
  unfold k1_pay59
  exact PayB.score_apply 256 4 rfl _ _ v4 v6 v12 r kk

theorem k1_pay60_apply :
    k1_pay60 (F := Ideal) v4 v6 v12 v169 (ix2 r 0)
      = max (v169 (ix2 r 0)) (OnlineSoftmax.rowMax fun kk => castScore v4 v6 v12 4 r kk) := by
  unfold k1_pay60
  refine (PayB.newMax_apply (k1_pay59 (F := Ideal) v4 v6 v12) v169 _ _ r).trans ?_
  exact congrArg (fun f : Fin 512 → EReal => max (v169 (ix2 r 0)) (OnlineSoftmax.rowMax f))
    (funext fun kk => k1_pay59_apply v4 v6 v12 r kk)

theorem k1_pay61_apply :
    k1_pay61 (F := Ideal) v4 v6 v12 v169 (ix2 r 0)
      = Ideal.exp (v169 (ix2 r 0) - k1_pay60 (F := Ideal) v4 v6 v12 v169 (ix2 r 0)) := by
  unfold k1_pay61
  exact PayB.alpha_apply v169 (k1_pay60 (F := Ideal) v4 v6 v12 v169) r

theorem k1_pay62_apply (kk : Fin 512) :
    k1_pay62 (F := Ideal) v4 v6 v12 v169 (ix2 r kk)
      = Ideal.exp (castScore v4 v6 v12 4 r kk - k1_pay60 (F := Ideal) v4 v6 v12 v169 (ix2 r 0)) := by
  unfold k1_pay62
  refine (PayB.weights_apply (k1_pay59 (F := Ideal) v4 v6 v12) (k1_pay60 (F := Ideal) v4 v6 v12 v169) _ r kk).trans ?_
  rw [k1_pay59_apply]

theorem k1_pay63_apply (v170 : Vec Ideal S1024x1 .f32) (r : Fin 1024) :
    k1_pay63 (F := Ideal) v4 v6 v12 v169 v170 (ix2 r 0)
      = k1_pay61 (F := Ideal) v4 v6 v12 v169 (ix2 r 0) * v170 (ix2 r 0) + ∑ kk : Fin 512, k1_pay62 (F := Ideal) v4 v6 v12 v169 (ix2 r kk) := by
  unfold k1_pay63
  exact PayB.newDen_apply (k1_pay61 (F := Ideal) v4 v6 v12 v169) v170 (k1_pay62 (F := Ideal) v4 v6 v12 v169) _ _ r

theorem k1_pay64_apply (v8 : FVec Ideal S512x512 .bf16) (v12 : IVec S1024x512 1) (v169 : Vec Ideal S1024x1 .f32) (r : Fin 1024) (d : Fin 64) :
    k1_pay64 (F := Ideal) v4 v6 v8 v12 v169 (ix2 r d)
      = ∑ kk : Fin 512, k1_pay62 (F := Ideal) v4 v6 v12 v169 (ix2 r kk) * v8 (ix2 kk (hcol 4 d)) := by
  unfold k1_pay64
  refine (pv_matmul_apply _ _ r d).trans ?_
  refine Finset.sum_congr rfl fun kk _ => ?_
  rw [PayB.slice_cols_apply 256 4 rfl v8 _ kk d]
  rfl

theorem k1_pay65_apply (v175 : FVec Ideal S1024x1 .f32) (v184 : FVec Ideal S1024x64 .f32) (v185 : Vec Ideal S1024x64 .f32)
    (r : Fin 1024) (d : Fin 64) :
    k1_pay65 (F := Ideal) v175 v184 v185 (ix2 r d) = v175 (ix2 r 0) * v185 (ix2 r d) + v184 (ix2 r d) := by
  unfold k1_pay65
  exact PayB.newAcc_apply v175 v185 v184 _ _ r d

theorem k1_pay66_apply (v173 : FVec Ideal S1024x1 .f32) : k1_pay66 (F := Ideal) v173 = v173 := by
  unfold k1_pay66
  exact shapeCast_self _ _

theorem k1_pay67_apply (v182 : FVec Ideal S1024x1 .f32) : k1_pay67 (F := Ideal) v182 = v182 := by
  unfold k1_pay67
  exact shapeCast_self _ _

end Cert.KernelIdeal.HandValue

end
-- ==== Proof.HeadGlueB.lean ====
-- Heads 2, 3 and 4: the stored maximum, denominator and weighted sum are one streaming-softmax step on the tile.
import proofs.«416084_j63617055588838_3_alg».proof.Proof.HeadTerms
import proofs.«416084_j63617055588838_3_alg».proof.Proof.PayA
import proofs.«416084_j63617055588838_3_alg».proof.Proof.PayB
import proofs.«416084_j63617055588838_3_alg».proof.Proof.TileSpec

noncomputable section

namespace Cert.KernelIdeal.HandValue

open Cert.KernelIdeal Cert.KernelIdeal.Gen Cert.KernelIdeal.Hand Idealize.ShloMosaic Idealize.ShloMosaic.ValueIdx

variable (x0 : Vec Ideal S1x1024x512 .bf16) (x1 : Vec Ideal S1x512x512 .bf16) (x2 : Vec Ideal S1x512x512 .bf16) (x3 : Vec Ideal S1x1024x512 .i32) (m : Vec Ideal S1024x1 .f32) (a : Vec Ideal S1024x64 .f32) (l : Vec Ideal S1024x1 .f32) (r : Fin 1024) (d : Fin 64)

theorem castScore_tile (h : Fin 8) (r : Fin 1024) (kk : Fin 512) :
    castScore (k1_pay17 x0) (k1_pay18 x1) (k1_pay20 (F := Ideal) x3) h r kk = tileScore x0 x1 x3 h r kk :=
  tileScore2_tile x0 x1 x3 h r kk

theorem hdM_2_eq :
    hdM_2 (F := Ideal) x0 x1 x3 m = k1_pay42 (F := Ideal) (k1_pay17 x0) (k1_pay18 x1) (k1_pay20 (F := Ideal) x3) m := by
  unfold hdM_2
  exact k1_pay48_apply _

theorem hdM_2_apply :
    hdM_2 (F := Ideal) x0 x1 x3 m (ix2 r 0)
      = max (m (ix2 r 0)) (OnlineSoftmax.rowMax fun kk => tileScore x0 x1 x3 2 r kk) := by
  rw [hdM_2_eq, k1_pay42_apply]
  exact congrArg (fun f : Fin 512 → EReal => max (m (ix2 r 0)) (OnlineSoftmax.rowMax f))
    (funext fun kk => castScore_tile x0 x1 x3 2 r kk)

theorem hdL_2_apply :
    hdL_2 (F := Ideal) x0 x1 x3 m l (ix2 r 0)
      = Ideal.exp (m (ix2 r 0) - hdM_2 (F := Ideal) x0 x1 x3 m (ix2 r 0)) * l (ix2 r 0)
        + ∑ kk : Fin 512, Ideal.exp (tileScore x0 x1 x3 2 r kk - hdM_2 (F := Ideal) x0 x1 x3 m (ix2 r 0)) := by
  rw [hdM_2_eq]
  unfold hdL_2
  rw [k1_pay49_apply, k1_pay45_apply, k1_pay43_apply]
  refine congrArg (fun s : EReal => Ideal.exp (m (ix2 r 0) - k1_pay42 (F := Ideal) (k1_pay17 x0) (k1_pay18 x1) (k1_pay20 (F := Ideal) x3) m (ix2 r 0)) * l (ix2 r 0) + s)
    (Finset.sum_congr rfl fun kk _ => ?_)
  rw [k1_pay44_apply, castScore_tile]

theorem hdA_2_apply :
    hdA_2 (F := Ideal) x0 x1 x2 x3 m a (ix2 r d)
      = Ideal.exp (m (ix2 r 0) - hdM_2 (F := Ideal) x0 x1 x3 m (ix2 r 0)) * a (ix2 r d)
        + ∑ kk : Fin 512, Ideal.exp (tileScore x0 x1 x3 2 r kk - hdM_2 (F := Ideal) x0 x1 x3 m (ix2 r 0)) * tileVal x2 2 d kk := by
  rw [hdM_2_eq]
  unfold hdA_2
  rw [k1_pay47_apply, k1_pay43_apply]
  refine congrArg (fun s : EReal => Ideal.exp (m (ix2 r 0) - k1_pay42 (F := Ideal) (k1_pay17 x0) (k1_pay18 x1) (k1_pay20 (F := Ideal) x3) m (ix2 r 0)) * a (ix2 r d) + s)
    (Finset.sum_congr rfl fun kk _ => ?_)
  rw [k1_pay46_apply, k1_pay44_apply, castScore_tile, k1_pay40_apply, k1_pay19_apply]
  rfl

theorem hdM_3_eq :
    hdM_3 (F := Ideal) x0 x1 x3 m = k1_pay51 (F := Ideal) (k1_pay17 x0) (k1_pay18 x1) (k1_pay20 (F := Ideal) x3) m := by
  unfold hdM_3
  exact k1_pay57_apply _

theorem hdM_3_apply :
    hdM_3 (F := Ideal) x0 x1 x3 m (ix2 r 0)
      = max (m (ix2 r 0)) (OnlineSoftmax.rowMax fun kk => tileScore x0 x1 x3 3 r kk) := by
  rw [hdM_3_eq, k1_pay51_apply]
  exact congrArg (fun f : Fin 512 → EReal => max (m (ix2 r 0)) (OnlineSoftmax.rowMax f))
    (funext fun kk => castScore_tile x0 x1 x3 3 r kk)

theorem hdL_3_apply :
    hdL_3 (F := Ideal) x0 x1 x3 m l (ix2 r 0)
      = Ideal.exp (m (ix2 r 0) - hdM_3 (F := Ideal) x0 x1 x3 m (ix2 r 0)) * l (ix2 r 0)
        + ∑ kk : Fin 512, Ideal.exp (tileScore x0 x1 x3 3 r kk - hdM_3 (F := Ideal) x0 x1 x3 m (ix2 r 0)) := by
  rw [hdM_3_eq]
  unfold hdL_3
  rw [k1_pay58_apply, k1_pay54_apply, k1_pay52_apply]
  refine congrArg (fun s : EReal => Ideal.exp (m (ix2 r 0) - k1_pay51 (F := Ideal) (k1_pay17 x0) (k1_pay18 x1) (k1_pay20 (F := Ideal) x3) m (ix2 r 0)) * l (ix2 r 0) + s)
    (Finset.sum_congr rfl fun kk _ => ?_)
  rw [k1_pay53_apply, castScore_tile]

theorem hdA_3_apply :
    hdA_3 (F := Ideal) x0 x1 x2 x3 m a (ix2 r d)
      = Ideal.exp (m (ix2 r 0) - hdM_3 (F := Ideal) x0 x1 x3 m (ix2 r 0)) * a (ix2 r d)
        + ∑ kk : Fin 512, Ideal.exp (tileScore x0 x1 x3 3 r kk - hdM_3 (F := Ideal) x0 x1 x3 m (ix2 r 0)) * tileVal x2 3 d kk := by
  rw [hdM_3_eq]
  unfold hdA_3
  rw [k1_pay56_apply, k1_pay52_apply, k1_pay55_apply]
  refine congrArg (fun s : EReal => Ideal.exp (m (ix2 r 0) - k1_pay51 (F := Ideal) (k1_pay17 x0) (k1_pay18 x1) (k1_pay20 (F := Ideal) x3) m (ix2 r 0)) * a (ix2 r d) + s)
    (Finset.sum_congr rfl fun kk _ => ?_)
  rw [k1_pay53_apply, castScore_tile, k1_pay19_apply]
  rfl

theorem hdM_4_eq :
    hdM_4 (F := Ideal) x0 x1 x3 m = k1_pay60 (F := Ideal) (k1_pay17 x0) (k1_pay18 x1) (k1_pay20 (F := Ideal) x3) m := by
  unfold hdM_4
  exact k1_pay66_apply _

theorem hdM_4_apply :
    hdM_4 (F := Ideal) x0 x1 x3 m (ix2 r 0)
      = max (m (ix2 r 0)) (OnlineSoftmax.rowMax fun kk => tileScore x0 x1 x3 4 r kk) := by
  rw [hdM_4_eq, k1_pay60_apply]
  exact congrArg (fun f : Fin 512 → EReal => max (m (ix2 r 0)) (OnlineSoftmax.rowMax f))
    (funext fun kk => castScore_tile x0 x1 x3 4 r kk)

theorem hdL_4_apply :
    hdL_4 (F := Ideal) x0 x1 x3 m l (ix2 r 0)
      = Ideal.exp (m (ix2 r 0) - hdM_4 (F := Ideal) x0 x1 x3 m (ix2 r 0)) * l (ix2 r 0)
        + ∑ kk : Fin 512, Ideal.exp (tileScore x0 x1 x3 4 r kk - hdM_4 (F := Ideal) x0 x1 x3 m (ix2 r 0)) := by
  rw [hdM_4_eq]
  unfold hdL_4
  rw [k1_pay67_apply, k1_pay63_apply, k1_pay61_apply]
  refine congrArg (fun s : EReal => Ideal.exp (m (ix2 r 0) - k1_pay60 (F := Ideal) (k1_pay17 x0) (k1_pay18 x1) (k1_pay20 (F := Ideal) x3) m (ix2 r 0)) * l (ix2 r 0) + s)
    (Finset.sum_congr rfl fun kk _ => ?_)
  rw [k1_pay62_apply, castScore_tile]

theorem hdA_4_apply :
    hdA_4 (F := Ideal) x0 x1 x2 x3 m a (ix2 r d)
      = Ideal.exp (m (ix2 r 0) - hdM_4 (F := Ideal) x0 x1 x3 m (ix2 r 0)) * a (ix2 r d)
        + ∑ kk : Fin 512, Ideal.exp (tileScore x0 x1 x3 4 r kk - hdM_4 (F := Ideal) x0 x1 x3 m (ix2 r 0)) * tileVal x2 4 d kk := by
  rw [hdM_4_eq]
  unfold hdA_4
  rw [k1_pay65_apply, k1_pay61_apply, k1_pay64_apply]
  refine congrArg (fun s : EReal => Ideal.exp (m (ix2 r 0) - k1_pay60 (F := Ideal) (k1_pay17 x0) (k1_pay18 x1) (k1_pay20 (F := Ideal) x3) m (ix2 r 0)) * a (ix2 r d) + s)
    (Finset.sum_congr rfl fun kk _ => ?_)
  rw [k1_pay62_apply, castScore_tile, k1_pay19_apply]
  rfl

end Cert.KernelIdeal.HandValue

end
-- ==== Proof.PayC.lean ====
-- The body's values for heads 5, 6 and 7, and the final normalisation and output projection, read at an index.
import proofs.«416084_j63617055588838_3_alg».proof.Proof.Gen.KernelIdeal.Skeleton
import proofs.«416084_j63617055588838_3_alg».proof.Proof.PayA
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.HandValue

open Cert.KernelIdeal Cert.KernelIdeal.Gen Idealize.ShloMosaic Idealize.ShloMosaic.ValueIdx

open PayA

namespace PayC

theorem lift_row (h : S1024x512.Reduces [1] S1024) (r : Fin 1024) (k : Fin 512) :
    h.lift (ix1 r) k = ix2 r k := by
  funext c
  apply Fin.ext
  match c with
  | ⟨0, _⟩ => rfl
  | ⟨1, _⟩ => rfl

theorem rowMax_apply (src : FVec Ideal S1024x512 .f32) (h : S1024x512.Reduces [1] S1024) (r : Fin 1024) :
    multiReduction (F := Ideal) .maximumf [1] S1024 src 0xFF800000#32 h (.inl rfl) rfl (ix1 r)
      = OnlineSoftmax.rowMax fun kk : Fin 512 => src (ix2 r kk) := by
  refine (Ideal.multiReduction_maximumf_single src _ h _ _ (ix1 r)).trans ?_
  show (Finset.univ : Finset (Fin 512)).fold max (Ideal.ofBits .f32 0xFF800000#32) (src ∘ h.lift (ix1 r)) = _
  rw [ofBits_neg_inf]
  have hf : (src ∘ h.lift (ix1 r)) = fun kk : Fin 512 => src (ix2 r kk) :=
    funext fun kk => congrArg src (lift_row h r kk)
  rw [hf]
  rfl

theorem rowSum_apply (src : FVec Ideal S1024x512 .f32) (h : S1024x512.Reduces [1] S1024) (r : Fin 1024) :
    multiReduction (F := Ideal) .add [1] S1024 src 0x00000000#32 h (.inl rfl) rfl (ix1 r)
      = ∑ kk : Fin 512, src (ix2 r kk) := by
  refine (Ideal.multiReduction_add_single src _ h _ _ (ix1 r)).trans ?_
  show (∑ k : Fin 512, src (h.lift (ix1 r) k)) = _
  exact Finset.sum_congr rfl fun kk _ => congrArg src (lift_row h r kk)

theorem lhs_pj_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_pj_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_pj_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_pj_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

theorem proj_matmul_apply (N : FVec Ideal S1024x512 .bf16) (W : FVec Ideal S512x512 .bf16) (r : Fin 1024) (o : Fin 512) :
    matmul dot_S1024x512_S512x512_S1024x512_1_0_0_1_n_n none N W (constant (F := Ideal) S1024x512 .f32 0x00000000#32) (ix2 r o)
      = ∑ c : Fin 512, N (ix2 r c) * W (ix2 c o) := by
  refine (Ideal.matmul_constant_zero_apply dot_S1024x512_S512x512_S1024x512_1_0_0_1_n_n none N W (ix2 r o)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o) ((contrEquiv1 dot_S1024x512_S512x512_S1024x512_1_0_0_1_n_n 512 rfl rfl).symm k) = ix2 r k := funext fun a => Fin.ext (by
    match a with
    | ⟨0, _⟩ => exact lhs_pj_0 _ _
    | ⟨1, _⟩ => exact (lhs_pj_1 _ _).trans hk)
  have er : dot_S1024x512_S512x512_S1024x512_1_0_0_1_n_n.rhsIdx (ix2 r o) ((contrEquiv1 dot_S1024x512_S512x512_S1024x512_1_0_0_1_n_n 512 rfl rfl).symm k) = ix2 k o := funext fun a => Fin.ext (by
    match a with
    | ⟨0, _⟩ => exact (rhs_pj_0 _ _).trans hk
    | ⟨1, _⟩ => exact rhs_pj_1 _ _)
  rw [el, er]

end PayC

open PayC

variable (p : Fin 8 → S1024x64.Idx → EReal) (v312 : Vec Ideal S1024x8 .f32) (v4 : FVec Ideal S1024x512 .bf16) (v6 : FVec Ideal S512x512 .bf16) (v8 : FVec Ideal S512x512 .bf16) (v12 : IVec S1024x512 1) (v280 : Vec Ideal S1024x1 .f32) (v243 : Vec Ideal S1024x1 .f32) (v206 : Vec Ideal S1024x1 .f32) (h : Fin 8) (r : Fin 1024) (c : Fin 512) (d : Fin 64) (kk : Fin 512)

def castScore' : EReal :=
  if v12 (ix2 r kk) = 1#1 then ⊥
  else (∑ d : Fin 64, v4 (ix2 r (hcol h d)) * v6 (ix2 kk (hcol h d))) * Ideal.ofBits .f32 0x3E000000#32

namespace PayC

theorem score_apply (o : ℕ) (h : Fin 8) (ho : ∀ d : Fin 64, (hcol h d).val = o + d.val)
    (v4 : FVec Ideal S1024x512 .bf16) (v6 : FVec Ideal S512x512 .bf16) (v12 : IVec S1024x512 1)
    (hq : S1024x512.Slices ![0, o] S1024x64) (hk : S512x512.Slices ![0, o] S512x64) (r : Fin 1024) (kk : Fin 512) :
    select v12 (broadcast S1024x512 (Named.named (F := Ideal) κ "neg_big" (φ := .f32) 0xFF333333#32))
      (mulf (matmul dot_S1024x64_S512x64_S1024x512_1_1_0_0_n_n none (extractStridedSlice S1024x64 ![0, o] v4 hq)
          (extractStridedSlice S512x64 ![0, o] v6 hk) (constant (F := Ideal) S1024x512 .f32 0x00000000#32))
        (broadcast S1024x512 (Scalar.ofBits (F := Ideal) .f32 0x3E000000#32))) (ix2 r kk)
      = castScore' v4 v6 v12 h r kk := by
  unfold castScore'
  rw [select_apply]
  by_cases hm : v12 (ix2 r kk) = 1#1
  · rw [if_pos hm, hm, select_one]
    exact neg_big
  · rw [if_neg hm, eq_zero_of_ne_one hm, select_zero, mulf_apply, scores_matmul_apply]
    refine congrArg₂ (· * ·) (Finset.sum_congr rfl fun d _ => ?_) rfl
    rw [slice2_axis1_apply o v4 hq r d (hcol h d) (ho d), slice2_axis1_apply o v6 hk kk d (hcol h d) (ho d)]

theorem newmax_apply (S : FVec Ideal S1024x512 .f32) (m : FVec Ideal S1024x1 .f32) (hr : S1024x512.Reduces [1] S1024)
    (hc : S1024.ShapeCasts S1024x1) (r : Fin 1024) (sc : Fin 512 → EReal) (hS : ∀ kk, S (ix2 r kk) = sc kk) :
    maximumf m (shapeCast S1024x1 (multiReduction (F := Ideal) .maximumf [1] S1024 S 0xFF800000#32 hr (.inl rfl) rfl) hc)
        (ix2 r (0 : Fin 1))
      = max (m (ix2 r (0 : Fin 1))) (OnlineSoftmax.rowMax sc) := by
  rw [maximumf_apply, shapeCast_a_a1_apply, rowMax_apply, show (fun kk : Fin 512 => S (ix2 r kk)) = sc from funext hS]

theorem weights_apply (S : FVec Ideal S1024x512 .f32) (mn : FVec Ideal S1024x1 .f32) (hb : S1024x1.Broadcasts S1024x512)
    (r : Fin 1024) (kk : Fin 512) :
    exp (subf S (broadcastTo S1024x512 mn hb)) (ix2 r kk) = Ideal.exp (S (ix2 r kk) - mn (ix2 r (0 : Fin 1))) := by
  show Ideal.exp (S (ix2 r kk) - broadcastTo S1024x512 mn hb (ix2 r kk)) = _
  rw [broadcastTo_a1_ab_apply]

theorem newden_apply (a l : FVec Ideal S1024x1 .f32) (P : FVec Ideal S1024x512 .f32) (hr : S1024x512.Reduces [1] S1024)
    (hc : S1024.ShapeCasts S1024x1) (r : Fin 1024) :
    addf (mulf a l) (shapeCast S1024x1 (multiReduction (F := Ideal) .add [1] S1024 P 0x00000000#32 hr (.inl rfl) rfl) hc)
        (ix2 r (0 : Fin 1))
      = a (ix2 r (0 : Fin 1)) * l (ix2 r (0 : Fin 1)) + ∑ kk : Fin 512, P (ix2 r kk) := by
  rw [addf_apply, mulf_apply, shapeCast_a_a1_apply, rowSum_apply]

theorem pv_slice_apply (o : ℕ) (h : Fin 8) (ho : ∀ d : Fin 64, (hcol h d).val = o + d.val)
    (P : FVec Ideal S1024x512 .f32) (hb : FTy.bits .bf16 < FTy.bits .f32) (v8 : FVec Ideal S512x512 .bf16)
    (hs : S512x512.Slices ![0, o] S512x64) (r : Fin 1024) (d : Fin 64) :
    matmul dot_S1024x512_S512x64_S1024x64_1_0_0_1_n_n none (truncf .bf16 P hb) (extractStridedSlice S512x64 ![0, o] v8 hs)
        (constant (F := Ideal) S1024x64 .f32 0x00000000#32) (ix2 r d)
      = ∑ kk : Fin 512, P (ix2 r kk) * v8 (ix2 kk (hcol h d)) := by
  refine (pv_matmul_apply _ _ r d).trans (Finset.sum_congr rfl fun kk _ => ?_)
  rw [truncf_apply, slice2_axis1_apply o v8 hs kk d (hcol h d) (ho d)]

theorem newacc_apply (o : ℕ) (h : Fin 8) (ho : ∀ d : Fin 64, (hcol h d).val = o + d.val)
    (a : FVec Ideal S1024x1 .f32) (hbc : S1024x1.Broadcasts S1024x64) (acc : FVec Ideal S1024x64 .f32)
    (P : FVec Ideal S1024x512 .f32) (hb : FTy.bits .bf16 < FTy.bits .f32) (v8 : FVec Ideal S512x512 .bf16)
    (hs : S512x512.Slices ![0, o] S512x64) (r : Fin 1024) (d : Fin 64) :
    addf (mulf (broadcastTo S1024x64 a hbc) acc)
        (matmul dot_S1024x512_S512x64_S1024x64_1_0_0_1_n_n none (truncf .bf16 P hb) (extractStridedSlice S512x64 ![0, o] v8 hs)
          (constant (F := Ideal) S1024x64 .f32 0x00000000#32)) (ix2 r d)
      = a (ix2 r (0 : Fin 1)) * acc (ix2 r d) + ∑ kk : Fin 512, P (ix2 r kk) * v8 (ix2 kk (hcol h d)) := by
  rw [addf_apply, mulf_apply, broadcastTo_a1_ab_apply, pv_slice_apply o h ho]

end PayC

theorem k1_pay68_apply :
    k1_pay68 (F := Ideal) v4 v6 v12 (ix2 r kk) = castScore' v4 v6 v12 5 r kk := by
  unfold k1_pay68
  exact score_apply 320 5 (fun _ => rfl) v4 v6 v12 _ _ r kk

theorem k1_pay69_apply :
    k1_pay69 (F := Ideal) v4 v6 v12 v206 (ix2 r (0 : Fin 1))
      = max (v206 (ix2 r (0 : Fin 1))) (OnlineSoftmax.rowMax fun kk => castScore' v4 v6 v12 5 r kk) := by
  unfold k1_pay69
  exact newmax_apply _ _ _ _ r _ fun kk => k1_pay68_apply v4 v6 v12 r kk

theorem k1_pay70_apply :
    k1_pay70 (F := Ideal) v4 v6 v12 v206 (ix2 r (0 : Fin 1))
      = Ideal.exp (v206 (ix2 r (0 : Fin 1)) - k1_pay69 (F := Ideal) v4 v6 v12 v206 (ix2 r (0 : Fin 1))) := rfl

theorem k1_pay71_apply :
    k1_pay71 (F := Ideal) v4 v6 v12 v206 (ix2 r kk)
      = Ideal.exp (castScore' v4 v6 v12 5 r kk - k1_pay69 (F := Ideal) v4 v6 v12 v206 (ix2 r (0 : Fin 1))) := by
  unfold k1_pay71
  rw [weights_apply, k1_pay68_apply]

theorem k1_pay72_apply (v207 : Vec Ideal S1024x1 .f32) (r : Fin 1024) :
    k1_pay72 (F := Ideal) v4 v6 v12 v206 v207 (ix2 r (0 : Fin 1))
      = k1_pay70 (F := Ideal) v4 v6 v12 v206 (ix2 r (0 : Fin 1)) * v207 (ix2 r (0 : Fin 1))
        + ∑ kk : Fin 512, k1_pay71 (F := Ideal) v4 v6 v12 v206 (ix2 r kk) := by
  unfold k1_pay72
  exact newden_apply _ _ _ _ _ r

theorem k1_pay73_apply :
    k1_pay73 (F := Ideal) v4 v6 v8 v12 v206 (ix2 r d)
      = ∑ kk : Fin 512, k1_pay71 (F := Ideal) v4 v6 v12 v206 (ix2 r kk) * v8 (ix2 kk (hcol 5 d)) := by
  unfold k1_pay73
  exact pv_slice_apply 320 5 (fun _ => rfl) _ _ v8 _ r d

theorem k1_pay74_apply :
    k1_pay74 (F := Ideal) v4 v6 v12 v206 (ix2 r d) = k1_pay70 (F := Ideal) v4 v6 v12 v206 (ix2 r (0 : Fin 1)) := by
  unfold k1_pay74
  exact broadcastTo_a1_ab_apply _ _ r d

theorem k1_pay75_apply (v221 : FVec Ideal S1024x64 .f32) (v222 : Vec Ideal S1024x64 .f32) (v223 : FVec Ideal S1024x64 .f32)
    (r : Fin 1024) (d : Fin 64) :
    k1_pay75 (F := Ideal) v221 v222 v223 (ix2 r d) = v223 (ix2 r d) * v222 (ix2 r d) + v221 (ix2 r d) := by
  unfold k1_pay75
  rw [shapeCast_self]
  rfl

theorem k1_pay76_apply (v210 : FVec Ideal S1024x1 .f32) : k1_pay76 (F := Ideal) v210 = v210 := by
  unfold k1_pay76
  exact shapeCast_self _ _

theorem k1_pay77_apply (v219 : FVec Ideal S1024x1 .f32) : k1_pay77 (F := Ideal) v219 = v219 := by
  unfold k1_pay77
  exact shapeCast_self _ _

theorem k1_pay78_apply :
    k1_pay78 (F := Ideal) v4 v6 v12 (ix2 r kk) = castScore' v4 v6 v12 6 r kk := by
  unfold k1_pay78
  exact score_apply 384 6 (fun _ => rfl) v4 v6 v12 _ _ r kk

theorem k1_pay79_apply :
    k1_pay79 (F := Ideal) v4 v6 v12 v243 (ix2 r (0 : Fin 1))
      = max (v243 (ix2 r (0 : Fin 1))) (OnlineSoftmax.rowMax fun kk => castScore' v4 v6 v12 6 r kk) := by
  unfold k1_pay79
  exact newmax_apply _ _ _ _ r _ fun kk => k1_pay78_apply v4 v6 v12 r kk

theorem k1_pay80_apply :
    k1_pay80 (F := Ideal) v4 v6 v12 v243 (ix2 r (0 : Fin 1))
      = Ideal.exp (v243 (ix2 r (0 : Fin 1)) - k1_pay79 (F := Ideal) v4 v6 v12 v243 (ix2 r (0 : Fin 1))) := rfl

theorem k1_pay81_apply :
    k1_pay81 (F := Ideal) v4 v6 v12 v243 (ix2 r kk)
      = Ideal.exp (castScore' v4 v6 v12 6 r kk - k1_pay79 (F := Ideal) v4 v6 v12 v243 (ix2 r (0 : Fin 1))) := by
  unfold k1_pay81
  rw [weights_apply, k1_pay78_apply]

theorem k1_pay82_apply (v244 : Vec Ideal S1024x1 .f32) (r : Fin 1024) :
    k1_pay82 (F := Ideal) v4 v6 v12 v243 v244 (ix2 r (0 : Fin 1))
      = k1_pay80 (F := Ideal) v4 v6 v12 v243 (ix2 r (0 : Fin 1)) * v244 (ix2 r (0 : Fin 1))
        + ∑ kk : Fin 512, k1_pay81 (F := Ideal) v4 v6 v12 v243 (ix2 r kk) := by
  unfold k1_pay82
  exact newden_apply _ _ _ _ _ r

theorem k1_pay83_apply (v259 : Vec Ideal S1024x64 .f32) (r : Fin 1024) (d : Fin 64) :
    k1_pay83 (F := Ideal) v4 v6 v8 v12 v243 v259 (ix2 r d)
      = k1_pay80 (F := Ideal) v4 v6 v12 v243 (ix2 r (0 : Fin 1)) * v259 (ix2 r d)
        + ∑ kk : Fin 512, k1_pay81 (F := Ideal) v4 v6 v12 v243 (ix2 r kk) * v8 (ix2 kk (hcol 6 d)) := by
  unfold k1_pay83
  exact newacc_apply 384 6 (fun _ => rfl) _ _ v259 _ _ v8 _ r d

theorem k1_pay84_apply (v262 : FVec Ideal S1024x64 .f32) : k1_pay84 (F := Ideal) v262 = v262 := by
  unfold k1_pay84
  exact shapeCast_self _ _

theorem k1_pay85_apply (v247 : FVec Ideal S1024x1 .f32) : k1_pay85 (F := Ideal) v247 = v247 := by
  unfold k1_pay85
  exact shapeCast_self _ _

theorem k1_pay86_apply (v256 : FVec Ideal S1024x1 .f32) : k1_pay86 (F := Ideal) v256 = v256 := by
  unfold k1_pay86
  exact shapeCast_self _ _

theorem k1_pay87_apply :
    k1_pay87 (F := Ideal) v4 v6 v12 (ix2 r kk) = castScore' v4 v6 v12 7 r kk := by
  unfold k1_pay87
  exact score_apply 448 7 (fun _ => rfl) v4 v6 v12 _ _ r kk

theorem k1_pay88_apply :
    k1_pay88 (F := Ideal) v4 v6 v12 v280 (ix2 r (0 : Fin 1))
      = max (v280 (ix2 r (0 : Fin 1))) (OnlineSoftmax.rowMax fun kk => castScore' v4 v6 v12 7 r kk) := by
  unfold k1_pay88
  exact newmax_apply _ _ _ _ r _ fun kk => k1_pay87_apply v4 v6 v12 r kk

theorem k1_pay89_apply :
    k1_pay89 (F := Ideal) v4 v6 v12 v280 (ix2 r (0 : Fin 1))
      = Ideal.exp (v280 (ix2 r (0 : Fin 1)) - k1_pay88 (F := Ideal) v4 v6 v12 v280 (ix2 r (0 : Fin 1))) := rfl

theorem k1_pay90_apply :
    k1_pay90 (F := Ideal) v4 v6 v12 v280 (ix2 r kk)
      = Ideal.exp (castScore' v4 v6 v12 7 r kk - k1_pay88 (F := Ideal) v4 v6 v12 v280 (ix2 r (0 : Fin 1))) := by
  unfold k1_pay90
  rw [weights_apply, k1_pay87_apply]

theorem k1_pay91_apply (v281 : Vec Ideal S1024x1 .f32) (r : Fin 1024) :
    k1_pay91 (F := Ideal) v4 v6 v12 v280 v281 (ix2 r (0 : Fin 1))
      = k1_pay89 (F := Ideal) v4 v6 v12 v280 (ix2 r (0 : Fin 1)) * v281 (ix2 r (0 : Fin 1))
        + ∑ kk : Fin 512, k1_pay90 (F := Ideal) v4 v6 v12 v280 (ix2 r kk) := by
  unfold k1_pay91
  exact newden_apply _ _ _ _ _ r

theorem k1_pay92_apply (v296 : Vec Ideal S1024x64 .f32) (r : Fin 1024) (d : Fin 64) :
    k1_pay92 (F := Ideal) v4 v6 v8 v12 v280 v296 (ix2 r d)
      = k1_pay89 (F := Ideal) v4 v6 v12 v280 (ix2 r (0 : Fin 1)) * v296 (ix2 r d)
        + ∑ kk : Fin 512, k1_pay90 (F := Ideal) v4 v6 v12 v280 (ix2 r kk) * v8 (ix2 kk (hcol 7 d)) := by
  unfold k1_pay92
  exact newacc_apply 448 7 (fun _ => rfl) _ _ v296 _ _ v8 _ r d

theorem k1_pay1_apply (v299 : FVec Ideal S1024x64 .f32) : k1_pay1 (F := Ideal) v299 = v299 := by
  unfold k1_pay1
  exact shapeCast_self _ _

theorem k1_pay2_apply (v284 : FVec Ideal S1024x1 .f32) : k1_pay2 (F := Ideal) v284 = v284 := by
  unfold k1_pay2
  exact shapeCast_self _ _

theorem k1_pay3_apply (v293 : FVec Ideal S1024x1 .f32) : k1_pay3 (F := Ideal) v293 = v293 := by
  unfold k1_pay3
  exact shapeCast_self _ _

theorem k1_pay5_apply (h : Fin 8) :
    k1_pay5 (F := Ideal) v312 (ix2 r h) = Ideal.div (Ideal.ofBits .f32 0x3F800000#32) (v312 (ix2 r h)) := rfl

namespace PayC

theorem norm_apply (inv : FVec Ideal S1024x8 .f32) (o : ℕ) (h : Fin 8) (ho : h.val = o) (hs : S1024x8.Slices ![0, o] S1024x1)
    (hbc : S1024x1.Broadcasts S1024x64) (acc : FVec Ideal S1024x64 .f32) (hb : FTy.bits .bf16 < FTy.bits .f32)
    (r : Fin 1024) (d : Fin 64) :
    truncf .bf16 (mulf acc (broadcastTo S1024x64 (extractStridedSlice S1024x1 ![0, o] inv hs) hbc)) hb (ix2 r d)
      = acc (ix2 r d) * inv (ix2 r h) := by
  rw [truncf_apply, mulf_apply, broadcastTo_a1_ab_apply, slice2_axis1_apply o inv hs r (0 : Fin 1) h ho]

end PayC

theorem k1_pay6_apply (v315 : Vec Ideal S1024x64 .f32) (r : Fin 1024) (d : Fin 64) :
    k1_pay6 (F := Ideal) v312 v315 (ix2 r d) = v315 (ix2 r d) * k1_pay5 (F := Ideal) v312 (ix2 r (0 : Fin 8)) := by
  unfold k1_pay6
  exact norm_apply (k1_pay5 (F := Ideal) v312) 0 0 rfl _ _ v315 _ r d

theorem k1_pay7_apply (v320 : Vec Ideal S1024x64 .f32) (r : Fin 1024) (d : Fin 64) :
    k1_pay7 (F := Ideal) v312 v320 (ix2 r d) = v320 (ix2 r d) * k1_pay5 (F := Ideal) v312 (ix2 r (1 : Fin 8)) := by
  unfold k1_pay7
  exact norm_apply (k1_pay5 (F := Ideal) v312) 1 1 rfl _ _ v320 _ r d

theorem k1_pay8_apply (v325 : Vec Ideal S1024x64 .f32) (r : Fin 1024) (d : Fin 64) :
    k1_pay8 (F := Ideal) v312 v325 (ix2 r d) = v325 (ix2 r d) * k1_pay5 (F := Ideal) v312 (ix2 r (2 : Fin 8)) := by
  unfold k1_pay8
  exact norm_apply (k1_pay5 (F := Ideal) v312) 2 2 rfl _ _ v325 _ r d

theorem k1_pay9_apply (v330 : Vec Ideal S1024x64 .f32) (r : Fin 1024) (d : Fin 64) :
    k1_pay9 (F := Ideal) v312 v330 (ix2 r d) = v330 (ix2 r d) * k1_pay5 (F := Ideal) v312 (ix2 r (3 : Fin 8)) := by
  unfold k1_pay9
  exact norm_apply (k1_pay5 (F := Ideal) v312) 3 3 rfl _ _ v330 _ r d

theorem k1_pay10_apply (v335 : Vec Ideal S1024x64 .f32) (r : Fin 1024) (d : Fin 64) :
    k1_pay10 (F := Ideal) v312 v335 (ix2 r d) = v335 (ix2 r d) * k1_pay5 (F := Ideal) v312 (ix2 r (4 : Fin 8)) := by
  unfold k1_pay10
  exact norm_apply (k1_pay5 (F := Ideal) v312) 4 4 rfl _ _ v335 _ r d

theorem k1_pay11_apply (v340 : Vec Ideal S1024x64 .f32) (r : Fin 1024) (d : Fin 64) :
    k1_pay11 (F := Ideal) v312 v340 (ix2 r d) = v340 (ix2 r d) * k1_pay5 (F := Ideal) v312 (ix2 r (5 : Fin 8)) := by
  unfold k1_pay11
  exact norm_apply (k1_pay5 (F := Ideal) v312) 5 5 rfl _ _ v340 _ r d

theorem k1_pay12_apply (v345 : Vec Ideal S1024x64 .f32) (r : Fin 1024) (d : Fin 64) :
    k1_pay12 (F := Ideal) v312 v345 (ix2 r d) = v345 (ix2 r d) * k1_pay5 (F := Ideal) v312 (ix2 r (6 : Fin 8)) := by
  unfold k1_pay12
  exact norm_apply (k1_pay5 (F := Ideal) v312) 6 6 rfl _ _ v345 _ r d

theorem k1_pay13_apply :
    k1_pay13 (F := Ideal) v312 (ix2 r d) = k1_pay5 (F := Ideal) v312 (ix2 r (7 : Fin 8)) := by
  unfold k1_pay13
  rw [broadcastTo_a1_ab_apply, slice2_axis1_apply 7 (k1_pay5 (F := Ideal) v312) _ r (0 : Fin 1) (7 : Fin 8) rfl]

def cat8 : EReal :=
  p ⟨c.val / 64, by have := c.isLt; omega⟩ (ix2 r ⟨c.val % 64, Nat.mod_lt _ (by decide)⟩)

theorem cat8_eq (k : Fin 8) (hk : c.val / 64 = k.val) :
    cat8 p r c = p k (ix2 r ⟨c.val % 64, Nat.mod_lt _ (by decide)⟩) := by
  have hq : (⟨c.val / 64, by have := c.isLt; omega⟩ : Fin 8) = k := Fin.ext hk
  unfold cat8
  rw [hq]

namespace PayC

theorem concat8_piece (xs : List ((s : Shape) × (s.Idx → EReal))) (h : Shape.Concatenates (xs.map (·.1)) S1024x512 1)
    (k : ℕ) (hk : k < xs.length) (x : S1024x64.Idx → EReal) (hxk : xs[k] = ⟨S1024x64, x⟩)
    (hpre : (((xs.take k).map (·.1)).map fun s => if h : s.rank = S1024x512.rank then s.size ((1 : Fin S1024x512.rank).cast h.symm) else 0).sum = 64 * k)
    (r : Fin 1024) (c : Fin 512) (hck : c.val / 64 = k) :
    concatenate S1024x512 1 xs h (ix2 r c) = x (ix2 r ⟨c.val % 64, Nat.mod_lt _ (by decide)⟩) := by
  refine concatenate_apply_piece (1 : Fin S1024x512.rank) xs h (ix2 r c) k hk S1024x64 x hxk rfl (64 * k) hpre
    (ix2 r ⟨c.val % 64, Nat.mod_lt _ (by decide)⟩) (fun b hb => ?_) ?_
  · match b with
    | ⟨0, _⟩ => rfl
    | ⟨1, _⟩ => exact absurd rfl hb
  · show 64 * k + c.val % 64 = c.val
    omega

theorem concat8_apply (p0 p1 p2 p3 p4 p5 p6 p7 : S1024x64.Idx → EReal)
    (h : Shape.Concatenates [S1024x64, S1024x64, S1024x64, S1024x64, S1024x64, S1024x64, S1024x64, S1024x64] S1024x512 1)
    (r : Fin 1024) (c : Fin 512) :
    concatenate S1024x512 1 [⟨S1024x64, p0⟩, ⟨S1024x64, p1⟩, ⟨S1024x64, p2⟩, ⟨S1024x64, p3⟩, ⟨S1024x64, p4⟩, ⟨S1024x64, p5⟩,
        ⟨S1024x64, p6⟩, ⟨S1024x64, p7⟩] h (ix2 r c)
      = cat8 ![p0, p1, p2, p3, p4, p5, p6, p7] r c := by
  have hc := c.isLt
  have h8 : c.val / 64 = 0 ∨ c.val / 64 = 1 ∨ c.val / 64 = 2 ∨ c.val / 64 = 3 ∨ c.val / 64 = 4 ∨ c.val / 64 = 5
      ∨ c.val / 64 = 6 ∨ c.val / 64 = 7 := by omega
  have key := concat8_piece [⟨S1024x64, p0⟩, ⟨S1024x64, p1⟩, ⟨S1024x64, p2⟩, ⟨S1024x64, p3⟩, ⟨S1024x64, p4⟩, ⟨S1024x64, p5⟩,
    ⟨S1024x64, p6⟩, ⟨S1024x64, p7⟩] h
  rcases h8 with e | e | e | e | e | e | e | e
  · exact (key 0 (by show (0 : ℕ) < 8; decide) p0 rfl rfl r c e).trans (cat8_eq ![p0, p1, p2, p3, p4, p5, p6, p7] r c 0 e).symm
  · exact (key 1 (by show (1 : ℕ) < 8; decide) p1 rfl rfl r c e).trans (cat8_eq ![p0, p1, p2, p3, p4, p5, p6, p7] r c 1 e).symm
  · exact (key 2 (by show (2 : ℕ) < 8; decide) p2 rfl rfl r c e).trans (cat8_eq ![p0, p1, p2, p3, p4, p5, p6, p7] r c 2 e).symm
  · exact (key 3 (by show (3 : ℕ) < 8; decide) p3 rfl rfl r c e).trans (cat8_eq ![p0, p1, p2, p3, p4, p5, p6, p7] r c 3 e).symm
  · exact (key 4 (by show (4 : ℕ) < 8; decide) p4 rfl rfl r c e).trans (cat8_eq ![p0, p1, p2, p3, p4, p5, p6, p7] r c 4 e).symm
  · exact (key 5 (by show (5 : ℕ) < 8; decide) p5 rfl rfl r c e).trans (cat8_eq ![p0, p1, p2, p3, p4, p5, p6, p7] r c 5 e).symm
  · exact (key 6 (by show (6 : ℕ) < 8; decide) p6 rfl rfl r c e).trans (cat8_eq ![p0, p1, p2, p3, p4, p5, p6, p7] r c 6 e).symm
  · exact (key 7 (by show (7 : ℕ) < 8; decide) p7 rfl rfl r c e).trans (cat8_eq ![p0, p1, p2, p3, p4, p5, p6, p7] r c 7 e).symm

end PayC

theorem k1_pay4_apply (v319 v324 v329 v334 v339 v344 v349 : FVec Ideal S1024x64 .bf16) (v350 : Vec Ideal S1024x64 .f32)
    (v352 : FVec Ideal S1024x64 .f32) (v356 : Vec Ideal S512x512 .bf16) (v359 : Vec Ideal S1x512 .f32)
    (r : Fin 1024) (o : Fin 512) :
    k1_pay4 (F := Ideal) v319 v324 v329 v334 v339 v344 v349 v350 v352 v356 v359 (ix3 (0 : Fin 1) r o)
      = (∑ c : Fin 512, cat8 ![v319, v324, v329, v334, v339, v344, v349, fun i => v350 i * v352 i] r c * v356 (ix2 c o))
        + v359 (ix2 (0 : Fin 1) o) := by
  unfold k1_pay4
  rw [shapeCast_ab_1ab_apply, addf_apply, broadcastTo_1b_ab_apply, shapeCast_self v359, shapeCast_self v356, proj_matmul_apply]
  refine congrArg (· + v359 (ix2 (0 : Fin 1) o)) (Finset.sum_congr rfl fun c _ => ?_)
  rw [concat8_apply]
  rfl

end Cert.KernelIdeal.HandValue

end
-- ==== Proof.HeadGlueC.lean ====
-- Heads 5, 6 and 7: one streaming-softmax step on the tile; and the output block is the normalised sums times the projection plus the bias.
import proofs.«416084_j63617055588838_3_alg».proof.Proof.HeadTerms
import proofs.«416084_j63617055588838_3_alg».proof.Proof.PayC
import proofs.«416084_j63617055588838_3_alg».proof.Proof.PayA
import proofs.«416084_j63617055588838_3_alg».proof.Proof.TileSpec
import Idealize.ShloMosaic.Lib.ValueIdx
import Idealize.ShloMosaic.Lib.ValueLayout
import Idealize.ShloMosaic.Lib.Pipeline.Value
import Idealize.ShloMosaic.Lib.Pipeline.FrameBody

noncomputable section

namespace Cert.KernelIdeal.HandValue

open Cert.KernelIdeal Cert.KernelIdeal.Gen Cert.KernelIdeal.Hand Idealize.ShloMosaic Idealize.ShloMosaic.ValueIdx

variable (s1 : Vec Ideal S1024x8 .f32) (s2 : Vec Ideal S1024x512 .f32) (x0 : Vec Ideal S1x1024x512 .bf16) (x1 : Vec Ideal S1x512x512 .bf16) (x2 : Vec Ideal S1x512x512 .bf16) (x3 : Vec Ideal S1x1024x512 .i32) (m : Vec Ideal S1024x1 .f32) (a : Vec Ideal S1024x64 .f32) (l : Vec Ideal S1024x1 .f32) (r : Fin 1024) (c : Fin 512) (d : Fin 64)

theorem castScore'_tile
    (h : Fin 8) (r : Fin 1024) (kk : Fin 512) :
    castScore' (k1_pay17 x0) (k1_pay18 x1) (k1_pay20 (F := Ideal) x3) h r kk = tileScore x0 x1 x3 h r kk :=
  tileScore2_tile x0 x1 x3 h r kk

theorem hdM_5_eq :
    Hand.hdM_5 (F := Ideal) x0 x1 x3 m = k1_pay69 (F := Ideal) (k1_pay17 x0) (k1_pay18 x1) (k1_pay20 (F := Ideal) x3) m := by
  unfold Hand.hdM_5
  exact k1_pay76_apply _

theorem hdM_5_apply :
    Cert.KernelIdeal.Hand.hdM_5 (F := Ideal) x0 x1 x3 m (ix2 r (0 : Fin 1))
      = max (m (ix2 r (0 : Fin 1))) (OnlineSoftmax.rowMax fun kk => tileScore x0 x1 x3 5 r kk) := by
  rw [hdM_5_eq, k1_pay69_apply]
  exact congrArg (fun f : Fin 512 → EReal => max (m (ix2 r (0 : Fin 1))) (OnlineSoftmax.rowMax f))
    (funext fun kk => castScore'_tile x0 x1 x3 5 r kk)

theorem hdL_5_apply :
    Cert.KernelIdeal.Hand.hdL_5 (F := Ideal) x0 x1 x3 m l (ix2 r (0 : Fin 1))
      = Ideal.exp (m (ix2 r (0 : Fin 1)) - Cert.KernelIdeal.Hand.hdM_5 (F := Ideal) x0 x1 x3 m (ix2 r (0 : Fin 1))) * l (ix2 r (0 : Fin 1))
        + ∑ kk : Fin 512, Ideal.exp (tileScore x0 x1 x3 5 r kk - Cert.KernelIdeal.Hand.hdM_5 (F := Ideal) x0 x1 x3 m (ix2 r (0 : Fin 1))) := by
  unfold Hand.hdL_5
  rw [hdM_5_eq, k1_pay77_apply, k1_pay72_apply, k1_pay70_apply]
  refine congrArg (_ + ·) (Finset.sum_congr rfl fun kk _ => ?_)
  rw [k1_pay71_apply, castScore'_tile]

theorem hdA_5_apply :
    Cert.KernelIdeal.Hand.hdA_5 (F := Ideal) x0 x1 x2 x3 m a (ix2 r d)
      = Ideal.exp (m (ix2 r (0 : Fin 1)) - Cert.KernelIdeal.Hand.hdM_5 (F := Ideal) x0 x1 x3 m (ix2 r (0 : Fin 1))) * a (ix2 r d)
        + ∑ kk : Fin 512, Ideal.exp (tileScore x0 x1 x3 5 r kk - Cert.KernelIdeal.Hand.hdM_5 (F := Ideal) x0 x1 x3 m (ix2 r (0 : Fin 1)))
            * tileVal x2 5 d kk := by
  unfold Hand.hdA_5
  rw [hdM_5_eq, k1_pay75_apply, k1_pay74_apply, k1_pay73_apply, k1_pay70_apply]
  refine congrArg (_ + ·) (Finset.sum_congr rfl fun kk _ => ?_)
  rw [k1_pay71_apply, castScore'_tile, k1_pay19_apply]
  rfl

theorem hdM_6_eq :
    Hand.hdM_6 (F := Ideal) x0 x1 x3 m = k1_pay79 (F := Ideal) (k1_pay17 x0) (k1_pay18 x1) (k1_pay20 (F := Ideal) x3) m := by
  unfold Hand.hdM_6
  exact k1_pay85_apply _

theorem hdM_6_apply :
    Cert.KernelIdeal.Hand.hdM_6 (F := Ideal) x0 x1 x3 m (ix2 r (0 : Fin 1))
      = max (m (ix2 r (0 : Fin 1))) (OnlineSoftmax.rowMax fun kk => tileScore x0 x1 x3 6 r kk) := by
  rw [hdM_6_eq, k1_pay79_apply]
  exact congrArg (fun f : Fin 512 → EReal => max (m (ix2 r (0 : Fin 1))) (OnlineSoftmax.rowMax f))
    (funext fun kk => castScore'_tile x0 x1 x3 6 r kk)

theorem hdL_6_apply :
    Cert.KernelIdeal.Hand.hdL_6 (F := Ideal) x0 x1 x3 m l (ix2 r (0 : Fin 1))
      = Ideal.exp (m (ix2 r (0 : Fin 1)) - Cert.KernelIdeal.Hand.hdM_6 (F := Ideal) x0 x1 x3 m (ix2 r (0 : Fin 1))) * l (ix2 r (0 : Fin 1))
        + ∑ kk : Fin 512, Ideal.exp (tileScore x0 x1 x3 6 r kk - Cert.KernelIdeal.Hand.hdM_6 (F := Ideal) x0 x1 x3 m (ix2 r (0 : Fin 1))) := by
  unfold Hand.hdL_6
  rw [hdM_6_eq, k1_pay86_apply, k1_pay82_apply, k1_pay80_apply]
  refine congrArg (_ + ·) (Finset.sum_congr rfl fun kk _ => ?_)
  rw [k1_pay81_apply, castScore'_tile]

theorem hdA_6_apply :
    Cert.KernelIdeal.Hand.hdA_6 (F := Ideal) x0 x1 x2 x3 m a (ix2 r d)
      = Ideal.exp (m (ix2 r (0 : Fin 1)) - Cert.KernelIdeal.Hand.hdM_6 (F := Ideal) x0 x1 x3 m (ix2 r (0 : Fin 1))) * a (ix2 r d)
        + ∑ kk : Fin 512, Ideal.exp (tileScore x0 x1 x3 6 r kk - Cert.KernelIdeal.Hand.hdM_6 (F := Ideal) x0 x1 x3 m (ix2 r (0 : Fin 1)))
            * tileVal x2 6 d kk := by
  unfold Hand.hdA_6
  rw [hdM_6_eq, k1_pay84_apply, k1_pay83_apply, k1_pay80_apply]
  refine congrArg (_ + ·) (Finset.sum_congr rfl fun kk _ => ?_)
  rw [k1_pay81_apply, castScore'_tile, k1_pay19_apply]
  rfl

theorem hdM_7_eq :
    Hand.hdM_7 (F := Ideal) x0 x1 x3 m = k1_pay88 (F := Ideal) (k1_pay17 x0) (k1_pay18 x1) (k1_pay20 (F := Ideal) x3) m := by
  unfold Hand.hdM_7
  exact k1_pay2_apply _

theorem hdM_7_apply :
    Cert.KernelIdeal.Hand.hdM_7 (F := Ideal) x0 x1 x3 m (ix2 r (0 : Fin 1))
      = max (m (ix2 r (0 : Fin 1))) (OnlineSoftmax.rowMax fun kk => tileScore x0 x1 x3 7 r kk) := by
  rw [hdM_7_eq, k1_pay88_apply]
  exact congrArg (fun f : Fin 512 → EReal => max (m (ix2 r (0 : Fin 1))) (OnlineSoftmax.rowMax f))
    (funext fun kk => castScore'_tile x0 x1 x3 7 r kk)

theorem hdL_7_apply :
    Cert.KernelIdeal.Hand.hdL_7 (F := Ideal) x0 x1 x3 m l (ix2 r (0 : Fin 1))
      = Ideal.exp (m (ix2 r (0 : Fin 1)) - Cert.KernelIdeal.Hand.hdM_7 (F := Ideal) x0 x1 x3 m (ix2 r (0 : Fin 1))) * l (ix2 r (0 : Fin 1))
        + ∑ kk : Fin 512, Ideal.exp (tileScore x0 x1 x3 7 r kk - Cert.KernelIdeal.Hand.hdM_7 (F := Ideal) x0 x1 x3 m (ix2 r (0 : Fin 1))) := by
  unfold Hand.hdL_7
  rw [hdM_7_eq, k1_pay3_apply, k1_pay91_apply, k1_pay89_apply]
  refine congrArg (_ + ·) (Finset.sum_congr rfl fun kk _ => ?_)
  rw [k1_pay90_apply, castScore'_tile]

theorem hdA_7_apply :
    Cert.KernelIdeal.Hand.hdA_7 (F := Ideal) x0 x1 x2 x3 m a (ix2 r d)
      = Ideal.exp (m (ix2 r (0 : Fin 1)) - Cert.KernelIdeal.Hand.hdM_7 (F := Ideal) x0 x1 x3 m (ix2 r (0 : Fin 1))) * a (ix2 r d)
        + ∑ kk : Fin 512, Ideal.exp (tileScore x0 x1 x3 7 r kk - Cert.KernelIdeal.Hand.hdM_7 (F := Ideal) x0 x1 x3 m (ix2 r (0 : Fin 1)))
            * tileVal x2 7 d kk := by
  unfold Hand.hdA_7
  rw [hdM_7_eq, k1_pay1_apply, k1_pay92_apply, k1_pay89_apply]
  refine congrArg (_ + ·) (Finset.sum_congr rfl fun kk _ => ?_)
  rw [k1_pay90_apply, castScore'_tile, k1_pay19_apply]
  rfl

theorem slc_idx_col (o : ℕ) (inb : ∀ a, (![0, o] : Fin 2 → ℕ) a + S1024x64.size a ≤ S1024x512.size a) (r : Fin 1024)
    (c : Fin 512) (hc : o + c.val % 64 = c.val) :
    (Rect.unit (s := S1024x512) ![0, o] S1024x64.size inb).idx (ix2 r ⟨c.val % 64, Nat.mod_lt _ (by decide)⟩) = ix2 r c := by
  funext a
  apply Fin.ext
  match a with
  | ⟨0, _⟩ => show 0 + 1 * r.val = r.val; omega
  | ⟨1, _⟩ => show o + 1 * (c.val % 64) = c.val; omega

theorem normed_cat :
    cat8 ![k1_pay6 (F := Ideal) s1 (View.ld s2 slcR0),
        k1_pay7 (F := Ideal) s1 (View.ld s2 slcR1),
        k1_pay8 (F := Ideal) s1 (View.ld s2 slcR2),
        k1_pay9 (F := Ideal) s1 (View.ld s2 slcR3),
        k1_pay10 (F := Ideal) s1 (View.ld s2 slcR4),
        k1_pay11 (F := Ideal) s1 (View.ld s2 slcR5),
        k1_pay12 (F := Ideal) s1 (View.ld s2 slcR6),
        fun i => View.ld s2 slcR7 i * k1_pay13 (F := Ideal) s1 i] r c
      = s2 (ix2 r c) * Ideal.div (Ideal.ofBits .f32 0x3F800000#32) (s1 (ix2 r ⟨c.val / 64, by have := c.isLt; omega⟩)) := by
  have hc := c.isLt
  have h8 : c.val / 64 = 0 ∨ c.val / 64 = 1 ∨ c.val / 64 = 2 ∨ c.val / 64 = 3 ∨ c.val / 64 = 4 ∨ c.val / 64 = 5
      ∨ c.val / 64 = 6 ∨ c.val / 64 = 7 := by omega
  rcases h8 with e | e | e | e | e | e | e | e
  · rw [cat8_eq _ r c 0 e]
    show k1_pay6 (F := Ideal) s1 (View.ld s2 slcR0) (ix2 r ⟨c.val % 64, _⟩) = _
    rw [k1_pay6_apply, k1_pay5_apply]
    exact congrArg₂ (fun (x : EReal) (j : Fin 8) => x * Ideal.div (Ideal.ofBits .f32 0x3F800000#32) (s1 (ix2 r j)))
      (congrArg s2 (slc_idx_col 0 _ r c (by omega))) (Fin.ext e.symm)
  · rw [cat8_eq _ r c 1 e]
    show k1_pay7 (F := Ideal) s1 (View.ld s2 slcR1) (ix2 r ⟨c.val % 64, _⟩) = _
    rw [k1_pay7_apply, k1_pay5_apply]
    exact congrArg₂ (fun (x : EReal) (j : Fin 8) => x * Ideal.div (Ideal.ofBits .f32 0x3F800000#32) (s1 (ix2 r j)))
      (congrArg s2 (slc_idx_col 64 _ r c (by omega))) (Fin.ext e.symm)
  · rw [cat8_eq _ r c 2 e]
    show k1_pay8 (F := Ideal) s1 (View.ld s2 slcR2) (ix2 r ⟨c.val % 64, _⟩) = _
    rw [k1_pay8_apply, k1_pay5_apply]
    exact congrArg₂ (fun (x : EReal) (j : Fin 8) => x * Ideal.div (Ideal.ofBits .f32 0x3F800000#32) (s1 (ix2 r j)))
      (congrArg s2 (slc_idx_col 128 _ r c (by omega))) (Fin.ext e.symm)
  · rw [cat8_eq _ r c 3 e]
    show k1_pay9 (F := Ideal) s1 (View.ld s2 slcR3) (ix2 r ⟨c.val % 64, _⟩) = _
    rw [k1_pay9_apply, k1_pay5_apply]
    exact congrArg₂ (fun (x : EReal) (j : Fin 8) => x * Ideal.div (Ideal.ofBits .f32 0x3F800000#32) (s1 (ix2 r j)))
      (congrArg s2 (slc_idx_col 192 _ r c (by omega))) (Fin.ext e.symm)
  · rw [cat8_eq _ r c 4 e]
    show k1_pay10 (F := Ideal) s1 (View.ld s2 slcR4) (ix2 r ⟨c.val % 64, _⟩) = _
    rw [k1_pay10_apply, k1_pay5_apply]
    exact congrArg₂ (fun (x : EReal) (j : Fin 8) => x * Ideal.div (Ideal.ofBits .f32 0x3F800000#32) (s1 (ix2 r j)))
      (congrArg s2 (slc_idx_col 256 _ r c (by omega))) (Fin.ext e.symm)
  · rw [cat8_eq _ r c 5 e]
    show k1_pay11 (F := Ideal) s1 (View.ld s2 slcR5) (ix2 r ⟨c.val % 64, _⟩) = _
    rw [k1_pay11_apply, k1_pay5_apply]
    exact congrArg₂ (fun (x : EReal) (j : Fin 8) => x * Ideal.div (Ideal.ofBits .f32 0x3F800000#32) (s1 (ix2 r j)))
      (congrArg s2 (slc_idx_col 320 _ r c (by omega))) (Fin.ext e.symm)
  · rw [cat8_eq _ r c 6 e]
    show k1_pay12 (F := Ideal) s1 (View.ld s2 slcR6) (ix2 r ⟨c.val % 64, _⟩) = _
    rw [k1_pay12_apply, k1_pay5_apply]
    exact congrArg₂ (fun (x : EReal) (j : Fin 8) => x * Ideal.div (Ideal.ofBits .f32 0x3F800000#32) (s1 (ix2 r j)))
      (congrArg s2 (slc_idx_col 384 _ r c (by omega))) (Fin.ext e.symm)
  · rw [cat8_eq _ r c 7 e]
    show View.ld s2 slcR7 (ix2 r ⟨c.val % 64, _⟩) * k1_pay13 (F := Ideal) s1 (ix2 r ⟨c.val % 64, _⟩) = _
    rw [k1_pay13_apply, k1_pay5_apply]
    exact congrArg₂ (fun (x : EReal) (j : Fin 8) => x * Ideal.div (Ideal.ofBits .f32 0x3F800000#32) (s1 (ix2 r j)))
      (congrArg s2 (slc_idx_col 448 _ r c (by omega))) (Fin.ext e.symm)

theorem outBlk_apply (x4 : Vec Ideal S512x512 .bf16)
    (x5 : Vec Ideal S1x512 .f32) (r : Fin 1024) (o : Fin 512) :
    Cert.KernelIdeal.Hand.outBlk (F := Ideal) s1 s2 x4 x5 (ix3 (0 : Fin 1) r o)
      = (∑ c : Fin 512, (s2 (ix2 r c) * Ideal.div (Ideal.ofBits .f32 0x3F800000#32)
            (s1 (ix2 r ⟨c.val / 64, by have := c.isLt; omega⟩))) * x4 (ix2 c o))
        + x5 (ix2 (0 : Fin 1) o) := by
  unfold Hand.outBlk
  rw [k1_pay4_apply]
  refine congrArg (· + x5 (ix2 (0 : Fin 1) o)) (Finset.sum_congr rfl fun c _ => ?_)
  exact congrArg (· * x4 (ix2 c o)) (normed_cat s1 s2 r c)

end Cert.KernelIdeal.HandValue

end
-- ==== Proof.HeadLists.lean ====
-- The eight heads' stores into the maximum, denominator and weighted-sum arrays, as lists of column blocks.
import proofs.«416084_j63617055588838_3_alg».proof.Proof.HeadTerms
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.SL.Sem

variable {F : FTy → Type} [FloatOps F] [Named F]

theorem hz3 : (![0, 0, 0] : Fin 3 → ℕ) = fun _ => 0 := by funext a; fin_cases a <;> rfl
theorem hz2 : (![0, 0] : Fin 2 → ℕ) = fun _ => 0 := by funext a; fin_cases a <;> rfl

variable (x0 : Vec F S1x1024x512 .bf16) (x1 : Vec F S1x512x512 .bf16) (x3 : Vec F S1x1024x512 .i32) (s0 : Vec F S1024x8 .f32)

def hdsM : List (View.Piece (Elt F) S1024x8 .f32) :=
  [⟨colR7, hdM_7 x0 x1 x3 (View.ld s0 colR7)⟩,
   ⟨colR6, hdM_6 x0 x1 x3 (View.ld s0 colR6)⟩,
   ⟨colR5, hdM_5 x0 x1 x3 (View.ld s0 colR5)⟩,
   ⟨colR4, hdM_4 x0 x1 x3 (View.ld s0 colR4)⟩,
   ⟨colR3, hdM_3 x0 x1 x3 (View.ld s0 colR3)⟩,
   ⟨colR2, hdM_2 x0 x1 x3 (View.ld s0 colR2)⟩,
   ⟨colR1, hdM_1 x0 x1 x3 (View.ld s0 colR1)⟩,
   ⟨colR0, hdM_0 x0 x1 x3 (View.ld s0 colR0)⟩]

def hdsL (s1 : Vec F S1024x8 .f32) : List (View.Piece (Elt F) S1024x8 .f32) :=
  [⟨colR7, hdL_7 x0 x1 x3 (View.ld s0 colR7) (View.ld s1 colR7)⟩,
   ⟨colR6, hdL_6 x0 x1 x3 (View.ld s0 colR6) (View.ld s1 colR6)⟩,
   ⟨colR5, hdL_5 x0 x1 x3 (View.ld s0 colR5) (View.ld s1 colR5)⟩,
   ⟨colR4, hdL_4 x0 x1 x3 (View.ld s0 colR4) (View.ld s1 colR4)⟩,
   ⟨colR3, hdL_3 x0 x1 x3 (View.ld s0 colR3) (View.ld s1 colR3)⟩,
   ⟨colR2, hdL_2 x0 x1 x3 (View.ld s0 colR2) (View.ld s1 colR2)⟩,
   ⟨colR1, hdL_1 x0 x1 x3 (View.ld s0 colR1) (View.ld s1 colR1)⟩,
   ⟨colR0, hdL_0 x0 x1 x3 (View.ld s0 colR0) (View.ld s1 colR0)⟩]

def hdsA (x2 : Vec F S1x512x512 .bf16) (x3 : Vec F S1x1024x512 .i32) (s0 : Vec F S1024x8 .f32) (s2 : Vec F S1024x512 .f32) : List (View.Piece (Elt F) S1024x512 .f32) :=
  [⟨slcR7, hdA_7 x0 x1 x2 x3 (View.ld s0 colR7) (View.ld s2 slcR7)⟩,
   ⟨slcR6, hdA_6 x0 x1 x2 x3 (View.ld s0 colR6) (View.ld s2 slcR6)⟩,
   ⟨slcR5, hdA_5 x0 x1 x2 x3 (View.ld s0 colR5) (View.ld s2 slcR5)⟩,
   ⟨slcR4, hdA_4 x0 x1 x2 x3 (View.ld s0 colR4) (View.ld s2 slcR4)⟩,
   ⟨slcR3, hdA_3 x0 x1 x2 x3 (View.ld s0 colR3) (View.ld s2 slcR3)⟩,
   ⟨slcR2, hdA_2 x0 x1 x2 x3 (View.ld s0 colR2) (View.ld s2 slcR2)⟩,
   ⟨slcR1, hdA_1 x0 x1 x2 x3 (View.ld s0 colR1) (View.ld s2 slcR1)⟩,
   ⟨slcR0, hdA_0 x0 x1 x2 x3 (View.ld s0 colR0) (View.ld s2 slcR0)⟩]

abbrev wholeR8 : Rect S1024x8 := Rect.unit (s := S1024x8) ![0, 0] S1024x8.size inb_S1024x8_S1024x8_0_0
abbrev wholeR512 : Rect S1024x512 := Rect.unit (s := S1024x512) ![0, 0] S1024x512.size inb_S1024x512_S1024x512_0_0
abbrev wholeRO : Rect S1x1024x512 := Rect.unit (s := S1x1024x512) ![0, 0, 0] S1x1024x512.size inb_S1x1024x512_S1x1024x512_0_0_0

end Cert.KernelIdeal.Hand

end
-- ==== Proof.HeadListsAt.lean ====
-- A list of stores into disjoint column blocks, read at an index, gives the value stored by the block that holds the column.
import proofs.«416084_j63617055588838_3_alg».proof.Proof.HeadLists

set_option maxRecDepth 16384

noncomputable section

namespace Cert.KernelIdeal.Hand

open Cert.KernelIdeal Cert.KernelIdeal.Gen
open Idealize.ShloMosaic Idealize.SL.Sem Idealize.ShloMosaic.ValueIdx

variable {F : FTy → Type} [FloatOps F] [Named F]

namespace HeadListsAt

section Canon
variable {Val : EltTy → Type} [∀ e, Nonempty (Val e)] {e : EltTy} {n0 n1 m : ℕ}

theorem canon_cons_col_skip (o : ℕ)
    (inb : ∀ a, (![0, o] : Fin 2 → ℕ) a + (![n0, m] : Fin 2 → ℕ) a ≤ (⟨2, ![n0, n1]⟩ : Shape).size a)
    (w : (Rect.unit (s := ⟨2, ![n0, n1]⟩) ![0, o] ![n0, m] inb).shape.Idx → Val e)
    (L : List (View.Piece Val ⟨2, ![n0, n1]⟩ e)) (r : Fin n0) (c : Fin n1) (h : c.val < o ∨ o + m ≤ c.val) :
    View.canon (⟨Rect.unit (s := ⟨2, ![n0, n1]⟩) ![0, o] ![n0, m] inb, w⟩ :: L) (ix2 r c) = View.canon L (ix2 r c) :=
  View.canon_cons_of_not_mem _ L (fun hm => by
    have hall := (Rect.mem_set_unit (s := ⟨2, ![n0, n1]⟩) (off := ![0, o]) (size := ![n0, m]) (inb := inb)
      (i := ix2 r c)).mp hm
    have h1 : o ≤ c.val ∧ c.val < o + m := hall (⟨1, Nat.one_lt_two⟩ : Fin 2)
    omega)

theorem canon_cons_col_hit (o : ℕ)
    (inb : ∀ a, (![0, o] : Fin 2 → ℕ) a + (![n0, m] : Fin 2 → ℕ) a ≤ (⟨2, ![n0, n1]⟩ : Shape).size a)
    (w : (Rect.unit (s := ⟨2, ![n0, n1]⟩) ![0, o] ![n0, m] inb).shape.Idx → Val e)
    (L : List (View.Piece Val ⟨2, ![n0, n1]⟩ e)) (r : Fin n0) (c : Fin n1) (d : Fin m) (hc : c.val = o + d.val) :
    View.canon (⟨Rect.unit (s := ⟨2, ![n0, n1]⟩) ![0, o] ![n0, m] inb, w⟩ :: L) (ix2 r c) = w (ix2 r d) := by
  have he : (Rect.unit (s := ⟨2, ![n0, n1]⟩) ![0, o] ![n0, m] inb).emb (ix2 r d) = ix2 r c := by
    funext a
    apply Fin.ext
    match a with
    | ⟨0, _⟩ => show 0 + 1 * r.val = r.val; omega
    | ⟨1, _⟩ => show o + 1 * d.val = c.val; omega
  rw [← he]
  exact View.canon_cons_emb _ w L _

end Canon

end HeadListsAt

open HeadListsAt

variable (x0 : Vec F S1x1024x512 .bf16) (x1 : Vec F S1x512x512 .bf16) (x2 : Vec F S1x512x512 .bf16) (x3 : Vec F S1x1024x512 .i32) (s0 : Vec F S1024x8 .f32) (s2 : Vec F S1024x512 .f32) (s1 : Vec F S1024x8 .f32)

theorem hdsM_at_0
    (rest : List (View.Piece (Elt F) S1024x8 .f32)) (r : Fin 1024) :
    View.canon (hdsM x0 x1 x3 s0 ++ rest) (ix2 r (0 : Fin 8)) = hdM_0 x0 x1 x3 (View.ld s0 colR0) (ix2 r (0 : Fin 1)) := by
  repeat first
    | refine (canon_cons_col_skip _ _ _ _ r _ (by decide)).trans ?_
    | exact canon_cons_col_hit _ _ _ _ r _ (0 : Fin 1) rfl

theorem hdsM_at_1
    (rest : List (View.Piece (Elt F) S1024x8 .f32)) (r : Fin 1024) :
    View.canon (hdsM x0 x1 x3 s0 ++ rest) (ix2 r (1 : Fin 8)) = hdM_1 x0 x1 x3 (View.ld s0 colR1) (ix2 r (0 : Fin 1)) := by
  repeat first
    | refine (canon_cons_col_skip _ _ _ _ r _ (by decide)).trans ?_
    | exact canon_cons_col_hit _ _ _ _ r _ (0 : Fin 1) rfl

theorem hdsM_at_2
    (rest : List (View.Piece (Elt F) S1024x8 .f32)) (r : Fin 1024) :
    View.canon (hdsM x0 x1 x3 s0 ++ rest) (ix2 r (2 : Fin 8)) = hdM_2 x0 x1 x3 (View.ld s0 colR2) (ix2 r (0 : Fin 1)) := by
  repeat first
    | refine (canon_cons_col_skip _ _ _ _ r _ (by decide)).trans ?_
    | exact canon_cons_col_hit _ _ _ _ r _ (0 : Fin 1) rfl

theorem hdsM_at_3
    (rest : List (View.Piece (Elt F) S1024x8 .f32)) (r : Fin 1024) :
    View.canon (hdsM x0 x1 x3 s0 ++ rest) (ix2 r (3 : Fin 8)) = hdM_3 x0 x1 x3 (View.ld s0 colR3) (ix2 r (0 : Fin 1)) := by
  repeat first
    | refine (canon_cons_col_skip _ _ _ _ r _ (by decide)).trans ?_
    | exact canon_cons_col_hit _ _ _ _ r _ (0 : Fin 1) rfl

theorem hdsM_at_4
    (rest : List (View.Piece (Elt F) S1024x8 .f32)) (r : Fin 1024) :
    View.canon (hdsM x0 x1 x3 s0 ++ rest) (ix2 r (4 : Fin 8)) = hdM_4 x0 x1 x3 (View.ld s0 colR4) (ix2 r (0 : Fin 1)) := by
  repeat first
    | refine (canon_cons_col_skip _ _ _ _ r _ (by decide)).trans ?_
    | exact canon_cons_col_hit _ _ _ _ r _ (0 : Fin 1) rfl

theorem hdsM_at_5
    (rest : List (View.Piece (Elt F) S1024x8 .f32)) (r : Fin 1024) :
    View.canon (hdsM x0 x1 x3 s0 ++ rest) (ix2 r (5 : Fin 8)) = hdM_5 x0 x1 x3 (View.ld s0 colR5) (ix2 r (0 : Fin 1)) := by
  repeat first
    | refine (canon_cons_col_skip _ _ _ _ r _ (by decide)).trans ?_
    | exact canon_cons_col_hit _ _ _ _ r _ (0 : Fin 1) rfl

theorem hdsM_at_6
    (rest : List (View.Piece (Elt F) S1024x8 .f32)) (r : Fin 1024) :
    View.canon (hdsM x0 x1 x3 s0 ++ rest) (ix2 r (6 : Fin 8)) = hdM_6 x0 x1 x3 (View.ld s0 colR6) (ix2 r (0 : Fin 1)) := by
  repeat first
    | refine (canon_cons_col_skip _ _ _ _ r _ (by decide)).trans ?_
    | exact canon_cons_col_hit _ _ _ _ r _ (0 : Fin 1) rfl

theorem hdsM_at_7
    (rest : List (View.Piece (Elt F) S1024x8 .f32)) (r : Fin 1024) :
    View.canon (hdsM x0 x1 x3 s0 ++ rest) (ix2 r (7 : Fin 8)) = hdM_7 x0 x1 x3 (View.ld s0 colR7) (ix2 r (0 : Fin 1)) := by
  repeat first
    | refine (canon_cons_col_skip _ _ _ _ r _ (by decide)).trans ?_
    | exact canon_cons_col_hit _ _ _ _ r _ (0 : Fin 1) rfl

theorem hdsL_at_0
    (rest : List (View.Piece (Elt F) S1024x8 .f32)) (r : Fin 1024) :
    View.canon (hdsL x0 x1 x3 s0 s1 ++ rest) (ix2 r (0 : Fin 8))
      = hdL_0 x0 x1 x3 (View.ld s0 colR0) (View.ld s1 colR0) (ix2 r (0 : Fin 1)) := by
  repeat first
    | refine (canon_cons_col_skip _ _ _ _ r _ (by decide)).trans ?_
    | exact canon_cons_col_hit _ _ _ _ r _ (0 : Fin 1) rfl

theorem hdsL_at_1
    (rest : List (View.Piece (Elt F) S1024x8 .f32)) (r : Fin 1024) :
    View.canon (hdsL x0 x1 x3 s0 s1 ++ rest) (ix2 r (1 : Fin 8))
      = hdL_1 x0 x1 x3 (View.ld s0 colR1) (View.ld s1 colR1) (ix2 r (0 : Fin 1)) := by
  repeat first
    | refine (canon_cons_col_skip _ _ _ _ r _ (by decide)).trans ?_
    | exact canon_cons_col_hit _ _ _ _ r _ (0 : Fin 1) rfl

theorem hdsL_at_2
    (rest : List (View.Piece (Elt F) S1024x8 .f32)) (r : Fin 1024) :
    View.canon (hdsL x0 x1 x3 s0 s1 ++ rest) (ix2 r (2 : Fin 8))
      = hdL_2 x0 x1 x3 (View.ld s0 colR2) (View.ld s1 colR2) (ix2 r (0 : Fin 1)) := by
  repeat first
    | refine (canon_cons_col_skip _ _ _ _ r _ (by decide)).trans ?_
    | exact canon_cons_col_hit _ _ _ _ r _ (0 : Fin 1) rfl

theorem hdsL_at_3
    (rest : List (View.Piece (Elt F) S1024x8 .f32)) (r : Fin 1024) :
    View.canon (hdsL x0 x1 x3 s0 s1 ++ rest) (ix2 r (3 : Fin 8))
      = hdL_3 x0 x1 x3 (View.ld s0 colR3) (View.ld s1 colR3) (ix2 r (0 : Fin 1)) := by
  repeat first
    | refine (canon_cons_col_skip _ _ _ _ r _ (by decide)).trans ?_
    | exact canon_cons_col_hit _ _ _ _ r _ (0 : Fin 1) rfl

theorem hdsL_at_4
    (rest : List (View.Piece (Elt F) S1024x8 .f32)) (r : Fin 1024) :
    View.canon (hdsL x0 x1 x3 s0 s1 ++ rest) (ix2 r (4 : Fin 8))
      = hdL_4 x0 x1 x3 (View.ld s0 colR4) (View.ld s1 colR4) (ix2 r (0 : Fin 1)) := by
  repeat first
    | refine (canon_cons_col_skip _ _ _ _ r _ (by decide)).trans ?_
    | exact canon_cons_col_hit _ _ _ _ r _ (0 : Fin 1) rfl

theorem hdsL_at_5
    (rest : List (View.Piece (Elt F) S1024x8 .f32)) (r : Fin 1024) :
    View.canon (hdsL x0 x1 x3 s0 s1 ++ rest) (ix2 r (5 : Fin 8))
      = hdL_5 x0 x1 x3 (View.ld s0 colR5) (View.ld s1 colR5) (ix2 r (0 : Fin 1)) := by
  repeat first
    | refine (canon_cons_col_skip _ _ _ _ r _ (by decide)).trans ?_
    | exact canon_cons_col_hit _ _ _ _ r _ (0 : Fin 1) rfl

theorem hdsL_at_6
    (rest : List (View.Piece (Elt F) S1024x8 .f32)) (r : Fin 1024) :
    View.canon (hdsL x0 x1 x3 s0 s1 ++ rest) (ix2 r (6 : Fin 8))
      = hdL_6 x0 x1 x3 (View.ld s0 colR6) (View.ld s1 colR6) (ix2 r (0 : Fin 1)) := by
  repeat first
    | refine (canon_cons_col_skip _ _ _ _ r _ (by decide)).trans ?_
    | exact canon_cons_col_hit _ _ _ _ r _ (0 : Fin 1) rfl

theorem hdsL_at_7
    (rest : List (View.Piece (Elt F) S1024x8 .f32)) (r : Fin 1024) :
    View.canon (hdsL x0 x1 x3 s0 s1 ++ rest) (ix2 r (7 : Fin 8))
      = hdL_7 x0 x1 x3 (View.ld s0 colR7) (View.ld s1 colR7) (ix2 r (0 : Fin 1)) := by
  repeat first
    | refine (canon_cons_col_skip _ _ _ _ r _ (by decide)).trans ?_
    | exact canon_cons_col_hit _ _ _ _ r _ (0 : Fin 1) rfl

theorem hdsA_at_0
    (rest : List (View.Piece (Elt F) S1024x512 .f32)) (r : Fin 1024) (d : Fin 64) :
    View.canon (hdsA x0 x1 x2 x3 s0 s2 ++ rest) (ix2 r (⟨64 * 0 + d.val, by have := d.isLt; omega⟩ : Fin 512))
      = hdA_0 x0 x1 x2 x3 (View.ld s0 colR0) (View.ld s2 slcR0) (ix2 r d) := by
  repeat first
    | refine (canon_cons_col_skip _ _ _ _ r _ (Or.inl (by have := d.isLt; show 64 * 0 + d.val < _; omega))).trans ?_
    | exact canon_cons_col_hit _ _ _ _ r _ d (by show 64 * 0 + d.val = _ + d.val; omega)

theorem hdsA_at_1
    (rest : List (View.Piece (Elt F) S1024x512 .f32)) (r : Fin 1024) (d : Fin 64) :
    View.canon (hdsA x0 x1 x2 x3 s0 s2 ++ rest) (ix2 r (⟨64 * 1 + d.val, by have := d.isLt; omega⟩ : Fin 512))
      = hdA_1 x0 x1 x2 x3 (View.ld s0 colR1) (View.ld s2 slcR1) (ix2 r d) := by
  repeat first
    | refine (canon_cons_col_skip _ _ _ _ r _ (Or.inl (by have := d.isLt; show 64 * 1 + d.val < _; omega))).trans ?_
    | exact canon_cons_col_hit _ _ _ _ r _ d (by show 64 * 1 + d.val = _ + d.val; omega)

theorem hdsA_at_2
    (rest : List (View.Piece (Elt F) S1024x512 .f32)) (r : Fin 1024) (d : Fin 64) :
    View.canon (hdsA x0 x1 x2 x3 s0 s2 ++ rest) (ix2 r (⟨64 * 2 + d.val, by have := d.isLt; omega⟩ : Fin 512))
      = hdA_2 x0 x1 x2 x3 (View.ld s0 colR2) (View.ld s2 slcR2) (ix2 r d) := by
  repeat first
    | refine (canon_cons_col_skip _ _ _ _ r _ (Or.inl (by have := d.isLt; show 64 * 2 + d.val < _; omega))).trans ?_
    | exact canon_cons_col_hit _ _ _ _ r _ d (by show 64 * 2 + d.val = _ + d.val; omega)

theorem hdsA_at_3
    (rest : List (View.Piece (Elt F) S1024x512 .f32)) (r : Fin 1024) (d : Fin 64) :
    View.canon (hdsA x0 x1 x2 x3 s0 s2 ++ rest) (ix2 r (⟨64 * 3 + d.val, by have := d.isLt; omega⟩ : Fin 512))
      = hdA_3 x0 x1 x2 x3 (View.ld s0 colR3) (View.ld s2 slcR3) (ix2 r d) := by
  repeat first
    | refine (canon_cons_col_skip _ _ _ _ r _ (Or.inl (by have := d.isLt; show 64 * 3 + d.val < _; omega))).trans ?_
    | exact canon_cons_col_hit _ _ _ _ r _ d (by show 64 * 3 + d.val = _ + d.val; omega)

theorem hdsA_at_4
    (rest : List (View.Piece (Elt F) S1024x512 .f32)) (r : Fin 1024) (d : Fin 64) :
    View.canon (hdsA x0 x1 x2 x3 s0 s2 ++ rest) (ix2 r (⟨64 * 4 + d.val, by have := d.isLt; omega⟩ : Fin 512))
      = hdA_4 x0 x1 x2 x3 (View.ld s0 colR4) (View.ld s2 slcR4) (ix2 r d) := by
  repeat first
    | refine (canon_cons_col_skip _ _ _ _ r _ (Or.inl (by have := d.isLt; show 64 * 4 + d.val < _; omega))).trans ?_
    | exact canon_cons_col_hit _ _ _ _ r _ d (by show 64 * 4 + d.val = _ + d.val; omega)

theorem hdsA_at_5
    (rest : List (View.Piece (Elt F) S1024x512 .f32)) (r : Fin 1024) (d : Fin 64) :
    View.canon (hdsA x0 x1 x2 x3 s0 s2 ++ rest) (ix2 r (⟨64 * 5 + d.val, by have := d.isLt; omega⟩ : Fin 512))
      = hdA_5 x0 x1 x2 x3 (View.ld s0 colR5) (View.ld s2 slcR5) (ix2 r d) := by
  repeat first
    | refine (canon_cons_col_skip _ _ _ _ r _ (Or.inl (by have := d.isLt; show 64 * 5 + d.val < _; omega))).trans ?_
    | exact canon_cons_col_hit _ _ _ _ r _ d (by show 64 * 5 + d.val = _ + d.val; omega)

theorem hdsA_at_6
    (rest : List (View.Piece (Elt F) S1024x512 .f32)) (r : Fin 1024) (d : Fin 64) :
    View.canon (hdsA x0 x1 x2 x3 s0 s2 ++ rest) (ix2 r (⟨64 * 6 + d.val, by have := d.isLt; omega⟩ : Fin 512))
      = hdA_6 x0 x1 x2 x3 (View.ld s0 colR6) (View.ld s2 slcR6) (ix2 r d) := by
  repeat first
    | refine (canon_cons_col_skip _ _ _ _ r _ (Or.inl (by have := d.isLt; show 64 * 6 + d.val < _; omega))).trans ?_
    | exact canon_cons_col_hit _ _ _ _ r _ d (by show 64 * 6 + d.val = _ + d.val; omega)

theorem hdsA_at_7
    (rest : List (View.Piece (Elt F) S1024x512 .f32)) (r : Fin 1024) (d : Fin 64) :
    View.canon (hdsA x0 x1 x2 x3 s0 s2 ++ rest) (ix2 r (⟨64 * 7 + d.val, by have := d.isLt; omega⟩ : Fin 512))
      = hdA_7 x0 x1 x2 x3 (View.ld s0 colR7) (View.ld s2 slcR7) (ix2 r d) := by
  repeat first
    | refine (canon_cons_col_skip _ _ _ _ r _ (Or.inl (by have := d.isLt; show 64 * 7 + d.val < _; omega))).trans ?_
    | exact canon_cons_col_hit _ _ _ _ r _ d (by show 64 * 7 + d.val = _ + d.val; omega)

end Cert.KernelIdeal.Hand

end
-- ==== Proof.Region1Pieces.lean ====
-- Middle and last key tiles: the stores the run leaves are the eight heads' lists; the output block is computed from the updated accumulators.
import proofs.«416084_j63617055588838_3_alg».proof.Proof.Region1Runs
import proofs.«416084_j63617055588838_3_alg».proof.Proof.HeadLists
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (UR sig nD τ) ℕ

theorem cover_hdsL (x0 : Vec F S1x1024x512 .bf16) (x1 : Vec F S1x512x512 .bf16) (x3 : Vec F S1x1024x512 .i32) (s0 : Vec F S1024x8 .f32) (s1 : Vec F S1024x8 .f32) (y : S1024x8.Idx) : ∃ p ∈ hdsL x0 x1 x3 s0 s1, y ∈ p.1.set :=
  View.cover_of_tiledL (hdsL x0 x1 x3 s0 s1) S1024x1.size (by sl_kernel_rfl) y

theorem cover_hdsA (x0 : Vec F S1x1024x512 .bf16) (x1 : Vec F S1x512x512 .bf16) (x2 : Vec F S1x512x512 .bf16) (x3 : Vec F S1x1024x512 .i32) (s0 : Vec F S1024x8 .f32) (s2 : Vec F S1024x512 .f32) (y : S1024x512.Idx) : ∃ p ∈ hdsA x0 x1 x2 x3 s0 s2, y ∈ p.1.set :=
  View.cover_of_tiledL (hdsA x0 x1 x2 x3 s0 s2) S1024x64.size (by sl_kernel_rfl) y

theorem outBlk_eq_readCov (v1 : View sig .tc .vmem S1024x8 .f32) (v2 : View sig .tc .vmem S1024x512 .f32)
    (L1 : List (View.Piece (Elt F) S1024x8 .f32)) (L2 : List (View.Piece (Elt F) S1024x512 .f32))
    (h1 : ∀ y, ∃ p ∈ L1, y ∈ p.1.set) (h2 : ∀ y, ∃ p ∈ L2, y ∈ p.1.set) (x4 : Vec F S512x512 .bf16) (x5 : Vec F S1x512 .f32) :
    k1_pay4 (k1_pay6 (v1.readCov L1 wholeR8.toLoadRect) (v2.readCov L2 slcR0.toLoadRect)) (k1_pay7 (v1.readCov L1 wholeR8.toLoadRect) (v2.readCov L2 slcR1.toLoadRect))
        (k1_pay8 (v1.readCov L1 wholeR8.toLoadRect) (v2.readCov L2 slcR2.toLoadRect)) (k1_pay9 (v1.readCov L1 wholeR8.toLoadRect) (v2.readCov L2 slcR3.toLoadRect))
        (k1_pay10 (v1.readCov L1 wholeR8.toLoadRect) (v2.readCov L2 slcR4.toLoadRect)) (k1_pay11 (v1.readCov L1 wholeR8.toLoadRect) (v2.readCov L2 slcR5.toLoadRect))
        (k1_pay12 (v1.readCov L1 wholeR8.toLoadRect) (v2.readCov L2 slcR6.toLoadRect)) (v2.readCov L2 slcR7.toLoadRect) (k1_pay13 (v1.readCov L1 wholeR8.toLoadRect)) x4 x5
      = outBlk (View.canon L1) (View.canon L2) x4 x5 := by
  unfold outBlk
  rw [View.readCov_eq_canon_ld v1 L1 wholeR8 h1, View.ld_unit_zero hz2,
    View.readCov_eq_canon_ld v2 L2 slcR0 h2, View.readCov_eq_canon_ld v2 L2 slcR1 h2, View.readCov_eq_canon_ld v2 L2 slcR2 h2,
    View.readCov_eq_canon_ld v2 L2 slcR3 h2, View.readCov_eq_canon_ld v2 L2 slcR4 h2, View.readCov_eq_canon_ld v2 L2 slcR5 h2,
    View.readCov_eq_canon_ld v2 L2 slcR6 h2, View.readCov_eq_canon_ld v2 L2 slcR7 h2]

variable (c : Dev nD) (i : grid1.Coords)
  (arg3 : Memref sig .tc .vmem S1x1024x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x1024x512 .i32) (harg6 : arg6.IsWhole)
  (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole)
  (arg10 : Memref sig .tc .vmem S1024x8 .f32) (harg10 : arg10.IsWhole) (arg11 : Memref sig .tc .vmem S1024x8 .f32) (harg11 : arg11.IsWhole) (arg12 : Memref sig .tc .vmem S1024x512 .f32) (harg12 : arg12.IsWhole)

section B
variable (hc0 : ¬cond1_0 i) (hc1 : ¬cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)
  (xs0 : Vec F S1024x8 .f32) (xs1 : Vec F S1024x8 .f32) (xs2 : Vec F S1024x512 .f32)

set_option maxHeartbeats 4000000 in
theorem pieces1_B_0 :
    (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1 = hdsM x0 x1 x3 xs0 := by
  unfold kernelRun1_B hdsM
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  rfl

set_option maxHeartbeats 4000000 in
theorem pieces1_B_1 :
    (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 = hdsL x0 x1 x3 xs0 xs1 := by
  unfold kernelRun1_B hdsL
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  rfl

set_option maxHeartbeats 4000000 in
theorem pieces1_B_2 :
    (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 = hdsA x0 x1 x2 x3 xs0 xs2 := by
  unfold kernelRun1_B hdsA
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  rfl

theorem sout1_B_0_eq : sout1_B_0 c i arg3 harg3 arg4 harg4 arg5 harg5 arg6 harg6 arg7 harg7 arg8 harg8 arg9 harg9 arg10 harg10 arg11 harg11 arg12 harg12 hc0 hc1 x0 x1 x2 x3 x4 x5 xs0 xs1 xs2 = View.canon (hdsM x0 x1 x3 xs0) := by
  unfold sout1_B_0; rw [pieces1_B_0]

theorem sout1_B_1_eq : sout1_B_1 c i arg3 harg3 arg4 harg4 arg5 harg5 arg6 harg6 arg7 harg7 arg8 harg8 arg9 harg9 arg10 harg10 arg11 harg11 arg12 harg12 hc0 hc1 x0 x1 x2 x3 x4 x5 xs0 xs1 xs2 = View.canon (hdsL x0 x1 x3 xs0 xs1) := by
  unfold sout1_B_1; rw [pieces1_B_1]

theorem sout1_B_2_eq : sout1_B_2 c i arg3 harg3 arg4 harg4 arg5 harg5 arg6 harg6 arg7 harg7 arg8 harg8 arg9 harg9 arg10 harg10 arg11 harg11 arg12 harg12 hc0 hc1 x0 x1 x2 x3 x4 x5 xs0 xs1 xs2 = View.canon (hdsA x0 x1 x2 x3 xs0 xs2) := by
  unfold sout1_B_2; rw [pieces1_B_2]

end B

section C
variable (hc0 : ¬cond1_0 i) (hc1 : cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)
  (xs0 : Vec F S1024x8 .f32) (xs1 : Vec F S1024x8 .f32) (xs2 : Vec F S1024x512 .f32)

set_option maxHeartbeats 4000000 in
theorem pieces1_C_0 :
    (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 = hdsM x0 x1 x3 xs0 := by
  unfold kernelRun1_C hdsM
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  rfl

set_option maxHeartbeats 4000000 in
theorem pieces1_C_1 :
    (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 = hdsL x0 x1 x3 xs0 xs1 := by
  unfold kernelRun1_C hdsL
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  rfl

set_option maxHeartbeats 4000000 in
theorem pieces1_C_2 :
    (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 = hdsA x0 x1 x2 x3 xs0 xs2 := by
  unfold kernelRun1_C hdsA
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  rfl

set_option maxHeartbeats 4000000 in
theorem pieces1_C_6 :
    (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 =
      [⟨wholeRO, outBlk (View.canon (hdsL x0 x1 x3 xs0 xs1)) (View.canon (hdsA x0 x1 x2 x3 xs0 xs2)) x4 x5⟩] := by
  unfold kernelRun1_C
  dsimp only
  sl_unfold_words
  simp only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2]
  exact congrArg (fun p => [(⟨wholeRO, p⟩ : View.Piece (Elt F) S1x1024x512 .f32)])
    (outBlk_eq_readCov arg11.view arg12.view (hdsL x0 x1 x3 xs0 xs1) (hdsA x0 x1 x2 x3 xs0 xs2) (cover_hdsL x0 x1 x3 xs0 xs1) (cover_hdsA x0 x1 x2 x3 xs0 xs2) x4 x5)

theorem sout1_C_0_eq : sout1_C_0 c i arg3 harg3 arg4 harg4 arg5 harg5 arg6 harg6 arg7 harg7 arg8 harg8 arg9 harg9 arg10 harg10 arg11 harg11 arg12 harg12 hc0 hc1 x0 x1 x2 x3 x4 x5 xs0 xs1 xs2 = View.canon (hdsM x0 x1 x3 xs0) := by
  unfold sout1_C_0; rw [pieces1_C_0]

theorem sout1_C_1_eq : sout1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2 = View.canon (hdsL x0 x1 x3 xs0 xs1) := by
  unfold sout1_C_1; rw [pieces1_C_1]

theorem sout1_C_2_eq : sout1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2 = View.canon (hdsA x0 x1 x2 x3 xs0 xs2) := by
  unfold sout1_C_2; rw [pieces1_C_2]

theorem out1_C_6_eq :
    out1_C_6 c i arg3 harg3 arg4 harg4 arg5 harg5 arg6 harg6 arg7 harg7 arg8 harg8 arg9 harg9 arg10 harg10 arg11 harg11 arg12 harg12 hc0 hc1 x0 x1 x2 x3 x4 x5 xs0 xs1 xs2
      = outBlk (sout1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2) (sout1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2) x4 x5 := by
  rw [sout1_C_1_eq, sout1_C_2_eq]; unfold out1_C_6; rw [pieces1_C_6]
  exact View.canon_unit_zero hz3 _ _

end C

end Cert.KernelIdeal.Hand

end
-- ==== Proof.CaseSteps.lean ====
-- Every grid point updates the three accumulators by one streaming-softmax step in every row and head; the last key tile's block is the output formula.
import proofs.«416084_j63617055588838_3_alg».proof.Proof.KernelValueCore
import proofs.«416084_j63617055588838_3_alg».proof.Proof.HeadGlueA
import proofs.«416084_j63617055588838_3_alg».proof.Proof.HeadGlueB
import proofs.«416084_j63617055588838_3_alg».proof.Proof.HeadGlueC
import proofs.«416084_j63617055588838_3_alg».proof.Proof.HeadListsAt
import proofs.«416084_j63617055588838_3_alg».proof.Proof.Region1Pieces

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open scoped BigOperators

theorem ld_col_apply (X : Vec Ideal S1024x8 .f32) (h : ℕ) (inb : ∀ a, (![0, h] : Fin 2 → ℕ) a + S1024x1.size a ≤ S1024x8.size a)
    (r : Fin 1024) (k : Fin 8) (hk : k.val = h) :
    View.ld X (Rect.unit (s := S1024x8) ![0, h] S1024x1.size inb) (ix2 r (0 : Fin 1)) = X (ix2 r k) := by
  refine congrArg X (funext fun a => Fin.ext ?_)
  match a with
  | ⟨0, _⟩ => show 0 + 1 * r.val = r.val; omega
  | ⟨1, _⟩ => show h + 1 * 0 = k.val; omega

theorem ld_slc_apply (X : Vec Ideal S1024x512 .f32) (o : ℕ) (inb : ∀ a, (![0, o] : Fin 2 → ℕ) a + S1024x64.size a ≤ S1024x512.size a)
    (r : Fin 1024) (d : Fin 64) (k : Fin 512) (hk : k.val = o + d.val) :
    View.ld X (Rect.unit (s := S1024x512) ![0, o] S1024x64.size inb) (ix2 r d) = X (ix2 r k) := by
  refine congrArg X (funext fun a => Fin.ext ?_)
  match a with
  | ⟨0, _⟩ => show 0 + 1 * r.val = r.val; omega
  | ⟨1, _⟩ => show o + 1 * d.val = k.val; omega

variable (x0 : Vec Ideal S1x1024x512 .bf16) (x1 : Vec Ideal S1x512x512 .bf16) (x2 : Vec Ideal S1x512x512 .bf16) (x3 : Vec Ideal S1x1024x512 .i32) (s0 : Vec Ideal S1024x8 .f32) (s1 : Vec Ideal S1024x8 .f32) (s2 : Vec Ideal S1024x512 .f32) (p0 : Vec Ideal S1024x8 .f32) (p1 : Vec Ideal S1024x8 .f32) (p2 : Vec Ideal S1024x512 .f32) (n0 : S1024x8.Idx → EReal) (n1 : S1024x8.Idx → EReal) (n2 : S1024x512.Idx → EReal) (r : Fin 1024)

theorem step_head (h : Fin 8) (Sc : Fin 512 → EReal) (Vl : Fin 64 → Fin 512 → EReal)
    {n0 n1 : S1024x8.Idx → EReal} {n2 : S1024x512.Idx → EReal} {q0 q1 M L : S1024x1.Idx → EReal} {q2 A : S1024x64.Idx → EReal}
    (e0 : q0 (ix2 r 0) = p0 (ix2 r h)) (e1 : q1 (ix2 r 0) = p1 (ix2 r h)) (e2 : ∀ d : Fin 64, q2 (ix2 r d) = p2 (ix2 r (hcol h d)))
    (aM : M (ix2 r 0) = max (q0 (ix2 r 0)) (OnlineSoftmax.rowMax Sc))
    (aL : L (ix2 r 0) = Ideal.exp (q0 (ix2 r 0) - M (ix2 r 0)) * q1 (ix2 r 0) + ∑ kk : Fin 512, Ideal.exp (Sc kk - M (ix2 r 0)))
    (aA : ∀ d : Fin 64, A (ix2 r d) = Ideal.exp (q0 (ix2 r 0) - M (ix2 r 0)) * q2 (ix2 r d)
      + ∑ kk : Fin 512, Ideal.exp (Sc kk - M (ix2 r 0)) * Vl d kk)
    (hM : n0 (ix2 r h) = M (ix2 r 0)) (hL : n1 (ix2 r h) = L (ix2 r 0)) (hA : ∀ d : Fin 64, n2 (ix2 r (hcol h d)) = A (ix2 r d)) :
    n0 (ix2 r h) = max (p0 (ix2 r h)) (OnlineSoftmax.rowMax Sc)
    ∧ n1 (ix2 r h) = Ideal.exp (p0 (ix2 r h) - n0 (ix2 r h)) * p1 (ix2 r h) + ∑ kk : Fin 512, Ideal.exp (Sc kk - n0 (ix2 r h))
    ∧ ∀ d : Fin 64, n2 (ix2 r (hcol h d)) = Ideal.exp (p0 (ix2 r h) - n0 (ix2 r h)) * p2 (ix2 r (hcol h d))
        + ∑ kk : Fin 512, Ideal.exp (Sc kk - n0 (ix2 r h)) * Vl d kk := by
  refine ⟨?_, ?_, fun d => ?_⟩
  · rw [hM, aM, e0]
  · rw [hL, aL, ← hM, e0, e1]
  · rw [hA d, aA d, ← hM, e0, e2 d]

theorem stepAt_of_rows (Sc : Fin 8 → Fin 1024 → Fin 512 → EReal) (Vl : Fin 8 → Fin 64 → Fin 512 → EReal)
    (H : ∀ (r : Fin 1024) (h : Fin 8), n0 (ix2 r h) = max (p0 (ix2 r h)) (OnlineSoftmax.rowMax fun kk => Sc h r kk)
      ∧ n1 (ix2 r h) = Ideal.exp (p0 (ix2 r h) - n0 (ix2 r h)) * p1 (ix2 r h) + ∑ kk : Fin 512, Ideal.exp (Sc h r kk - n0 (ix2 r h))
      ∧ ∀ d : Fin 64, n2 (ix2 r (hcol h d)) = Ideal.exp (p0 (ix2 r h) - n0 (ix2 r h)) * p2 (ix2 r (hcol h d))
          + ∑ kk : Fin 512, Ideal.exp (Sc h r kk - n0 (ix2 r h)) * Vl h d kk) :
    StepAt Sc Vl (p0, p1, p2) (n0, n1, n2) := H

theorem outForm_of_outBlk (m l : Vec Ideal S1024x8 .f32) (a : Vec Ideal S1024x512 .f32) (x4 : Vec Ideal S512x512 .bf16)
    (x5 : Vec Ideal S1x512 .f32) (r : Fin 1024) (o : Fin 512) :
    outBlk (F := Ideal) l a x4 x5 (ix3 (0 : Fin 1) r o) = OutForm (m, l, a) x4 x5 r o :=
  outBlk_apply l a x4 x5 r o

theorem hcol_eq (h : Fin 8) (d : Fin 64) (k : Fin 512) (hk : k.val = 64 * h.val + d.val) : hcol h d = k :=
  Fin.ext (by show h.val * 64 + d.val = k.val; omega)

theorem stepAt_lists
    (rest0 rest1 : List (View.Piece (Elt Ideal) S1024x8 .f32)) (rest2 : List (View.Piece (Elt Ideal) S1024x512 .f32)) :
    StepAt (tileScore x0 x1 x3) (tileVal x2) (s0, s1, s2)
      (View.canon (hdsM x0 x1 x3 s0 ++ rest0), View.canon (hdsL x0 x1 x3 s0 s1 ++ rest1),
        View.canon (hdsA x0 x1 x2 x3 s0 s2 ++ rest2)) :=
  stepAt_of_rows s0 s1 s2 _ _ _ _ _ fun r h => by
  fin_cases h
  · exact step_head s0 s1 s2 r 0 (fun kk => tileScore x0 x1 x3 0 r kk) (tileVal x2 0)
      (ld_col_apply s0 0 _ r 0 rfl) (ld_col_apply s1 0 _ r 0 rfl) (fun d => ld_slc_apply s2 0 _ r d (hcol 0 d) rfl)
      (hdM_0_apply x0 x1 x3 _ r) (hdL_0_apply x0 x1 x3 _ _ r) (fun d => hdA_0_apply x0 x1 x2 x3 _ _ r d)
      (hdsM_at_0 x0 x1 x3 s0 rest0 r) (hdsL_at_0 x0 x1 x3 s0 s1 rest1 r)
      fun d => (congrArg (fun k : Fin 512 => View.canon (hdsA x0 x1 x2 x3 s0 s2 ++ rest2) (ix2 r k)) (hcol_eq 0 d _ rfl)).trans (hdsA_at_0 x0 x1 x2 x3 s0 s2 rest2 r d)
  · exact step_head s0 s1 s2 r 1 (fun kk => tileScore x0 x1 x3 1 r kk) (tileVal x2 1)
      (ld_col_apply s0 1 _ r 1 rfl) (ld_col_apply s1 1 _ r 1 rfl) (fun d => ld_slc_apply s2 64 _ r d (hcol 1 d) rfl)
      (hdM_1_apply x0 x1 x3 _ r) (hdL_1_apply x0 x1 x3 _ _ r) (fun d => hdA_1_apply x0 x1 x2 x3 _ _ r d)
      (hdsM_at_1 x0 x1 x3 s0 rest0 r) (hdsL_at_1 x0 x1 x3 s0 s1 rest1 r)
      fun d => (congrArg (fun k : Fin 512 => View.canon (hdsA x0 x1 x2 x3 s0 s2 ++ rest2) (ix2 r k)) (hcol_eq 1 d _ rfl)).trans (hdsA_at_1 x0 x1 x2 x3 s0 s2 rest2 r d)
  · exact step_head s0 s1 s2 r 2 (fun kk => tileScore x0 x1 x3 2 r kk) (tileVal x2 2)
      (ld_col_apply s0 2 _ r 2 rfl) (ld_col_apply s1 2 _ r 2 rfl) (fun d => ld_slc_apply s2 128 _ r d (hcol 2 d) rfl)
      (hdM_2_apply x0 x1 x3 _ r) (hdL_2_apply x0 x1 x3 _ _ r) (fun d => hdA_2_apply x0 x1 x2 x3 _ _ r d)
      (hdsM_at_2 x0 x1 x3 s0 rest0 r) (hdsL_at_2 x0 x1 x3 s0 s1 rest1 r)
      fun d => (congrArg (fun k : Fin 512 => View.canon (hdsA x0 x1 x2 x3 s0 s2 ++ rest2) (ix2 r k)) (hcol_eq 2 d _ rfl)).trans (hdsA_at_2 x0 x1 x2 x3 s0 s2 rest2 r d)
  · exact step_head s0 s1 s2 r 3 (fun kk => tileScore x0 x1 x3 3 r kk) (tileVal x2 3)
      (ld_col_apply s0 3 _ r 3 rfl) (ld_col_apply s1 3 _ r 3 rfl) (fun d => ld_slc_apply s2 192 _ r d (hcol 3 d) rfl)
      (hdM_3_apply x0 x1 x3 _ r) (hdL_3_apply x0 x1 x3 _ _ r) (fun d => hdA_3_apply x0 x1 x2 x3 _ _ r d)
      (hdsM_at_3 x0 x1 x3 s0 rest0 r) (hdsL_at_3 x0 x1 x3 s0 s1 rest1 r)
      fun d => (congrArg (fun k : Fin 512 => View.canon (hdsA x0 x1 x2 x3 s0 s2 ++ rest2) (ix2 r k)) (hcol_eq 3 d _ rfl)).trans (hdsA_at_3 x0 x1 x2 x3 s0 s2 rest2 r d)
  · exact step_head s0 s1 s2 r 4 (fun kk => tileScore x0 x1 x3 4 r kk) (tileVal x2 4)
      (ld_col_apply s0 4 _ r 4 rfl) (ld_col_apply s1 4 _ r 4 rfl) (fun d => ld_slc_apply s2 256 _ r d (hcol 4 d) rfl)
      (hdM_4_apply x0 x1 x3 _ r) (hdL_4_apply x0 x1 x3 _ _ r) (fun d => hdA_4_apply x0 x1 x2 x3 _ _ r d)
      (hdsM_at_4 x0 x1 x3 s0 rest0 r) (hdsL_at_4 x0 x1 x3 s0 s1 rest1 r)
      fun d => (congrArg (fun k : Fin 512 => View.canon (hdsA x0 x1 x2 x3 s0 s2 ++ rest2) (ix2 r k)) (hcol_eq 4 d _ rfl)).trans (hdsA_at_4 x0 x1 x2 x3 s0 s2 rest2 r d)
  · exact step_head s0 s1 s2 r 5 (fun kk => tileScore x0 x1 x3 5 r kk) (tileVal x2 5)
      (ld_col_apply s0 5 _ r 5 rfl) (ld_col_apply s1 5 _ r 5 rfl) (fun d => ld_slc_apply s2 320 _ r d (hcol 5 d) rfl)
      (hdM_5_apply x0 x1 x3 _ r) (hdL_5_apply x0 x1 x3 _ _ r) (fun d => hdA_5_apply x0 x1 x2 x3 _ _ r d)
      (hdsM_at_5 x0 x1 x3 s0 rest0 r) (hdsL_at_5 x0 x1 x3 s0 s1 rest1 r)
      fun d => (congrArg (fun k : Fin 512 => View.canon (hdsA x0 x1 x2 x3 s0 s2 ++ rest2) (ix2 r k)) (hcol_eq 5 d _ rfl)).trans (hdsA_at_5 x0 x1 x2 x3 s0 s2 rest2 r d)
  · exact step_head s0 s1 s2 r 6 (fun kk => tileScore x0 x1 x3 6 r kk) (tileVal x2 6)
      (ld_col_apply s0 6 _ r 6 rfl) (ld_col_apply s1 6 _ r 6 rfl) (fun d => ld_slc_apply s2 384 _ r d (hcol 6 d) rfl)
      (hdM_6_apply x0 x1 x3 _ r) (hdL_6_apply x0 x1 x3 _ _ r) (fun d => hdA_6_apply x0 x1 x2 x3 _ _ r d)
      (hdsM_at_6 x0 x1 x3 s0 rest0 r) (hdsL_at_6 x0 x1 x3 s0 s1 rest1 r)
      fun d => (congrArg (fun k : Fin 512 => View.canon (hdsA x0 x1 x2 x3 s0 s2 ++ rest2) (ix2 r k)) (hcol_eq 6 d _ rfl)).trans (hdsA_at_6 x0 x1 x2 x3 s0 s2 rest2 r d)
  · exact step_head s0 s1 s2 r 7 (fun kk => tileScore x0 x1 x3 7 r kk) (tileVal x2 7)
      (ld_col_apply s0 7 _ r 7 rfl) (ld_col_apply s1 7 _ r 7 rfl) (fun d => ld_slc_apply s2 448 _ r d (hcol 7 d) rfl)
      (hdM_7_apply x0 x1 x3 _ r) (hdL_7_apply x0 x1 x3 _ _ r) (fun d => hdA_7_apply x0 x1 x2 x3 _ _ r d)
      (hdsM_at_7 x0 x1 x3 s0 rest0 r) (hdsL_at_7 x0 x1 x3 s0 s1 rest1 r)
      fun d => (congrArg (fun k : Fin 512 => View.canon (hdsA x0 x1 x2 x3 s0 s2 ++ rest2) (ix2 r k)) (hcol_eq 7 d _ rfl)).trans (hdsA_at_7 x0 x1 x2 x3 s0 s2 rest2 r d)

theorem stepAt_lists_nil :
    StepAt (tileScore x0 x1 x3) (tileVal x2) (s0, s1, s2)
      (View.canon (hdsM x0 x1 x3 s0), View.canon (hdsL x0 x1 x3 s0 s1), View.canon (hdsA x0 x1 x2 x3 s0 s2)) := by
  have h := stepAt_lists x0 x1 x2 x3 s0 s1 s2 [] [] []
  simp only [List.append_nil] at h
  exact h

variable (c : Dev nD) (i : grid1.Coords)
  (arg3 : Memref sig .tc .vmem S1x1024x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x1024x512 .i32) (harg6 : arg6.IsWhole)
  (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole)
  (arg10 : Memref sig .tc .vmem S1024x8 .f32) (harg10 : arg10.IsWhole) (arg11 : Memref sig .tc .vmem S1024x8 .f32) (harg11 : arg11.IsWhole) (arg12 : Memref sig .tc .vmem S1024x512 .f32) (harg12 : arg12.IsWhole)

section B
variable (hc0 : ¬cond1_0 i) (hc1 : ¬cond1_1 i)
  (x0 : Vec Ideal S1x1024x512 .bf16) (x1 : Vec Ideal S1x512x512 .bf16) (x2 : Vec Ideal S1x512x512 .bf16) (x3 : Vec Ideal S1x1024x512 .i32) (x4 : Vec Ideal S512x512 .bf16) (x5 : Vec Ideal S1x512 .f32)
  (xs0 : Vec Ideal S1024x8 .f32) (xs1 : Vec Ideal S1024x8 .f32) (xs2 : Vec Ideal S1024x512 .f32)

theorem stepB :
  StepAt (tileScore x0 x1 x3) (tileVal x2) (xs0, xs1, xs2)
    (sout1_B_0 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2, sout1_B_1 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2, sout1_B_2 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2) := by
  rw [sout1_B_0_eq, sout1_B_1_eq, sout1_B_2_eq]
  exact stepAt_lists_nil x0 x1 x2 x3 xs0 xs1 xs2

end B

section C
variable (hc0 : ¬cond1_0 i) (hc1 : cond1_1 i)
  (x0 : Vec Ideal S1x1024x512 .bf16) (x1 : Vec Ideal S1x512x512 .bf16) (x2 : Vec Ideal S1x512x512 .bf16) (x3 : Vec Ideal S1x1024x512 .i32) (x4 : Vec Ideal S512x512 .bf16) (x5 : Vec Ideal S1x512 .f32)
  (xs0 : Vec Ideal S1024x8 .f32) (xs1 : Vec Ideal S1024x8 .f32) (xs2 : Vec Ideal S1024x512 .f32)

theorem stepC :
  StepAt (tileScore x0 x1 x3) (tileVal x2) (xs0, xs1, xs2)
    (sout1_C_0 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2, sout1_C_1 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2, sout1_C_2 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2) := by
  rw [sout1_C_0_eq, sout1_C_1_eq, sout1_C_2_eq]
  exact stepAt_lists_nil x0 x1 x2 x3 xs0 xs1 xs2

theorem outC (r : Fin 1024) (o : Fin 512) :
  (out1_C_6 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2 : S1x1024x512.Idx → EReal) (ix3 (0 : Fin 1) r o)
    = OutForm (sout1_C_0 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2, sout1_C_1 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2, sout1_C_2 (F := Ideal) c i arg3 harg3 arg4 harg4 arg5 harg5 arg6 harg6 arg7 harg7 arg8 harg8 arg9 harg9 arg10 harg10 arg11 harg11 arg12 harg12 hc0 hc1 x0 x1 x2 x3 x4 x5 xs0 xs1 xs2) x4 x5 r o := by
  rw [out1_C_6_eq]
  exact outForm_of_outBlk _ _ _ x4 x5 r o

end C

end Cert.KernelIdeal.HandValue

end
-- ==== Proof.Region1PiecesA.lean ====
-- First key tile: the stores the run leaves are the eight heads' lists over the reset values.
import proofs.«416084_j63617055588838_3_alg».proof.Proof.Region1Runs
import proofs.«416084_j63617055588838_3_alg».proof.Proof.HeadLists
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem readCov_cons_sep1 {sg : RefSig} {κ : Kind} {sp : Space} {n0 n1 : ℕ} {e : EltTy} {Val : EltTy → Type} [∀ e, Nonempty (Val e)]
    (v : View sg κ sp (⟨2, ![n0, n1]⟩ : Shape) e) {off size off' size' : Fin 2 → ℕ} {inb inb'}
    (w : (Rect.unit (s := (⟨2, ![n0, n1]⟩ : Shape)) off size inb).shape.Idx → Val e) (L : List (View.Piece Val (⟨2, ![n0, n1]⟩ : Shape) e))
    (h : off 1 + size 1 ≤ off' 1 ∨ off' 1 + size' 1 ≤ off 1) :
    v.readCov (⟨Rect.unit off size inb, w⟩ :: L) (Rect.unit (s := (⟨2, ![n0, n1]⟩ : Shape)) off' size' inb').toLoadRect
      = v.readCov L (Rect.unit (s := (⟨2, ![n0, n1]⟩ : Shape)) off' size' inb').toLoadRect :=
  View.readCov_cons_of_disjoint v _ L _ (Rect.unit_disjoint (inb := inb) (inb' := inb') 1 h)

theorem readCov_reset {sg : RefSig} {κ : Kind} {sp : Space} {S : Shape} {e : EltTy} {Val : EltTy → Type} [∀ e, Nonempty (Val e)]
    (v : View sg κ sp S e) {off : Fin S.rank → ℕ} (hz : off = fun _ => 0) (inb : ∀ a, off a + S.size a ≤ S.size a)
    (w : S.Idx → Val e) (r : Rect S) :
    v.readCov [⟨Rect.unit off S.size inb, w⟩] r.toLoadRect = View.ld w r := by
  rw [View.readCov_eq_canon_ld v _ r (fun y => ⟨_, List.mem_singleton_self _, View.mem_set_unit_zero hz inb y⟩),
    View.canon_unit_zero hz]

variable (c : Dev nD) (i : grid1.Coords)
  (arg3 : Memref sig .tc .vmem S1x1024x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x1024x512 .i32) (harg6 : arg6.IsWhole)
  (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole)
  (arg10 : Memref sig .tc .vmem S1024x8 .f32) (harg10 : arg10.IsWhole) (arg11 : Memref sig .tc .vmem S1024x8 .f32) (harg11 : arg11.IsWhole) (arg12 : Memref sig .tc .vmem S1024x512 .f32) (harg12 : arg12.IsWhole)

section A
variable (hc0 : cond1_0 i) (hc1 : ¬cond1_1 i)
  (x0 : Vec F S1x1024x512 .bf16) (x1 : Vec F S1x512x512 .bf16) (x2 : Vec F S1x512x512 .bf16) (x3 : Vec F S1x1024x512 .i32) (x4 : Vec F S512x512 .bf16) (x5 : Vec F S1x512 .f32)

set_option maxHeartbeats 4000000 in
theorem pieces1_A_0 :
    (kernelRun1_A c i arg3 harg3 arg4 harg4 arg5 harg5 arg6 harg6 arg7 harg7 arg8 harg8 arg9 harg9 arg10 harg10 arg11 harg11 arg12 harg12 hc0 hc1 x0 x1 x2 x3 x4 x5).1 = hdsM x0 x1 x3 (k1_pay14 (F := F)) ++ [⟨wholeR8, k1_pay14 (F := F)⟩] := by
  unfold kernelRun1_A hdsM
  dsimp only
  sl_unfold_words
  simp (disch := decide) only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2, readCov_cons_sep1, readCov_reset (S := S1024x8) _ hz2, readCov_reset (S := S1024x512) _ hz2]
  rfl

set_option maxHeartbeats 4000000 in
theorem pieces1_A_1 :
    (kernelRun1_A c i arg3 harg3 arg4 harg4 arg5 harg5 arg6 harg6 arg7 harg7 arg8 harg8 arg9 harg9 arg10 harg10 arg11 harg11 arg12 harg12 hc0 hc1 x0 x1 x2 x3 x4 x5).2.1 = hdsL x0 x1 x3 (k1_pay14 (F := F)) (k1_pay15 (F := F)) ++ [⟨wholeR8, k1_pay15 (F := F)⟩] := by
  unfold kernelRun1_A hdsL
  dsimp only
  sl_unfold_words
  simp (disch := decide) only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2, readCov_cons_sep1, readCov_reset (S := S1024x8) _ hz2, readCov_reset (S := S1024x512) _ hz2]
  rfl

set_option maxHeartbeats 4000000 in
theorem pieces1_A_2 :
    (kernelRun1_A c i arg3 harg3 arg4 harg4 arg5 harg5 arg6 harg6 arg7 harg7 arg8 harg8 arg9 harg9 arg10 harg10 arg11 harg11 arg12 harg12 hc0 hc1 x0 x1 x2 x3 x4 x5).2.2.1 = hdsA x0 x1 x2 x3 (k1_pay14 (F := F)) (k1_pay16 (F := F)) ++ [⟨wholeR512, k1_pay16 (F := F)⟩] := by
  unfold kernelRun1_A hdsA
  dsimp only
  sl_unfold_words
  simp (disch := decide) only [View.readAt_eq_ld, harg3.read_unread, harg4.read_unread, harg5.read_unread, harg6.read_unread, harg7.read_unread, harg8.read_unread, harg10.read_unread, harg11.read_unread, harg12.read_unread, View.ld_unit_zero (S := S1x1024x512) hz3, View.ld_unit_zero (S := S1x512x512) hz3, View.ld_unit_zero (S := S512x512) hz2, View.ld_unit_zero (S := S1x512) hz2, readCov_cons_sep1, readCov_reset (S := S1024x8) _ hz2, readCov_reset (S := S1024x512) _ hz2]
  rfl

end A

end Cert.KernelIdeal.Hand

end
-- ==== Proof.CaseStepA.lean ====
-- At the first key tile of a group the step starts from the reset values: -∞ for the maximum, 0 for denominator and weighted sum.
import proofs.«416084_j63617055588838_3_alg».proof.Proof.CaseSteps
import proofs.«416084_j63617055588838_3_alg».proof.Proof.Region1PiecesA

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open scoped BigOperators

theorem reset_eq : ((k1_pay14 (F := Ideal), k1_pay15 (F := Ideal), k1_pay16 (F := Ideal)) : Scr) = resetScr := by
  unfold resetScr
  exact congrArg₂ Prod.mk (funext k1_pay14_apply) (congrArg₂ Prod.mk (funext k1_pay15_apply) (funext k1_pay16_apply))

theorem StepAt_prev_congr {Sc : Fin 8 → Fin 1024 → Fin 512 → EReal} {Vl : Fin 8 → Fin 64 → Fin 512 → EReal} {p q cur : Scr}
    (e : p = q) (h : StepAt Sc Vl p cur) : StepAt Sc Vl q cur := e ▸ h

theorem stepAt_reset_lists (x0 : Vec Ideal S1x1024x512 .bf16) (x1 : Vec Ideal S1x512x512 .bf16) (x2 : Vec Ideal S1x512x512 .bf16) (x3 : Vec Ideal S1x1024x512 .i32) :
    StepAt (tileScore x0 x1 x3) (tileVal x2) resetScr
      (View.canon (hdsM x0 x1 x3 (k1_pay14 (F := Ideal)) ++ [⟨wholeR8, k1_pay14 (F := Ideal)⟩]),
        View.canon (hdsL x0 x1 x3 (k1_pay14 (F := Ideal)) (k1_pay15 (F := Ideal)) ++ [⟨wholeR8, k1_pay15 (F := Ideal)⟩]),
        View.canon (hdsA x0 x1 x2 x3 (k1_pay14 (F := Ideal)) (k1_pay16 (F := Ideal)) ++ [⟨wholeR512, k1_pay16 (F := Ideal)⟩])) :=
  StepAt_prev_congr reset_eq
    (stepAt_lists x0 x1 x2 x3 (k1_pay14 (F := Ideal)) (k1_pay15 (F := Ideal)) (k1_pay16 (F := Ideal))
      [⟨wholeR8, k1_pay14 (F := Ideal)⟩] [⟨wholeR8, k1_pay15 (F := Ideal)⟩] [⟨wholeR512, k1_pay16 (F := Ideal)⟩])

variable (c : Dev nD) (i : grid1.Coords)
  (arg3 : Memref sig .tc .vmem S1x1024x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x1024x512 .i32) (harg6 : arg6.IsWhole)
  (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole)
  (arg10 : Memref sig .tc .vmem S1024x8 .f32) (harg10 : arg10.IsWhole) (arg11 : Memref sig .tc .vmem S1024x8 .f32) (harg11 : arg11.IsWhole) (arg12 : Memref sig .tc .vmem S1024x512 .f32) (harg12 : arg12.IsWhole)

section A
variable (hc0 : cond1_0 i) (hc1 : ¬cond1_1 i)
  (x0 : Vec Ideal S1x1024x512 .bf16) (x1 : Vec Ideal S1x512x512 .bf16) (x2 : Vec Ideal S1x512x512 .bf16) (x3 : Vec Ideal S1x1024x512 .i32) (x4 : Vec Ideal S512x512 .bf16) (x5 : Vec Ideal S1x512 .f32)

theorem sout1_A_0_eq :
    sout1_A_0 (F := Ideal) c i arg3 harg3 arg4 harg4 arg5 harg5 arg6 harg6 arg7 harg7 arg8 harg8 arg9 harg9 arg10 harg10 arg11 harg11 arg12 harg12 hc0 hc1 x0 x1 x2 x3 x4 x5 = View.canon (hdsM x0 x1 x3 (k1_pay14 (F := Ideal)) ++ [⟨wholeR8, k1_pay14 (F := Ideal)⟩]) := by
  unfold sout1_A_0; rw [pieces1_A_0]

theorem sout1_A_1_eq :
    sout1_A_1 (F := Ideal) c i arg3 harg3 arg4 harg4 arg5 harg5 arg6 harg6 arg7 harg7 arg8 harg8 arg9 harg9 arg10 harg10 arg11 harg11 arg12 harg12 hc0 hc1 x0 x1 x2 x3 x4 x5 = View.canon (hdsL x0 x1 x3 (k1_pay14 (F := Ideal)) (k1_pay15 (F := Ideal)) ++ [⟨wholeR8, k1_pay15 (F := Ideal)⟩]) := by
  unfold sout1_A_1; rw [pieces1_A_1]

theorem sout1_A_2_eq :
    sout1_A_2 (F := Ideal) c i arg3 harg3 arg4 harg4 arg5 harg5 arg6 harg6 arg7 harg7 arg8 harg8 arg9 harg9 arg10 harg10 arg11 harg11 arg12 harg12 hc0 hc1 x0 x1 x2 x3 x4 x5 = View.canon (hdsA x0 x1 x2 x3 (k1_pay14 (F := Ideal)) (k1_pay16 (F := Ideal)) ++ [⟨wholeR512, k1_pay16 (F := Ideal)⟩]) := by
  unfold sout1_A_2; rw [pieces1_A_2]

theorem stepA :
  StepAt (tileScore x0 x1 x3) (tileVal x2) resetScr
    (sout1_A_0 (F := Ideal) c i arg3 harg3 arg4 harg4 arg5 harg5 arg6 harg6 arg7 harg7 arg8 harg8 arg9 harg9 arg10 harg10 arg11 harg11 arg12 harg12 hc0 hc1 x0 x1 x2 x3 x4 x5, sout1_A_1 (F := Ideal) c i arg3 harg3 arg4 harg4 arg5 harg5 arg6 harg6 arg7 harg7 arg8 harg8 arg9 harg9 arg10 harg10 arg11 harg11 arg12 harg12 hc0 hc1 x0 x1 x2 x3 x4 x5, sout1_A_2 (F := Ideal) c i arg3 harg3 arg4 harg4 arg5 harg5 arg6 harg6 arg7 harg7 arg8 harg8 arg9 harg9 arg10 harg10 arg11 harg11 arg12 harg12 hc0 hc1 x0 x1 x2 x3 x4 x5) := by
  rw [sout1_A_0_eq, sout1_A_1_eq, sout1_A_2_eq]
  exact stepAt_reset_lists x0 x1 x2 x3

end A

end Cert.KernelIdeal.HandValue

end
-- ==== Proof.Value0.lean ====
-- The first region's output array is the activation rows times the weight array plus the bias row, entry by entry.
import proofs.«416084_j63617055588838_3_alg».proof.Proof.Region0
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

theorem lhs_proj_0 (j : S1024x1536.Idx) (q : dot_S1024x512_S512x1536_S1024x1536_1_0_0_1_n_n.contr.Idx) :
    (dot_S1024x512_S512x1536_S1024x1536_1_0_0_1_n_n.lhsIdx j q 0).val = (j 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
theorem lhs_proj_1 (j : S1024x1536.Idx) (q : dot_S1024x512_S512x1536_S1024x1536_1_0_0_1_n_n.contr.Idx) :
    (dot_S1024x512_S512x1536_S1024x1536_1_0_0_1_n_n.lhsIdx j q 1).val = (q ⟨0, by decide⟩).val :=
  dot_S1024x512_S512x1536_S1024x1536_1_0_0_1_n_n.lhsIdx_val_of_single rfl j q
theorem rhs_proj_0 (j : S1024x1536.Idx) (q : dot_S1024x512_S512x1536_S1024x1536_1_0_0_1_n_n.contr.Idx) :
    (dot_S1024x512_S512x1536_S1024x1536_1_0_0_1_n_n.rhsIdx j q 0).val = (q ⟨0, by decide⟩).val :=
  dot_S1024x512_S512x1536_S1024x1536_1_0_0_1_n_n.rhsIdx_val_of_single rfl j q
theorem rhs_proj_1 (j : S1024x1536.Idx) (q : dot_S1024x512_S512x1536_S1024x1536_1_0_0_1_n_n.contr.Idx) :
    (dot_S1024x512_S512x1536_S1024x1536_1_0_0_1_n_n.rhsIdx j q 1).val = (j 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

theorem proj_apply (a : FVec Ideal S1024x512 .bf16) (b : FVec Ideal S512x1536 .bf16) (p : Fin 1024) (q : Fin 1536) :
    matmul dot_S1024x512_S512x1536_S1024x1536_1_0_0_1_n_n none a b (constant (F := Ideal) S1024x1536 .f32 0x00000000#32) (ix2 p q)
      = ∑ k : Fin 512, a (ix2 p k) * b (ix2 k q) := by
  simp only [matmul]
  rw [Ideal.matmul_constant_zero_apply, ← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 p q) ((contrEquiv1 dot_S1024x512_S512x1536_S1024x1536_1_0_0_1_n_n 512 rfl rfl).symm k) = ix2 p k := funext fun x => Fin.ext (by
    match x with
    | ⟨0, _⟩ => exact lhs_proj_0 _ _
    | ⟨1, _⟩ => exact (lhs_proj_1 _ _).trans hk)
  have er : dot_S1024x512_S512x1536_S1024x1536_1_0_0_1_n_n.rhsIdx (ix2 p q) ((contrEquiv1 dot_S1024x512_S512x1536_S1024x1536_1_0_0_1_n_n 512 rfl rfl).symm k) = ix2 k q := funext fun x => Fin.ext (by
    match x with
    | ⟨0, _⟩ => exact (rhs_proj_0 _ _).trans hk
    | ⟨1, _⟩ => exact rhs_proj_1 _ _)
  rw [el, er]

theorem bias_apply (x2 : FVec Ideal S1x1536 .f32) (p : Fin 1024) (q : Fin 1536) :
    broadcastTo S1024x1536 x2 broadcasts_S1x1536_S1024x1536 (ix2 p q) = x2 (ix2 (0 : Fin 1) q) :=
  broadcastTo_apply x2 broadcasts_S1x1536_S1024x1536 (ix2 p q) (ix2 (0 : Fin 1) q) (fun a => by
    match a with
    | ⟨0, _⟩ => rfl
    | ⟨1, _⟩ => rfl)

theorem pay_apply (x0 : Vec Ideal S1024x512 .f32) (x1 : Vec Ideal S512x1536 .bf16) (x2 : Vec Ideal S1x1536 .f32) (p : Fin 1024) (q : Fin 1536) :
    k0_pay1 (F := Ideal) x0 x1 x2 (ix2 p q) = (∑ k : Fin 512, x0 (ix2 p k) * x1 (ix2 k q)) + x2 (ix2 (0 : Fin 1) q) := by
  unfold k0_pay1
  simp only [shapeCast_self]
  rw [truncf_apply, addf_apply, proj_apply, bias_apply]
  rfl

theorem zero_offsets : (![0, 0] : Fin 2 → Nat) = fun _ => 0 := funext fun a => by fin_cases a <;> rfl

abbrev proj (a0 : S8192x512.Idx → EReal) (a1 : S512x1536.Idx → EReal) (a2 : S1x1536.Idx → EReal) : S8192x1536.Idx → EReal :=
  fun i => (∑ k : Fin 512, a0 (ix2 (i 0) k) * a1 (ix2 k (i 1))) + a2 (ix2 0 (i 1))

theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

theorem idx_onto : ∀ q0 : Fin 8, ∃ t : Fin cfg0.N, win0_3.index t = ![q0.val, 0] :=
  (by decide +kernel : ∀ q0 : Fin 8, ∃ t : Fin grid0.N, win0_3.index t = ![q0.val, 0])

variable (V : (c : Dev nD) → (b : Ref sig .tc) → Buf (Elt Ideal) ((c : Thread nD τ).loc b))

theorem flushed_eq (c : Dev nD) (t : Fin cfg0.N) :
    (dat0 (F := Ideal) V c).flushed 3 t
      = ((cfg0.win 3).blk t).view.read (Elt Ideal) (proj (V c main_v0) (V c main_v2) (V c main_v3)) := by
  show (cfg0.win 3).cut (grid0.coords t) ((dat0 V c).after 3 t) = _
  rw [after0_3]
  unfold out0_3
  rw [View.canon_unit_zero zero_offsets]
  simp only [View.ld_unit_zero (S := S1024x512) zero_offsets, View.ld_unit_zero (S := S512x1536) zero_offsets,
    View.ld_unit_zero (S := S1x1536) zero_offsets]
  obtain ⟨e0, e1, e2, e3, e4, e5, e6, e7⟩ := idx_facts t
  funext j
  obtain ⟨p, q, rfl⟩ : ∃ (p : Fin 1024) (q : Fin 1536), j = ix2 p q := ⟨j 0, j 1, eq_ix2 j⟩
  show k0_pay1 (F := Ideal) (iblk0 V c 0 t) (iblk0 V c 1 t) (iblk0 V c 2 t) (ix2 p q)
      = proj (V c main_v0) (V c main_v2) (V c main_v3) (((cfg0.win 3).blk t).view.emb (ix2 p q))
  rw [pay_apply]
  have hx : ∀ k : Fin 512, iblk0 V c 0 t (ix2 p k)
      = V c main_v0 (ix2 ((((cfg0.win 3).blk t).view.emb (ix2 p q)) 0) k) := fun k => by
    show V c main_v0 (((cfg0.win 0).blk t).view.emb (ix2 p k)) = _
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 512 + 1 * k.val = k.val; omega
  have hw : ∀ k : Fin 512, iblk0 V c 1 t (ix2 k q)
      = V c main_v2 (ix2 k ((((cfg0.win 3).blk t).view.emb (ix2 p q)) 1)) := fun k => by
    show V c main_v2 (((cfg0.win 1).blk t).view.emb (ix2 k q)) = _
    refine congrArg _ (funext fun a => Fin.ext ?_)
    match a with
    | ⟨0, _⟩ => show win0_1.index t (0 : Fin 2) * 512 + 1 * k.val = k.val; omega
    | ⟨1, _⟩ => show win0_1.index t (1 : Fin 2) * 1536 + 1 * q.val = win0_3.index t (1 : Fin 2) * 1536 + 1 * q.val; omega
  have hb : iblk0 V c 2 t (ix2 (0 : Fin 1) q)
      = V c main_v3 (ix2 (0 : Fin 1) ((((cfg0.win 3).blk t).view.emb (ix2 p q)) 1)) := by
    show V c main_v3 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 1536 + 1 * q.val = win0_3.index t (1 : Fin 2) * 1536 + 1 * q.val; omega
  rw [hb]
  exact congrArg (· + _) (Finset.sum_congr rfl fun k _ => by rw [hx k, hw k])

theorem mem_blk (t : Fin cfg0.N) (i : S8192x1536.Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v4).slice (win0_3.rect t)).set ↔ _
  rw [View.set_slice_whole, Rect.mem_set_unit]
  exact Iff.rfl

theorem cover (i : S8192x1536.Idx) : ∃ t : Fin cfg0.N, (cfg0.win 3).flush t = true ∧ i ∈ ((cfg0.win 3).blk t).view.set := by
  have hi0 : (i 0).val < 8192 := (i 0).isLt
  have hi1 : (i 1).val < 1536 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1536 ≤ (i 1).val ∧ (i 1).val < win0_3.index t (1 : Fin 2) * 1536 + 1536; omega

theorem arrAt0 (c : Dev nD) :
    (Cert.KernelIdeal.Hand.dat0 (F := Ideal) V c).arrAt 3 cfg0.N = proj (V c main_v0) (V c main_v2) (V c main_v3) :=
  (dat0 V c).arrAt_eq_of_cover 3 (proj (V c main_v0) (V c main_v2) (V c main_v3)) (fun t _ => flushed_eq V c t) cover

theorem arrAt0_apply (c : Dev nD) (a0 : S8192x512.Idx → EReal) (a1 : S512x1536.Idx → EReal) (a2 : S1x1536.Idx → EReal)
    (h0 : V c main_v0 = a0) (h1 : V c main_v2 = a1) (h2 : V c main_v3 = a2) (i : S8192x1536.Idx) :
    (Cert.KernelIdeal.Hand.dat0 (F := Ideal) V c).arrAt 3 cfg0.N i
      = (∑ k : Fin 512, a0 (ix2 (i 0) k) * a1 (ix2 k (i 1))) + a2 (ix2 0 (i 1)) := by
  subst h0 h1 h2
  rw [arrAt0]

end Cert.KernelIdeal.HandValue

end
-- ==== Proof.HostStages.lean ====
-- The reshapes, transposes and broadcasts around the two kernel regions, read at an index.
import proofs.«416084_j63617055588838_3_alg».proof.Proof.Gen.KernelIdeal.Regions
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HandValue

open Cert.KernelIdeal Cert.KernelIdeal.Gen Idealize.ShloMosaic Idealize.ShloMosaic.TcCoe Idealize.ShloMosaic.ValueIdx

theorem shapeCast_abc_rc_apply {α : Type} {A B C R : Nat} (x : (⟨3, ![A, B, C]⟩ : Shape).Idx → α)
    (h : (⟨3, ![A, B, C]⟩ : Shape).ShapeCasts ⟨2, ![R, C]⟩) (r : Fin R) (k : Fin C) (a : Fin A) (b : Fin B)
    (hr : r.val = a.val * B + b.val) : shapeCast ⟨2, ![R, C]⟩ x h (ix2 r k) = x (ix3 a b k) :=
  shapeCast_apply x h _ _ (by
    rw [Shape.rowMajor_val_three, Shape.rowMajor_val_two]
    show (a.val * B + b.val) * C + k.val = r.val * C + k.val
    rw [hr])

theorem shapeCast_rc_abc_apply {α : Type} {A B C R : Nat} (x : (⟨2, ![R, C]⟩ : Shape).Idx → α)
    (h : (⟨2, ![R, C]⟩ : Shape).ShapeCasts ⟨3, ![A, B, C]⟩) (a : Fin A) (b : Fin B) (k : Fin C) (r : Fin R)
    (hr : r.val = a.val * B + b.val) : shapeCast ⟨3, ![A, B, C]⟩ x h (ix3 a b k) = x (ix2 r k) :=
  shapeCast_apply x h _ _ (by
    rw [Shape.rowMajor_val_three, Shape.rowMajor_val_two]
    show r.val * C + k.val = (a.val * B + b.val) * C + k.val
    rw [hr])

variable (m : (ℓ : Loc nD τ sig) → Buf (Elt Ideal) ℓ) (c : Dev nD) (outs : Outs (F := Ideal))

theorem V1_v0 (row : Fin 8192) (k : Fin 512) :
    (V1 m c main_v0 : S8192x512.Idx → EReal) (ix2 row k)
      = (m ((c : Thread nD τ).loc main_arg0) : S4x2048x512.Idx → EReal)
          (ix3 ⟨row.val / 2048, by have := row.isLt; omega⟩ ⟨row.val % 2048, by have := row.isLt; omega⟩ k) := by
  have e : (V1 m c main_v0 : S8192x512.Idx → EReal)
      = shapeCast S8192x512 (m ((c : Thread nD τ).loc main_arg0) : S4x2048x512.Idx → EReal) shapeCasts_S4x2048x512_S8192x512 := by
    dsimp only [V1, V0, hostOps0]; after_results; rfl
  rw [e]
  exact shapeCast_abc_rc_apply _ _ row k _ _ (by show row.val = row.val / 2048 * 2048 + row.val % 2048; omega)

theorem V1_v2 (k : Fin 512) (o : Fin 1536) :
    (V1 m c main_v2 : S512x1536.Idx → EReal) (ix2 k o)
      = (m ((c : Thread nD τ).loc main_arg1) : S1536x512.Idx → EReal) (ix2 o k) := by
  have e : (V1 m c main_v2 : S512x1536.Idx → EReal)
      = truncf (F := Ideal) .bf16 (transpose S512x1536 [1, 0] (m ((c : Thread nD τ).loc main_arg1) : S1536x512.Idx → EReal)
          transposes_S1536x512_S512x1536_1_0) bitsLt_bf16_f32 := by
    dsimp only [V1, V0, hostOps0]; after_results
  rw [e, truncf_apply]
  exact transpose_ix2_apply _ _ k o

theorem V1_v3 (o : Fin 1536) :
    (V1 m c main_v3 : S1x1536.Idx → EReal) (ix2 (0 : Fin 1) o)
      = (m ((c : Thread nD τ).loc main_arg2) : S1536.Idx → EReal) (ix1 o) := by
  have e : (V1 m c main_v3 : S1x1536.Idx → EReal)
      = shapeCast S1x1536 (m ((c : Thread nD τ).loc main_arg2) : S1536.Idx → EReal) shapeCasts_S1536_S1x1536 := by
    dsimp only [V1, V0, hostOps0]; after_results; rfl
  rw [e]
  exact shapeCast_a_1a_apply _ _ (0 : Fin 1) o

theorem V3_v5 (bi : Fin 4) (n : Fin 2048) (o : Fin 1536) :
    (V3 m outs c main_v5 : S4x2048x1536.Idx → EReal) (ix3 bi n o)
      = (outs 2 main_v4 c : S8192x1536.Idx → EReal)
          (ix2 ⟨bi.val * 2048 + n.val, by have := bi.isLt; have := n.isLt; omega⟩ o) := by
  have e : (V3 m outs c main_v5 : S4x2048x1536.Idx → EReal)
      = shapeCast S4x2048x1536 (outs 2 main_v4 c : S8192x1536.Idx → EReal) shapeCasts_S8192x1536_S4x2048x1536 := by
    dsimp only [V3, V2, hostOps1]; after_results; rw [Function.update_self]; rfl
  rw [e]
  exact shapeCast_rc_abc_apply _ _ bi n o _ rfl

theorem V3_v7 (k o : Fin 512) :
    (V3 m outs c main_v7 : S512x512.Idx → EReal) (ix2 k o)
      = (m ((c : Thread nD τ).loc main_arg3) : S512x512.Idx → EReal) (ix2 o k) := by
  have e3 : V2 m outs c main_arg3 = m ((c : Thread nD τ).loc main_arg3) :=
    (V2_of m outs c main_arg3 (by decide)).trans <| (V1_of m c main_arg3 (by decide)).trans rfl
  have e : (V3 m outs c main_v7 : S512x512.Idx → EReal)
      = truncf (F := Ideal) .bf16 (transpose S512x512 [1, 0] (V2 m outs c main_arg3 : S512x512.Idx → EReal)
          transposes_S512x512_S512x512_1_0) bitsLt_bf16_f32 := by
    dsimp only [V3, hostOps1]; after_results
  rw [e, e3, truncf_apply]
  exact transpose_ix2_apply _ _ k o

theorem V3_v8 (o : Fin 512) :
    (V3 m outs c main_v8 : S1x512.Idx → EReal) (ix2 (0 : Fin 1) o)
      = (m ((c : Thread nD τ).loc main_arg4) : S512.Idx → EReal) (ix1 o) := by
  have e4 : V2 m outs c main_arg4 = m ((c : Thread nD τ).loc main_arg4) :=
    (V2_of m outs c main_arg4 (by decide)).trans <| (V1_of m c main_arg4 (by decide)).trans rfl
  have e : (V3 m outs c main_v8 : S1x512.Idx → EReal)
      = shapeCast S1x512 (V2 m outs c main_arg4 : S512.Idx → EReal) shapeCasts_S512_S1x512 := by
    dsimp only [V3, hostOps1]; after_results; rfl
  rw [e, e4]
  exact shapeCast_a_1a_apply _ _ (0 : Fin 1) o

theorem V3_arg5 : V3 m outs c main_arg5 = m ((c : Thread nD τ).loc main_arg5) :=
  (V3_of m outs c main_arg5 (by decide)).trans <| (V2_of m outs c main_arg5 (by decide)).trans <|
    (V1_of m c main_arg5 (by decide)).trans rfl

end Cert.KernelIdeal.HandValue

end
-- ==== Proof.QkvValue.lean ====
-- What enters the attention region, in terms of the arguments: the fused projection per batch entry, the transposed output weight, the bias row, the mask.
import proofs.«416084_j63617055588838_3_alg».proof.Proof.Value0
import proofs.«416084_j63617055588838_3_alg».proof.Proof.HostStages
import proofs.«416084_j63617055588838_3_alg».proof.Proof.Spec

noncomputable section

namespace Cert.KernelIdeal.HandValue

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

abbrev qEnt0 (c : Dev nD) (b : Ref sig .tc) : Buf (Elt Ideal) ((c : Thread nD τ).loc b) := V1 m c b

abbrev qOutV4 (c : Dev nD) := (Cert.KernelIdeal.Hand.dat0 (F := Ideal) (qEnt0 m) c).arrAt 3 cfg0.N

abbrev qOuts0 : Outs (F := Ideal) := fun _ r c => Function.update (V1 m c) main_v4 (qOutV4 m c) r

abbrev qEnt1 (c : Dev nD) (b : Ref sig .tc) := V3 m (qOuts0 m) c b

theorem outV4_apply (c : Dev nD) (bi : Fin 4) (n : Fin 2048) (o : Fin 1536) (row : Fin 8192)
    (hrow : row.val = bi.val * 2048 + n.val) :
    (qOutV4 m c : S8192x1536.Idx → EReal) (ix2 row o)
      = AttnSpec.qkv (m ((c : Thread nD τ).loc main_arg0)) (m ((c : Thread nD τ).loc main_arg1))
          (m ((c : Thread nD τ).loc main_arg2)) bi n o := by
  refine (arrAt0_apply (qEnt0 m) c (V1 m c main_v0) (V1 m c main_v2) (V1 m c main_v3) rfl rfl rfl (ix2 row o)).trans ?_
  unfold AttnSpec.qkv
  have hn := n.isLt
  refine congrArg₂ (fun u v : EReal => u + v)
    (Finset.sum_congr rfl fun k _ => congrArg₂ (fun u v : EReal => u * v) ?_ ?_) ?_
  · refine (V1_v0 m c row k).trans (congrArg _ (funext fun a => Fin.ext ?_))
    match a with
    | ⟨0, _⟩ => show row.val / 2048 = bi.val; omega
    | ⟨1, _⟩ => show row.val % 2048 = n.val; omega
    | ⟨2, _⟩ => rfl
  · exact V1_v2 m c k o
  · exact V1_v3 m c o

theorem entry_v5 (c : Dev nD) (bi : Fin 4) (n : Fin 2048) (o : Fin 1536) :
    (qEnt1 m c main_v5 : S4x2048x1536.Idx → EReal) (ix3 bi n o)
      = AttnSpec.qkv (m ((c : Thread nD τ).loc main_arg0)) (m ((c : Thread nD τ).loc main_arg1))
          (m ((c : Thread nD τ).loc main_arg2)) bi n o := by
  refine (V3_v5 m c (qOuts0 m) bi n o).trans ?_
  have hu : qOuts0 m 2 main_v4 c = qOutV4 m c := Function.update_self _ _ _
  rw [hu]
  exact outV4_apply m c bi n o _ rfl

theorem entry_v7 (c : Dev nD) (k o : Fin 512) :
    (qEnt1 m c main_v7 : S512x512.Idx → EReal) (ix2 k o)
      = (m ((c : Thread nD τ).loc main_arg3) : S512x512.Idx → EReal) (ix2 o k) :=
  V3_v7 m c (qOuts0 m) k o

theorem entry_v8 (c : Dev nD) (o : Fin 512) :
    (qEnt1 m c main_v8 : S1x512.Idx → EReal) (ix2 (0 : Fin 1) o)
      = (m ((c : Thread nD τ).loc main_arg4) : S512.Idx → EReal) (ix1 o) :=
  V3_v8 m c (qOuts0 m) o

theorem entry_arg5 (c : Dev nD) : qEnt1 m c main_arg5 = m ((c : Thread nD τ).loc main_arg5) :=
  V3_arg5 m c (qOuts0 m)

end Cert.KernelIdeal.HandValue

end
-- ==== Proof.PreFacts.lean ====
-- The precondition read back: every float argument is finite, and every mask row keeps at least one key.
import proofs.«416084_j63617055588838_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Proof.PreFacts

open Idealize.ShloMosaic Idealize.ShloMosaic.ValueIdx

instance subsingleton_scalar_idx : Subsingleton (⟨0, ![]⟩ : Shape).Idx := ⟨fun a b => funext fun d => d.elim0⟩

theorem inf_bits : Ideal.ofBits .f32 0x7F800000#32 = (⊤ : EReal) := by simp [Ideal.ofBits, Ideal.ieee]

theorem real_of_abs_lt_inf (a : EReal)
    (h : FloatOps.cmpf (F := Ideal) (φ := .f32) .olt (FloatOps.hostAbsf (F := Ideal) (φ := .f32) a)
      (FloatOps.ofBits (F := Ideal) .f32 0x7F800000#32) = 1#1) :
    ∃ r : ℝ, a = (r : EReal) := by
  have h' : BitVec.ofBool (decide (max a (-a) < Ideal.ofBits .f32 0x7F800000#32)) = 1#1 := h
  rw [inf_bits, StableHlo.Predicate.ofBool_eq_one_iff, decide_eq_true_eq] at h'
  induction a using EReal.rec with
  | bot => simp at h'
  | coe r => exact ⟨r, rfl⟩
  | top => simp at h'

theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

theorem ne_of_cmpi_ne {w : Nat} {a b : BitVec w} (h : IntOp.cmpi .ne a b = 1#1) : a ≠ b := by
  simpa [IntOp.cmpi, StableHlo.Predicate.ofBool_eq_one_iff] using h

theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr h0 ix0 = 1#1) :
    ∀ i, ∃ r : ℝ, x i = (r : EReal) := fun i =>
  real_of_abs_lt_inf (x i) (Host.reduce_andi_all _ _ hr h0 ix0 e i)

theorem rows_nonzero {B N M : Nat} (mask : IVec ⟨3, ![B, N, M]⟩ 32)
    (hb : (⟨0, ![]⟩ : Shape).BroadcastsInDim ⟨3, ![B, N, M]⟩ (![] : Fin 0 → Fin 3))
    (h2 : (⟨3, ![B, N, M]⟩ : Shape).ReducesTo [2] ⟨2, ![B, N]⟩)
    (h01 : (⟨2, ![B, N]⟩ : Shape).ReducesTo [0, 1] ⟨0, ![]⟩) (h0 : 0 < (⟨0, ![]⟩ : Shape).numel)
    (e : Host.reduce IntOp.andi
        (Host.reduce IntOp.ori (cmpi .ne mask (broadcastInDim ⟨3, ![B, N, M]⟩ ![] hb (constantI ⟨0, ![]⟩ 32 0#32)))
          (constantI ⟨0, ![]⟩ 1 0#1) h2 h0)
        (constantI ⟨0, ![]⟩ 1 1#1) h01 h0 ix0 = 1#1) :
    ∀ (bi : Fin B) (n : Fin N), ∃ mi : Fin M, mask (ix3 bi n mi) ≠ 0#32 := by
  intro bi n
  have h1 := Host.reduce_andi_all _ _ h01 h0 ix0 e (ix2 bi n)
  rw [Host.reduce_eq_foldl] at h1
  rcases foldl_ori_eq_one _ _ _ h1 with hi | ⟨i, hi, hf⟩
  · exact absurd (show (0#1 : BitVec 1) = 1#1 from hi) (by decide)
  · rw [List.mem_filter] at hi
    have hd : h2.drop i = ix2 bi n := of_decide_eq_true hi.2
    have hv0 : (h2.drop i 0 : Nat) = i 0 := Shape.ReducesTo.drop_apply_val h2 i 0
    have hv1 : (h2.drop i 1 : Nat) = i 1 := Shape.ReducesTo.drop_apply_val h2 i 1
    have e0 : i 0 = bi := Fin.ext (by rw [hd] at hv0; exact hv0.symm)
    have e1 : i 1 = n := Fin.ext (by rw [hd] at hv1; exact hv1.symm)
    refine ⟨i 2, ?_⟩
    have hi3 : ix3 bi n (i 2) = i := by rw [← e0, ← e1]; exact (eq_ix3 i).symm
    have hm : mask (ix3 bi n (i 2)) = mask i := congrArg mask hi3
    exact fun hz => ne_of_cmpi_ne hf (hm.symm.trans hz)

variable [Cert.Pre_finite_inputs.Facts]

theorem of_pre (x : FVec Ideal Cert.Pre_finite_inputs.S4x2048x512 .f32) (w : FVec Ideal Cert.Pre_finite_inputs.S1536x512 .f32)
    (b : FVec Ideal Cert.Pre_finite_inputs.S1536 .f32) (pw : FVec Ideal Cert.Pre_finite_inputs.S512x512 .f32)
    (pb : FVec Ideal Cert.Pre_finite_inputs.S512 .f32) (mask : IVec Cert.Pre_finite_inputs.S4x2048x2048 32)
    (h : Cert.Pre_finite_inputs.fn (F := Ideal) x w b pw pb mask = fun _ => 1#1) :
    (∀ i, ∃ r : ℝ, x i = (r : EReal)) ∧ (∀ i, ∃ r : ℝ, w i = (r : EReal)) ∧ (∀ i, ∃ r : ℝ, b i = (r : EReal))
      ∧ (∀ i, ∃ r : ℝ, pw i = (r : EReal)) ∧ (∀ i, ∃ r : ℝ, pb i = (r : EReal))
      ∧ (∀ (bi : Fin 4) (n : Fin 2048), ∃ mi : Fin 2048, mask (ix3 bi n mi) ≠ 0#32) := by
  have h0 := congrFun h ix0
  dsimp only [Cert.Pre_finite_inputs.fn, Cert.Pre_finite_inputs.fn_part1] at h0
  obtain ⟨h0, hmask⟩ := IntOp.andi_eq_one.1 h0
  obtain ⟨h0, hpb⟩ := IntOp.andi_eq_one.1 h0
  obtain ⟨h0, hpw⟩ := IntOp.andi_eq_one.1 h0
  obtain ⟨h0, hb⟩ := IntOp.andi_eq_one.1 h0
  obtain ⟨hx, hw⟩ := IntOp.andi_eq_one.1 h0
  exact ⟨all_real x _ _ _ hx, all_real w _ _ _ hw, all_real b _ _ _ hb, all_real pw _ _ _ hpw, all_real pb _ _ _ hpb,
    rows_nonzero mask _ _ _ _ hmask⟩

end Cert.Proof.PreFacts

end
-- ==== Proof.KernelValue.lean ====
-- The idealized kernel's result array is the specification's function of the argument arrays.
import proofs.«416084_j63617055588838_3_alg».proof.Proof.KernelValueCore
import proofs.«416084_j63617055588838_3_alg».proof.Proof.CaseStepA
import proofs.«416084_j63617055588838_3_alg».proof.Proof.Region1
import proofs.«416084_j63617055588838_3_alg».proof.Proof.RunMain
import proofs.«416084_j63617055588838_3_alg».proof.Proof.QkvValue
import proofs.«416084_j63617055588838_3_alg».proof.Proof.PreFacts
import proofs.«416084_j63617055588838_3_alg».proof.Proof.Gen.Pre_finite_inputs

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

section

variable (V : (c : Dev nD) → (b : Ref sig .tc) → Buf (Elt Ideal) ((c : Thread nD τ).loc b))

abbrev ptScore (c : Dev nD) (t : Fin cfg1.N) : Fin 8 → Fin 1024 → Fin 512 → EReal :=
  tileScore (iblk1 V c 0 t) (iblk1 V c 1 t) (iblk1 V c 3 t)

abbrev ptVal (c : Dev nD) (t : Fin cfg1.N) : Fin 8 → Fin 64 → Fin 512 → EReal :=
  tileVal (iblk1 V c 2 t)

theorem step_first (c : Dev nD) (t : Fin cfg1.N) (h0 : t.val % 4 = 0) :
    StepAt (ptScore V c t) (ptVal V c t) resetScr (scAt V c t.val) := by
  rw [scAt_A V c t h0]
  apply Cert.KernelIdeal.HandValue.stepA

theorem step_next (c : Dev nD) (t : Fin cfg1.N) (h0 : t.val % 4 ≠ 0) :
    StepAt (ptScore V c t) (ptVal V c t) (scAt V c (t.val - 1)) (scAt V c t.val) := by
  by_cases h1 : t.val % 4 = 3
  · rw [scAt_C V c t h0 h1]
    apply Cert.KernelIdeal.HandValue.stepC
  · rw [scAt_B V c t h0 h1]
    apply Cert.KernelIdeal.HandValue.stepB

theorem out_last (c : Dev nD) (t : Fin cfg1.N) (h1 : t.val % 4 = 3) (r : Fin 1024) (o : Fin 512) :
    ((dat1 V c).after 6 t : S1x1024x512.Idx → EReal) (ix3 (0 : Fin 1) r o)
      = OutForm (scAt V c t.val) (iblk1 V c 4 t) (iblk1 V c 5 t) r o := by
  have h0 : ¬t.val % 4 = 0 := by omega
  have e : (dat1 V c).after 6 t = Hand.outC V c t h0 h1 (scAt V c (t.val - 1)) :=
    (after1_6 V c t).trans (out1_6_C V c t h0 h1)
  rw [scAt_C V c t h0 h1]
  refine (congrFun e (ix3 (0 : Fin 1) r o)).trans ?_
  apply Cert.KernelIdeal.HandValue.outC

end

theorem kernel_value (m : (ℓ : Loc nD τ sig) → Buf (Elt Ideal) ℓ) (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    Cert.KernelIdeal.Hand.outV9 (F := Ideal) m c
      = AttnSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨hx, hw, hb, hpw, hpb, hrows⟩ := Cert.Proof.PreFacts.of_pre _ _ _ _ _ _ hpre
  have hE5 : ∀ (bi : Fin 4) (n : Fin 2048) (o : Fin 1536),
      (ent1 (F := Ideal) m c main_v5 : S4x2048x1536.Idx → EReal) (ix3 bi n o)
        = AttnSpec.qkv (m ((c.tc : Thread nD τ).loc main_arg0)) (m ((c.tc : Thread nD τ).loc main_arg1))
            (m ((c.tc : Thread nD τ).loc main_arg2)) bi n o := entry_v5 m c
  have hE7 : ∀ k o : Fin 512, (ent1 (F := Ideal) m c main_v7 : S512x512.Idx → EReal) (ix2 k o)
      = (m ((c.tc : Thread nD τ).loc main_arg3) : S512x512.Idx → EReal) (ix2 o k) := entry_v7 m c
  have hE8 : ∀ o : Fin 512, (ent1 (F := Ideal) m c main_v8 : S1x512.Idx → EReal) (ix2 (0 : Fin 1) o)
      = (m ((c.tc : Thread nD τ).loc main_arg4) : S512.Idx → EReal) (ix1 o) := entry_v8 m c
  have hEm : ent1 (F := Ideal) m c main_arg5 = m ((c.tc : Thread nD τ).loc main_arg5) := entry_arg5 m c
  show (dat1 (ent1 (F := Ideal) m) c).arrAt 6 cfg1.N = _
  refine arrAt6_eq_result _ _ _ _ _ _ hx hw hb hrows c (dat1 (ent1 (F := Ideal) m) c) (scAt (ent1 (F := Ideal) m) c)
    (fun t => ptScore (ent1 (F := Ideal) m) c t) (fun t => ptVal (ent1 (F := Ideal) m) c t)
    (fun t h r kk => blockScore_eq _ _ _ _ (ent1 (F := Ideal) m c main_v5) hE5 (ent1 (F := Ideal) m c main_arg5) hEm t h r kk)
    (fun t h d kk => blockVal_eq _ _ _ (ent1 (F := Ideal) m c main_v5) hE5 t h d kk)
    (fun t h0 => step_first (ent1 (F := Ideal) m) c t h0) (fun t h0 => step_next (ent1 (F := Ideal) m) c t h0)
    (ent1 (F := Ideal) m c main_v7) hE7 (ent1 (F := Ideal) m c main_v8) hE8 ?_
  intro t h1 r o
  have e4 : iblk1 (ent1 (F := Ideal) m) c 4 t = ent1 (F := Ideal) m c main_v7 := blk1_4 (ent1 (F := Ideal) m c main_v7) t
  have e5 : iblk1 (ent1 (F := Ideal) m) c 5 t = ent1 (F := Ideal) m c main_v8 := blk1_5 (ent1 (F := Ideal) m c main_v8) t
  rw [out_last (ent1 (F := Ideal) m) c t h1 r o, e4, e5]

end Cert.KernelIdeal.HandValue

end
-- ==== Proof.RefValue.lean ====
-- The reference's result, read stage by stage at an index, is the specification's function of the argument arrays.
import proofs.«416084_j63617055588838_3_alg».proof.Proof.Gen.ReferenceIdeal.Run
import proofs.«416084_j63617055588838_3_alg».proof.Proof.Gen.ReferenceIdeal.Read
import proofs.«416084_j63617055588838_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem select_cmpi_eq_zero {α : Type} (a : BitVec 32) (A B : α) :
    Scalar.select (IntOp.cmpi .eq a 0#32) A B = if a = 0#32 then A else B := by
  unfold Scalar.select IntOp.cmpi
  by_cases h : a = 0#32
  · subst h; rfl
  · rw [if_neg h]
    have hb : (a == 0#32) = false := beq_eq_false_iff_ne.mpr h
    rw [hb]; rfl

theorem negInf : Ideal.ofBits .f32 0xFF800000#32 = (⊥ : EReal) := by simp [Ideal.ofBits, Ideal.ieee]

theorem lift_row (hR : (⟨4, ![4, 8, 2048, 2048]⟩ : Shape).Reduces [3] (⟨3, ![4, 8, 2048]⟩ : Shape)) (bi : Fin 4) (h : Fin 8) (n : Fin 2048)
    (k : Fin ((⟨4, ![4, 8, 2048, 2048]⟩ : Shape).size 3)) : hR.lift (ix3 bi h n) k = ix4 bi h n (⟨k.val, k.isLt⟩ : Fin 2048) := by
  funext c; apply Fin.ext
  fin_cases c <;> rfl

variable (x0 : (⟨S4x2048x512, .f32⟩ : BufTy).Contents (Elt Ideal)) (x1 : (⟨S1536x512, .f32⟩ : BufTy).Contents (Elt Ideal))
  (x2 : (⟨S1536, .f32⟩ : BufTy).Contents (Elt Ideal)) (x3 : (⟨S512x512, .f32⟩ : BufTy).Contents (Elt Ideal))
  (x4 : (⟨S512, .f32⟩ : BufTy).Contents (Elt Ideal)) (x5 : (⟨S4x2048x2048, .i32⟩ : BufTy).Contents (Elt Ideal))

variable (bi : Fin 4) (n : Fin 2048) (s : Fin 3) (h : Fin 8) (d : Fin 64)

theorem lidx_v0 (o : Fin 1536) (k : Fin 512) : lidx_main_v0 (ix3 bi n o) k = ix3 bi n k :=
  funext fun a => Fin.ext (by match a with | ⟨0, _⟩ => rfl | ⟨1, _⟩ => rfl | ⟨2, _⟩ => rfl)
theorem ridx_v0 (o : Fin 1536) (k : Fin 512) : ridx_main_v0 (ix3 bi n o) k = ix2 o k :=
  funext fun a => Fin.ext (by match a with | ⟨0, _⟩ => rfl | ⟨1, _⟩ => rfl)
theorem idx_v12 (o : Fin 1536) : idx_main_v1 (idx_main_v2 (ix3 bi n o)) = ix1 o :=
  funext fun a => Fin.ext (by match a with | ⟨0, _⟩ => rfl)

theorem v3_at (o : Fin 1536) :
    val_main_v3 (F := Ideal) x0 x1 x2 (ix3 bi n o) = AttnSpec.qkv x0 x1 x2 bi n o := by
  rw [val_main_v3_apply, val_main_v0_apply, val_main_v2_apply, val_main_v1_apply, idx_v12, Ideal.addf_def]
  unfold AttnSpec.qkv
  refine congrArg (· + x2 (ix1 o)) (Finset.sum_congr rfl fun k _ => ?_)
  rw [lidx_v0, ridx_v0]

theorem idx_v4 :
    idx_main_v4 (ix5 bi n s h d) = ix3 bi n (AttnSpec.colIdx s h d) :=
  funext fun a => Fin.ext (by
    have := bi.isLt; have := n.isLt; have := s.isLt; have := h.isLt; have := d.isLt
    match a with
    | ⟨0, _⟩ =>
      show ((((bi.val * 2048 + n.val) * 3 + s.val) * 8 + h.val) * 64 + d.val) / 3145728 = bi.val
      omega
    | ⟨1, _⟩ =>
      show ((((bi.val * 2048 + n.val) * 3 + s.val) * 8 + h.val) * 64 + d.val) / 1536 % 2048 = n.val
      omega
    | ⟨2, _⟩ =>
      show ((((bi.val * 2048 + n.val) * 3 + s.val) * 8 + h.val) * 64 + d.val) % 1536 = s.val * 512 + h.val * 64 + d.val
      omega)

theorem idx_v5 (bi : Fin 4) (h : Fin 8) (n : Fin 2048) (d : Fin 64) :
    idx_main_v5 (ix5 s bi h n d) = ix5 bi n s h d :=
  funext fun a => Fin.ext (by
    match a with
    | ⟨0, _⟩ => rfl
    | ⟨1, _⟩ => rfl
    | ⟨2, _⟩ => rfl
    | ⟨3, _⟩ => rfl
    | ⟨4, _⟩ => rfl)

theorem idx_v6 (n : Fin 2048) (d : Fin 64) :
    idx_main_v6 (ix5 (0 : Fin 1) bi h n d) = ix5 (0 : Fin 3) bi h n d :=
  funext fun a => Fin.ext (by
    match a with
    | ⟨0, _⟩ => rfl
    | ⟨1, _⟩ => rfl
    | ⟨2, _⟩ => rfl
    | ⟨3, _⟩ => rfl
    | ⟨4, _⟩ => rfl)

theorem idx_v8 (n : Fin 2048) (d : Fin 64) :
    idx_main_v8 (ix5 (0 : Fin 1) bi h n d) = ix5 (1 : Fin 3) bi h n d :=
  funext fun a => Fin.ext (by
    match a with
    | ⟨0, _⟩ => rfl
    | ⟨1, _⟩ => rfl
    | ⟨2, _⟩ => rfl
    | ⟨3, _⟩ => rfl
    | ⟨4, _⟩ => rfl)

theorem idx_v10 (n : Fin 2048) (d : Fin 64) :
    idx_main_v10 (ix5 (0 : Fin 1) bi h n d) = ix5 (2 : Fin 3) bi h n d :=
  funext fun a => Fin.ext (by
    match a with
    | ⟨0, _⟩ => rfl
    | ⟨1, _⟩ => rfl
    | ⟨2, _⟩ => rfl
    | ⟨3, _⟩ => rfl
    | ⟨4, _⟩ => rfl)

theorem idx_v7 (n : Fin 2048) (d : Fin 64) :
    idx_main_v7 (ix4 bi h n d) = ix5 (0 : Fin 1) bi h n d :=
  funext fun a => Fin.ext (by
    have := bi.isLt; have := h.isLt; have := n.isLt; have := d.isLt
    match a with
    | ⟨0, _⟩ => rfl
    | ⟨1, _⟩ =>
      show (((bi.val * 8 + h.val) * 2048 + n.val) * 64 + d.val) / 1048576 % 4 = bi.val
      omega
    | ⟨2, _⟩ =>
      show (((bi.val * 8 + h.val) * 2048 + n.val) * 64 + d.val) / 131072 % 8 = h.val
      omega
    | ⟨3, _⟩ =>
      show (((bi.val * 8 + h.val) * 2048 + n.val) * 64 + d.val) / 64 % 2048 = n.val
      omega
    | ⟨4, _⟩ =>
      show (((bi.val * 8 + h.val) * 2048 + n.val) * 64 + d.val) % 64 = d.val
      omega)

theorem idx_v9 (n : Fin 2048) (d : Fin 64) :
    idx_main_v9 (ix4 bi h n d) = ix5 (0 : Fin 1) bi h n d :=
  funext fun a => Fin.ext (by
    have := bi.isLt; have := h.isLt; have := n.isLt; have := d.isLt
    match a with
    | ⟨0, _⟩ => rfl
    | ⟨1, _⟩ =>
      show (((bi.val * 8 + h.val) * 2048 + n.val) * 64 + d.val) / 1048576 % 4 = bi.val
      omega
    | ⟨2, _⟩ =>
      show (((bi.val * 8 + h.val) * 2048 + n.val) * 64 + d.val) / 131072 % 8 = h.val
      omega
    | ⟨3, _⟩ =>
      show (((bi.val * 8 + h.val) * 2048 + n.val) * 64 + d.val) / 64 % 2048 = n.val
      omega
    | ⟨4, _⟩ =>
      show (((bi.val * 8 + h.val) * 2048 + n.val) * 64 + d.val) % 64 = d.val
      omega)

theorem idx_v11 (n : Fin 2048) (d : Fin 64) :
    idx_main_v11 (ix4 bi h n d) = ix5 (0 : Fin 1) bi h n d :=
  funext fun a => Fin.ext (by
    have := bi.isLt; have := h.isLt; have := n.isLt; have := d.isLt
    match a with
    | ⟨0, _⟩ => rfl
    | ⟨1, _⟩ =>
      show (((bi.val * 8 + h.val) * 2048 + n.val) * 64 + d.val) / 1048576 % 4 = bi.val
      omega
    | ⟨2, _⟩ =>
      show (((bi.val * 8 + h.val) * 2048 + n.val) * 64 + d.val) / 131072 % 8 = h.val
      omega
    | ⟨3, _⟩ =>
      show (((bi.val * 8 + h.val) * 2048 + n.val) * 64 + d.val) / 64 % 2048 = n.val
      omega
    | ⟨4, _⟩ =>
      show (((bi.val * 8 + h.val) * 2048 + n.val) * 64 + d.val) % 64 = d.val
      omega)

theorem v7_at (n : Fin 2048) (d : Fin 64) :
    val_main_v7 (F := Ideal) x0 x1 x2 (ix4 bi h n d) = AttnSpec.qkv x0 x1 x2 bi n (AttnSpec.colIdx 0 h d) := by
  rw [val_main_v7_apply, idx_v7, val_main_v6_apply, idx_v6, val_main_v5_apply, idx_v5, val_main_v4_apply, idx_v4, v3_at]

theorem v9_at (n : Fin 2048) (d : Fin 64) :
    val_main_v9 (F := Ideal) x0 x1 x2 (ix4 bi h n d) = AttnSpec.qkv x0 x1 x2 bi n (AttnSpec.colIdx 1 h d) := by
  rw [val_main_v9_apply, idx_v9, val_main_v8_apply, idx_v8, val_main_v5_apply, idx_v5, val_main_v4_apply, idx_v4, v3_at]

theorem v11_at (n : Fin 2048) (d : Fin 64) :
    val_main_v11 (F := Ideal) x0 x1 x2 (ix4 bi h n d) = AttnSpec.qkv x0 x1 x2 bi n (AttnSpec.colIdx 2 h d) := by
  rw [val_main_v11_apply, idx_v11, val_main_v10_apply, idx_v10, val_main_v5_apply, idx_v5, val_main_v4_apply, idx_v4, v3_at]

theorem lidx_v12 (n m' : Fin 2048) (k : Fin 64) : lidx_main_v12 (ix4 bi h n m') k = ix4 bi h n k :=
  funext fun a => Fin.ext (by match a with | ⟨0, _⟩ => rfl | ⟨1, _⟩ => rfl | ⟨2, _⟩ => rfl | ⟨3, _⟩ => rfl)
theorem ridx_v12 (n m' : Fin 2048) (k : Fin 64) : ridx_main_v12 (ix4 bi h n m') k = ix4 bi h m' k :=
  funext fun a => Fin.ext (by match a with | ⟨0, _⟩ => rfl | ⟨1, _⟩ => rfl | ⟨2, _⟩ => rfl | ⟨3, _⟩ => rfl)

theorem v14_at (n m' : Fin 2048) :
    val_main_v14 (F := Ideal) x0 x1 x2 (ix4 bi h n m') = AttnSpec.score x0 x1 x2 bi h n m' := by
  rw [val_main_v14_apply, val_main_v12_apply, val_main_v13_apply, val_main_cst_apply, Ideal.mulf_def, Ideal.ofBits_def]
  unfold AttnSpec.score
  refine congrArg (· * Ideal.ofBits .f32 0x3E000000#32) (Finset.sum_congr rfl fun k _ => ?_)
  rw [lidx_v12, ridx_v12, v7_at, v9_at]

theorem idx_c1 (n m' : Fin 2048) : idx_main_v15 (idx_main_call0_v1 (ix4 bi h n m')) = ix3 bi n m' :=
  funext fun a => Fin.ext (by match a with | ⟨0, _⟩ => rfl | ⟨1, _⟩ => rfl | ⟨2, _⟩ => rfl)

theorem v18_at (n m' : Fin 2048) :
    val_main_v18 (F := Ideal) x0 x1 x2 x5 (ix4 bi h n m') = AttnSpec.masked x0 x1 x2 x5 bi h n m' := by
  rw [val_main_v18_apply, val_main_call0_v1_apply, val_main_v17_apply, val_main_v15_apply, val_main_v16_apply, val_main_c_apply,
    val_main_call0_v2_apply, val_main_call0_v0_apply, val_main_cst_0_apply, v14_at, idx_c1, select_cmpi_eq_zero, Ideal.ofBits_def, negInf]
  rfl

theorem v19_at (n : Fin 2048) :
    val_main_v19 (F := Ideal) x0 x1 x2 x5 (ix3 bi h n)
      = (Finset.univ : Finset (Fin 2048)).fold max ⊥ fun k => AttnSpec.masked x0 x1 x2 x5 bi h n k := by
  have hR : S4x8x2048x2048.Reduces [3] S4x8x2048 := by decide
  unfold val_main_v19
  rw [Host.reduce_eq_fold_single FloatOps.maximumf _ _ _ hR _, val_main_cst_1_apply, Ideal.ofBits_def, negInf]
  have hf : (val_main_v18 (F := Ideal) x0 x1 x2 x5 ∘ hR.lift (ix3 bi h n)) = fun k : Fin 2048 => AttnSpec.masked x0 x1 x2 x5 bi h n k :=
    funext fun k => by
      show val_main_v18 (F := Ideal) x0 x1 x2 x5 (hR.lift (ix3 bi h n) k) = _
      rw [lift_row hR bi h n k]
      exact v18_at x0 x1 x2 x5 bi h n _
  rw [hf]
  rfl

theorem v21_at (n : Fin 2048) :
    val_main_v21 (F := Ideal) x0 x1 x2 x5 (ix3 bi h n) = AttnSpec.rowTop x0 x1 x2 x5 bi h n := by
  rw [val_main_v21_apply, val_main_v20_apply, val_main_cst_2_apply, v19_at, Ideal.maximumf_def, Ideal.ofBits_def, negInf]
  rfl

theorem idx_v2223 (n m' : Fin 2048) : idx_main_v22 (idx_main_v23 (ix4 bi h n m')) = ix3 bi h n :=
  funext fun a => Fin.ext (by match a with | ⟨0, _⟩ => rfl | ⟨1, _⟩ => rfl | ⟨2, _⟩ => rfl)

theorem v25_at (n m' : Fin 2048) :
    val_main_v25 (F := Ideal) x0 x1 x2 x5 (ix4 bi h n m') = AttnSpec.expw x0 x1 x2 x5 bi h n m' := by
  rw [val_main_v25_apply, val_main_v24_apply, val_main_v23_apply, val_main_v22_apply, idx_v2223, v21_at, v18_at,
    Ideal.hostUnary_exp_def, Ideal.subf_def]
  rfl

theorem idx_v26 (n : Fin 2048) (k : Fin 2048) : idx_main_v26 (ix3 bi h n) k = ix4 bi h n k :=
  funext fun a => Fin.ext (by match a with | ⟨0, _⟩ => rfl | ⟨1, _⟩ => rfl | ⟨2, _⟩ => rfl | ⟨3, _⟩ => rfl)

theorem v26_at (n : Fin 2048) :
    val_main_v26 (F := Ideal) x0 x1 x2 x5 (ix3 bi h n) = 0 + ∑ k : Fin 2048, AttnSpec.expw x0 x1 x2 x5 bi h n k := by
  rw [val_main_v26_apply, val_main_cst_3_apply, Ideal.ofBits_def, Ideal.ofBits_zero_f32]
  refine congrArg (0 + ·) (Finset.sum_congr rfl fun k _ => ?_)
  rw [idx_v26, v25_at]

theorem idx_v2728 (n m' : Fin 2048) : idx_main_v27 (idx_main_v28 (ix4 bi h n m')) = ix3 bi h n :=
  funext fun a => Fin.ext (by match a with | ⟨0, _⟩ => rfl | ⟨1, _⟩ => rfl | ⟨2, _⟩ => rfl)

theorem v29_at (n m' : Fin 2048) :
    val_main_v29 (F := Ideal) x0 x1 x2 x5 (ix4 bi h n m') = AttnSpec.weight x0 x1 x2 x5 bi h n m' := by
  rw [val_main_v29_apply, val_main_v28_apply, val_main_v27_apply, idx_v2728, v26_at, v25_at, Ideal.hostDivf_def]
  rfl

theorem lidx_v30 (n : Fin 2048) (d : Fin 64) (k : Fin 2048) : lidx_main_v30 (ix4 bi h n d) k = ix4 bi h n k :=
  funext fun a => Fin.ext (by match a with | ⟨0, _⟩ => rfl | ⟨1, _⟩ => rfl | ⟨2, _⟩ => rfl | ⟨3, _⟩ => rfl)
theorem ridx_v30 (n : Fin 2048) (d : Fin 64) (k : Fin 2048) : ridx_main_v30 (ix4 bi h n d) k = ix4 bi h k d :=
  funext fun a => Fin.ext (by match a with | ⟨0, _⟩ => rfl | ⟨1, _⟩ => rfl | ⟨2, _⟩ => rfl | ⟨3, _⟩ => rfl)

theorem v30_at (n : Fin 2048) (d : Fin 64) :
    val_main_v30 (F := Ideal) x0 x1 x2 x5 (ix4 bi h n d) = AttnSpec.headOut x0 x1 x2 x5 bi h n d := by
  rw [val_main_v30_apply]
  unfold AttnSpec.headOut
  refine Finset.sum_congr rfl fun k _ => ?_
  rw [lidx_v30, ridx_v30, v29_at, v11_at]

theorem idx_v31 : idx_main_v31 (ix4 bi n h d) = ix4 bi h n d :=
  funext fun a => Fin.ext (by match a with | ⟨0, _⟩ => rfl | ⟨1, _⟩ => rfl | ⟨2, _⟩ => rfl | ⟨3, _⟩ => rfl)

theorem idx_v32 (c : Fin 512) :
    idx_main_v32 (ix3 bi n c) = ix4 bi n (AttnSpec.headOf c) (AttnSpec.laneOf c) :=
  funext fun a => Fin.ext (by
    have := bi.isLt; have := n.isLt; have := c.isLt
    match a with
    | ⟨0, _⟩ =>
      show ((bi.val * 2048 + n.val) * 512 + c.val) / 1048576 = bi.val
      omega
    | ⟨1, _⟩ =>
      show ((bi.val * 2048 + n.val) * 512 + c.val) / 512 % 2048 = n.val
      omega
    | ⟨2, _⟩ =>
      show ((bi.val * 2048 + n.val) * 512 + c.val) / 64 % 8 = c.val / 64
      omega
    | ⟨3, _⟩ =>
      show ((bi.val * 2048 + n.val) * 512 + c.val) % 64 = c.val % 64
      omega)

theorem v32_at (c : Fin 512) :
    val_main_v32 (F := Ideal) x0 x1 x2 x5 (ix3 bi n c)
      = AttnSpec.headOut x0 x1 x2 x5 bi (AttnSpec.headOf c) n (AttnSpec.laneOf c) := by
  rw [val_main_v32_apply, idx_v32, val_main_v31_apply, idx_v31, v30_at]

theorem lidx_v33 (o k : Fin 512) : lidx_main_v33 (ix3 bi n o) k = ix3 bi n k :=
  funext fun a => Fin.ext (by match a with | ⟨0, _⟩ => rfl | ⟨1, _⟩ => rfl | ⟨2, _⟩ => rfl)
theorem ridx_v33 (o k : Fin 512) : ridx_main_v33 (ix3 bi n o) k = ix2 o k :=
  funext fun a => Fin.ext (by match a with | ⟨0, _⟩ => rfl | ⟨1, _⟩ => rfl)
theorem idx_v3435 (o : Fin 512) : idx_main_v34 (idx_main_v35 (ix3 bi n o)) = ix1 o :=
  funext fun a => Fin.ext (by match a with | ⟨0, _⟩ => rfl)

theorem v36_at (o : Fin 512) :
    val_main_v36 (F := Ideal) x0 x1 x2 x3 x4 x5 (ix3 bi n o) = AttnSpec.out x0 x1 x2 x3 x4 x5 bi n o := by
  rw [val_main_v36_apply, val_main_v33_apply, val_main_v35_apply, val_main_v34_apply, idx_v3435, Ideal.addf_def]
  unfold AttnSpec.out
  refine congrArg (· + x4 (ix1 o)) (Finset.sum_congr rfl fun k _ => ?_)
  rw [lidx_v33, ridx_v33, v32_at]

theorem val36_eq : val_main_v36 (F := Ideal) x0 x1 x2 x3 x4 x5 = AttnSpec.result x0 x1 x2 x3 x4 x5 := by
  funext i
  obtain ⟨bi, n, o, rfl⟩ : ∃ (bi : Fin 4) (n : Fin 2048) (o : Fin 512), i = ix3 bi n o := ⟨i 0, i 1, i 2, eq_ix3 i⟩
  exact v36_at x0 x1 x2 x3 x4 x5 bi n o

theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_out0 (F := Ideal) m c
      = AttnSpec.result (m ((c.tc : Thread _ _).loc Cert.ReferenceIdeal.main_arg0)) (m ((c.tc : Thread _ _).loc Cert.ReferenceIdeal.main_arg1))
          (m ((c.tc : Thread _ _).loc Cert.ReferenceIdeal.main_arg2)) (m ((c.tc : Thread _ _).loc Cert.ReferenceIdeal.main_arg3))
          (m ((c.tc : Thread _ _).loc Cert.ReferenceIdeal.main_arg4)) (m ((c.tc : Thread _ _).loc Cert.ReferenceIdeal.main_arg5)) := by
  show Cert.ReferenceIdeal.Value.res_main_v36 (F := Ideal) m c = _
  rw [val_main_v36_eq]
  exact val36_eq _ _ _ _ _ _

end Cert.ReferenceIdeal.RefValue

end
-- ==== Proof.lean ====
-- The claim: the three frames, the named fill constant's value, and equal results of the idealized kernel and the idealized reference.
import proofs.«416084_j63617055588838_3_alg».proof.Defs
import proofs.«416084_j63617055588838_3_alg».proof.Proof.Gen.Kernel
import proofs.«416084_j63617055588838_3_alg».proof.Proof.Gen.KernelIdeal
import proofs.«416084_j63617055588838_3_alg».proof.Proof.Gen.ReferenceIdeal
import proofs.«416084_j63617055588838_3_alg».proof.Proof.Gen.Pre_finite_inputs
import proofs.«416084_j63617055588838_3_alg».proof.Proof.Gen.ReferenceIdeal.Run
import proofs.«416084_j63617055588838_3_alg».proof.Proof.KRunMain
import proofs.«416084_j63617055588838_3_alg».proof.Proof.RunMain
import proofs.«416084_j63617055588838_3_alg».proof.Proof.KernelValue
import proofs.«416084_j63617055588838_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem fill_is_bot : IdealRules.named_const.Statement Cert.KernelIdeal.κ "neg_big" .f32 0xFF333333#32 ⊥ :=
  IdealRules.named_const.statement Cert.KernelIdeal.κ "neg_big" .f32 0xFF333333#32 ⊥ rfl

theorem preserves : Cert.preserves_Kernel_KernelIdeal :=
  ⟨fill_is_bot, fill_is_bot, fill_is_bot, fill_is_bot, fill_is_bot, fill_is_bot, fill_is_bot, fill_is_bot⟩

theorem algebraic : Cert.algebraic_KernelIdeal_ReferenceIdeal := by
  intro m ρ m' ρ' hpre hagree
  refine ⟨fun c => AttnSpec.result (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)), ?_, ?_⟩
  · exact (θ_run Cert.KernelIdeal.defs _ _).mono
      (fun _ h c => ⟨(h c).1.trans (Cert.KernelIdeal.HandValue.kernel_value m c (hpre c)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v36 (F := Ideal) m' c = Cert.ReferenceIdeal.Value.res_out0 (F := Ideal) m' c from rfl,
      Cert.ReferenceIdeal.RefValue.ref_result m' c,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
